-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S8192 : Shape := ⟨1, ![8192]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S8192 : S_.BroadcastsInDim S8192 (![] : Fin 0 → Fin S8192.rank)
  reducesTo_S8192_S_d0 : S8192.ReducesTo [0] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S8192 .f32) (main_arg5 : FVec F S256x64 .f32) (main_arg6 : FVec F S8192 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x512 .f32) (main_arg1 : FVec F S8192x8192 .f32) (main_arg2 : FVec F S8192x8192 .f32) (main_arg3 : FVec F S512x256 .f32) (main_arg4 : FVec F S8192 .f32) (main_arg5 : FVec F S256x64 .f32) (main_arg6 : FVec F S8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S8192 : Shape := ⟨1, ![8192]⟩
abbrev S256x64 : Shape := ⟨2, ![256, 64]⟩
abbrev S8192x256 : Shape := ⟨2, ![8192, 256]⟩
abbrev S1024x512 : Shape := ⟨2, ![1024, 512]⟩
abbrev S1024x256 : Shape := ⟨2, ![1024, 256]⟩
abbrev S8192x1 : Shape := ⟨2, ![8192, 1]⟩
abbrev S1024x2048 : Shape := ⟨2, ![1024, 2048]⟩
abbrev S2048x256 : Shape := ⟨2, ![2048, 256]⟩
abbrev S1024x1 : Shape := ⟨2, ![1024, 1]⟩
abbrev S8192x64 : Shape := ⟨2, ![8192, 64]⟩
abbrev S1024x64 : Shape := ⟨2, ![1024, 64]⟩
abbrev S2048x64 : Shape := ⟨2, ![2048, 64]⟩
abbrev S1024 : Shape := ⟨1, ![1024]⟩

abbrev nBuf : Space → Nat
  | .hbm => 15
  | .vmem => 42
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S8192, .f32⟩
  | .hbm, ⟨5, _⟩ => ⟨S256x64, .f32⟩
  | .hbm, ⟨6, _⟩ => ⟨S8192, .f32⟩
  | .hbm, ⟨7, _⟩ => ⟨S8192x256, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x64, .f32⟩
  | .hbm, ⟨12, _⟩ => ⟨S8192x1, .f32⟩
  | .hbm, ⟨13, _⟩ => ⟨S8192x64, .f32⟩
  | .hbm, ⟨14, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x2048, .f32⟩
  | .local _ .vmem, ⟨6, _⟩ => ⟨S1024x2048, .f32⟩
  | .local _ .vmem, ⟨7, _⟩ => ⟨S2048x256, .f32⟩
  | .local _ .vmem, ⟨8, _⟩ => ⟨S2048x256, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x2048, .f32⟩
  | .local _ .vmem, ⟨15, _⟩ => ⟨S1024x2048, .f32⟩
  | .local _ .vmem, ⟨16, _⟩ => ⟨S2048x256, .f32⟩
  | .local _ .vmem, ⟨17, _⟩ => ⟨S2048x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S256x64, .f32⟩
  | .local _ .vmem, ⟨24, _⟩ => ⟨S1024x64, .f32⟩
  | .local _ .vmem, ⟨25, _⟩ => ⟨S1024x64, .f32⟩
  | .local _ .vmem, ⟨26, _⟩ => ⟨S1024x2048, .f32⟩
  | .local _ .vmem, ⟨27, _⟩ => ⟨S1024x2048, .f32⟩
  | .local _ .vmem, ⟨28, _⟩ => ⟨S2048x64, .f32⟩
  | .local _ .vmem, ⟨29, _⟩ => ⟨S2048x64, .f32⟩
  | .local _ .vmem, ⟨30, _⟩ => ⟨S1024x1, .f32⟩
  | .local _ .vmem, ⟨31, _⟩ => ⟨S1024x1, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x2048, .f32⟩
  | .local _ .vmem, ⟨36, _⟩ => ⟨S1024x2048, .f32⟩
  | .local _ .vmem, ⟨37, _⟩ => ⟨S2048x64, .f32⟩
  | .local _ .vmem, ⟨38, _⟩ => ⟨S2048x64, .f32⟩
  | .local _ .vmem, ⟨39, _⟩ => ⟨S1024x64, .f32⟩
  | .local _ .vmem, ⟨40, _⟩ => ⟨S1024x64, .f32⟩
  | .local _ .vmem, ⟨41, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S8192_S8192x1 : S8192.ShapeCasts S8192x1
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1024x1_S1024x64 : S1024x1.Broadcasts S1024x64
  reduces_S1024x64_S1024 : S1024x64.Reduces [1] S1024
  shapeCasts_S1024_S1024x1 : S1024.ShapeCasts S1024x1
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x64_S1024x64_1_0_0_1_n_n_wf : DotDims.WF S1024x256 S256x64 S1024x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .f32 = 32 ∨ (Rect.block (s := S8192x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S8192x64.size a
  hwx3_2 : ∀ i : grid3.Coords, EltTy.bits .f32 = 32 ∨ (Rect.block (s := S8192x64) S1024x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x8192.size a
  hwx4_0 : ∀ i : grid4.Coords, EltTy.bits .f32 = 32 ∨ (Rect.block (s := S8192x8192) S1024x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S8192x64.size a
  hwx4_1 : ∀ i : grid4.Coords, EltTy.bits .f32 = 32 ∨ (Rect.block (s := S8192x64) S2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S8192x1.size a
  hwx4_2 : ∀ i : grid4.Coords, EltTy.bits .f32 = 32 ∨ (Rect.block (s := S8192x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S8192x64.size a
  hwx4_3 : ∀ i : grid4.Coords, EltTy.bits .f32 = 32 ∨ (Rect.block (s := S8192x64) S1024x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .f32 = 32 ∨ (Rect.block (s := S8192x8192) S1024x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S8192x64.size a
  hwx5_1 : ∀ i : grid5.Coords, EltTy.bits .f32 = 32 ∨ (Rect.block (s := S8192x64) S2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S8192x64.size a
  hwx5_2 : ∀ i : grid5.Coords, EltTy.bits .f32 = 32 ∨ (Rect.block (s := S8192x64) S1024x64.size (cc5_transform_2 i) (hinb5_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v3) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg2) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v6) S1024x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg1) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1024x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S8192 : Shape := ⟨1, ![8192]⟩
abbrev S256x64 : Shape := ⟨2, ![256, 64]⟩
abbrev S8192x256 : Shape := ⟨2, ![8192, 256]⟩
abbrev S8192x1 : Shape := ⟨2, ![8192, 1]⟩
abbrev S_ : Shape := ⟨0, ![]⟩
abbrev S8192x64 : Shape := ⟨2, ![8192, 64]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S8192, .f32⟩
  | .hbm, ⟨5, _⟩ => ⟨S256x64, .f32⟩
  | .hbm, ⟨6, _⟩ => ⟨S8192, .f32⟩
  | .hbm, ⟨7, _⟩ => ⟨S8192x256, .f32⟩
  | .hbm, ⟨8, _⟩ => ⟨S8192x256, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x64, .f32⟩
  | .hbm, ⟨17, _⟩ => ⟨S8192x64, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S8192x64, .f32⟩
  | .hbm, ⟨36, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v13 : Ref sig .tc := ⟨.hbm, 36, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S8192x1_S8192x64_0_1 : S8192x1.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.HandBits.Iface.lean ====
import proofs.«108687_j68341519613982_1_alg».proof.Proof.Gen.Kernel.Launch
import proofs.«108687_j68341519613982_1_alg».proof.Proof.Gen.Kernel.Skeleton
import proofs.«108687_j68341519613982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run of the whole program asks of the launch `cfg`, entered with the buffers at `V`. -/
structure Region (cfg : Cfg sig Λ₀) (V : (c : Dev nD) → (b : Ref sig .tc) → Buf (Elt F) ((c : Thread nD τ).loc b)) where
  dat : (c : Dev nD) → Dat τ (Elt F) Unit ℕ (UR sig nD τ) ℕ cfg c
  A_eq : ∀ (c : Dev nD) (w : Fin cfg.W), (dat c).A w = V c (Pipeline.arrRef cfg.spec w)
  body : ∀ c : Dev nD, BodyObligation (dat c) (defs₀ (F := F)) Variants.none () Set.univ
  q_full : ∀ (c : Dev nD) (w : Fin cfg.W), (dat c).q w = fullShare
  owed_zero : ∀ (c : Dev nD) t, (dat c).owed t = 0
  recorded_univ : ∀ c : Dev nD, (dat c).recorded 0 = Set.univ
  phi_in : ∀ c : Dev nD, (Pipeline.ΦA cfg.spec c : sProp 𝕄) ⊢ (dat c).Φ 0
  phi_out : ∀ c : Dev nD, (dat c).Φ (Fin.last cfg.N) ⊢ (Pipeline.ΦA cfg.spec c : sProp 𝕄)

end Cert.Kernel.Hand

end
-- ==== Proof.HandBits.R0.lean ====
import proofs.«108687_j68341519613982_1_alg».proof.Proof.HandBits.Iface

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r0_iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_boxX : Rect S1024x512 := Rect.unit (s := S1024x512) ![0, 0] S1024x512.size inb_S1024x512_S1024x512_0_0
abbrev r0_boxW : Rect S512x256 := Rect.unit (s := S512x256) ![0, 0] S512x256.size inb_S512x256_S512x256_0_0
abbrev r0_boxT : Rect S1024x256 := Rect.unit (s := S1024x256) ![0, 0] S1024x256.size inb_S1024x256_S1024x256_0_0

def r0_out (x : Vec F S1024x512 .f32) (w : Vec F S512x256 .f32) : Vec F S1024x256 .f32 :=
  View.canon [⟨r0_boxT, k0_pay1 (View.ld x r0_boxX) (View.ld w r0_boxW)⟩]

theorem r0_cover (p : Vec F S1024x256 .f32) (y : S1024x256.Idx) :
    ∃ pc ∈ ([⟨r0_boxT, p⟩] : List (View.Piece (Elt F) S1024x256 .f32)), y ∈ pc.1.set :=
  View.cover_of_tiled [⟨r0_boxT, p⟩] S1024x256.size (by rfl) y

set_option maxHeartbeats 1000000 in

theorem r0_sound_kernel (c : Dev nD) (E : Set ℕ) (i : grid0.Coords)
    (arg1 : Memref sig .tc .vmem S1024x512 .f32) (harg1 : arg1.IsWhole)
    (arg2 : Memref sig .tc .vmem S512x256 .f32) (harg2 : arg2.IsWhole)
    (arg3 : Memref sig .tc .vmem S1024x256 .f32) (harg3 : arg3.IsWhole)
    (x : Vec F S1024x512 .f32) (w : Vec F S512x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (r0_out x w)) -∗ K ⟨⟩))
      ⊢ wp frame (wpE (defs₀ (F := F)) Variants.none c none) E (cc0__small_matmul_kernel i arg1 harg1 arg2 harg2 arg3 harg3) K := by
  simp only [cc0__small_matmul_kernel_eq_skeleton]; unfold cc0__small_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (r0_cover _)

def r0_dat (c : Dev nD) : Dat τ (Elt F) Unit ℕ (UR sig nD τ) ℕ cfg0 c where
  A w := V c (Pipeline.arrRef spec0 w)
  after w t := match w with
    | ⟨0, _⟩ => r0_iblk V c 0 t
    | ⟨1, _⟩ => r0_iblk V c 1 t
    | ⟨2, _⟩ => r0_out (r0_iblk V c 0 t) (r0_iblk V c 1 t)
  Φ _ := Pipeline.ΦA spec0 c
  q _ := fullShare
  owed _ := 0

theorem r0_A_eq (c : Dev nD) (w : Fin cfg0.W) : (r0_dat V c).A w = V c (Pipeline.arrRef spec0 w) := by
  dsimp only [r0_dat]

theorem r0_after_0 (c : Dev nD) (t : Fin cfg0.N) : (r0_dat V c).after 0 t = r0_iblk V c 0 t := by dsimp only [r0_dat]
theorem r0_after_1 (c : Dev nD) (t : Fin cfg0.N) : (r0_dat V c).after 1 t = r0_iblk V c 1 t := by dsimp only [r0_dat]
theorem r0_after_2 (c : Dev nD) (t : Fin cfg0.N) :
    (r0_dat V c).after 2 t = r0_out (r0_iblk V c 0 t) (r0_iblk V c 1 t) := by dsimp only [r0_dat]

theorem r0_before_0 (c : Dev nD) (t : Fin cfg0.N) (d) : (r0_dat V c).before 0 t d = r0_iblk V c 0 t :=
  (r0_dat V c).before_in_eq_fetched 0 rfl (fun _ => rfl) (fun _ _ _ => rfl) (fun _ => rfl) t d
theorem r0_before_1 (c : Dev nD) (t : Fin cfg0.N) (d) : (r0_dat V c).before 1 t d = r0_iblk V c 1 t :=
  (r0_dat V c).before_in_eq_fetched 1 rfl (fun _ => rfl) (fun _ _ _ => rfl) (fun _ => rfl) t d

def r0_bodyPre (c : Dev nD) (t : Fin cfg0.N) : sProp 𝕄 :=
  iprop((r0_dat V c).Φ t.castSucc ∗ (r0_dat V c).owesAt () t.castSucc
    ∗ (∃ d, owns (c : Thread nD τ) (st0_0 t) fullShare ((r0_dat V c).before 0 t d))
    ∗ (∃ d, owns (c : Thread nD τ) (st0_1 t) fullShare ((r0_dat V c).before 1 t d))
    ∗ (∃ d, owns (c : Thread nD τ) (st0_2 t) fullShare ((r0_dat V c).before 2 t d)))

def r0_bodyPost (c : Dev nD) (t : Fin cfg0.N) : sProp 𝕄 :=
  iprop((r0_dat V c).Φ t.succ ∗ (r0_dat V c).owesAt () t.succ
    ∗ owns (c : Thread nD τ) (st0_0 t) fullShare ((r0_dat V c).after 0 t)
    ∗ owns (c : Thread nD τ) (st0_1 t) fullShare ((r0_dat V c).after 1 t)
    ∗ owns (c : Thread nD τ) (st0_2 t) fullShare ((r0_dat V c).after 2 t))

theorem r0_sound_body (c : Dev nD) (t : Fin cfg0.N) :
    r0_bodyPre V c t ⊢ wp frame (wpE (defs₀ (F := F)) Variants.none c none) Set.univ (bodyAt0 t) (fun _ => r0_bodyPost V c t) := by
  unfold r0_bodyPre r0_bodyPost bodyAt0
  simp only [r0_before_0, r0_before_1]
  rw [show (r0_dat V c).Φ t.succ = (r0_dat V c).Φ t.castSucc from rfl,
    show (r0_dat V c).owesAt () t.succ = (r0_dat V c).owesAt () t.castSucc from rfl,
    r0_after_0, r0_after_1, r0_after_2]
  iintro ⟨HΦ, Ho, ⟨%d0, H0⟩, ⟨%d1, H1⟩, ⟨%d2, H2⟩⟩
  iapply (r0_sound_kernel c Set.univ _ _ _ _ _ _ _ (r0_iblk V c 0 t) (r0_iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem r0_body_obligation (c : Dev nD) : BodyObligation (r0_dat (F := F) V c) (defs₀ (F := F)) Variants.none () Set.univ := fun t => by
  rw [bigSep_W0, bigSep_W0]
  exact r0_sound_body V c t

end

def region0 (V : (c : Dev nD) → (b : Ref sig .tc) → Buf (Elt F) ((c : Thread nD τ).loc b)) : Region (F := F) cfg0 V where
  dat := r0_dat V
  A_eq := r0_A_eq V
  body := r0_body_obligation V
  q_full _ _ := rfl
  owed_zero _ _ := rfl
  recorded_univ _ := rfl
  phi_in _ := .rfl
  phi_out _ := .rfl

end Cert.Kernel.Hand

end
-- ==== Proof.HandBits.R1a.lean ====
import proofs.«108687_j68341519613982_1_alg».proof.Proof.HandBits.Iface
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r1_iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

theorem r1_hz : (![0, 0] : Fin 2 → Nat) = fun _ => 0 := funext fun a => by fin_cases a <;> rfl

abbrev r1_cond0 (i : grid1.Coords) : Prop := (Scalar.cmpi .ne (Scalar.extui (Scalar.cmpi .eq (BitVec.ofNat 32 (i 1).val) 0#32)) 0#32) = 1#1

theorem r1_hcond0 : ∀ t : Fin cfg1.N, r1_cond0 (grid1.coords t) ↔ t.val % 4 = 0 :=
  (by decide +kernel : ∀ t : Fin grid1.N, r1_cond0 (grid1.coords t) ↔ t.val % 4 = 0)

abbrev r1_cond1 (i : grid1.Coords) : Prop := k1_cond2 i = 1#1

theorem r1_hcond1 : ∀ t : Fin cfg1.N, r1_cond1 (grid1.coords t) ↔ t.val % 4 = 3 :=
  (by decide +kernel : ∀ t : Fin grid1.N, r1_cond1 (grid1.coords t) ↔ t.val % 4 = 3)

theorem r1_liveAt_0 : ∀ t : Fin cfg1.N, cfg1.idle 0 (grid1.coords t) = false := fun _ => rfl
theorem r1_liveAt_1 : ∀ t : Fin cfg1.N, cfg1.idle 1 (grid1.coords t) = false := fun _ => rfl
theorem r1_liveAt_2 : ∀ t : Fin cfg1.N, cfg1.idle 2 (grid1.coords t) = false := fun _ => rfl

theorem r1_idleAt_3 : ∀ t : Fin cfg1.N, ¬r1_cond1 (grid1.coords t) → cfg1.idle 3 (grid1.coords t) = true := by decide +kernel

theorem r1_noFlush_3 : ∀ t : Fin cfg1.N, ¬r1_cond1 (grid1.coords t) → (cfg1.win 3).flush t = false := by decide +kernel

theorem r1_liveAt_3 : ∀ t : Fin cfg1.N, r1_cond1 (grid1.coords t) → cfg1.idle 3 (grid1.coords t) = false := by decide +kernel

abbrev r1_VO : View sig .tc .vmem S1024x256 .f32 := (Memref.whole cc1_stg3_0 : Memref sig .tc .vmem S1024x256 .f32).view
abbrev r1_ms0 (t : Fin cfg1.N) : Memref sig .tc .vmem S1024x2048 .f32 := win1_0.stage (cfg1.slots t 0)
abbrev r1_hs0 (t : Fin cfg1.N) : (r1_ms0 t).IsWhole := hstage1_0 ((cfg1.slots t 0).cast nbuf1_0)
abbrev r1_ms1 (t : Fin cfg1.N) : Memref sig .tc .vmem S2048x256 .f32 := win1_1.stage (cfg1.slots t 1)
abbrev r1_hs1 (t : Fin cfg1.N) : (r1_ms1 t).IsWhole := hstage1_1 ((cfg1.slots t 1).cast nbuf1_1)
abbrev r1_ms2 (t : Fin cfg1.N) : Memref sig .tc .vmem S1024x1 .f32 := win1_2.stage (cfg1.slots t 2)
abbrev r1_hs2 (t : Fin cfg1.N) : (r1_ms2 t).IsWhole := hstage1_2 ((cfg1.slots t 2).cast nbuf1_2)
abbrev r1_ms3 (t : Fin cfg1.N) : Memref sig .tc .vmem S1024x256 .f32 := win1_3.stage (cfg1.slots t 3)
abbrev r1_hs3 (t : Fin cfg1.N) : (r1_ms3 t).IsWhole := hstage1_3 ((cfg1.slots t 3).cast nbuf1_3)

abbrev r1_scM : Memref sig .tc .vmem S1024x256 .f32 := Memref.whole cc1_scratch0

abbrev r1_VS : View sig .tc .vmem S1024x256 .f32 := r1_scM.view

theorem r1_PhiA_eq (c : Dev nD) :
    (Pipeline.ΦA spec1 c : sProp 𝕄)
      = iprop(iprop(iprop((∃ d, owns (c : Thread nD τ) r1_scM fullShare d)) ∗ Pipeline.scopedRestBut spec1 c [cc1_scratch0]) ∗ (∃ r, prngReg c r)) := by
  unfold Pipeline.ΦA; rw [scopedRest1_split]; simp only [r1_scM, owns_whole]; try rfl

end Cert.Kernel.Hand

end
-- ==== Proof.HandBits.R1b.lean ====
import proofs.«108687_j68341519613982_1_alg».proof.Proof.HandBits.R1a

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 0 the body zeroes the accumulator and adds the first stretch's product of the two blocks to it. -/
theorem r1_run_A (c : Dev nD) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : r1_cond0 i) (hc1 : ¬r1_cond1 i)
    (x0 : Vec F S1024x2048 .f32) (x1 : Vec F S2048x256 .f32) (x2 : Vec F S1024x1 .f32) (xi3 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1 k1_pay1)) -∗ K ⟨⟩))
      ⊢ wp frame (wpE (defs₀ (F := F)) Variants.none c none) E (cc1__bigmatmul_filt_kernel i arg2 harg2 arg3 harg3 arg4 harg4 arg5 harg5 arg6 harg6) K := by
  simp only [cc1__bigmatmul_filt_kernel_eq_skeleton]; unfold cc1__bigmatmul_filt_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x256.size (by sl_kernel_rfl) y)]
  try sl_unfold_words
  rw [View.canon_cons_unit_zero (S := S1024x256) r1_hz, View.readCov_unit_zero (S := S1024x256) _ r1_hz]
  simp only [View.readAt_eq_ld, harg2.read_unread, harg3.read_unread, View.ld_unit_zero (S := S1024x2048) r1_hz, View.ld_unit_zero (S := S2048x256) r1_hz, View.ld_unit_zero (S := S1024x256) r1_hz]

end Cert.Kernel.Hand

end
-- ==== Proof.HandBits.R1c.lean ====
import proofs.«108687_j68341519613982_1_alg».proof.Proof.HandBits.R1b

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 1 or 2 the body adds one more stretch's product to the accumulator. -/
theorem r1_run_B (c : Dev nD) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬r1_cond0 i) (hc1 : ¬r1_cond1 i)
    (x0 : Vec F S1024x2048 .f32) (x1 : Vec F S2048x256 .f32) (x2 : Vec F S1024x1 .f32) (xs xi3 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1 xs)) -∗ K ⟨⟩))
      ⊢ wp frame (wpE (defs₀ (F := F)) Variants.none c none) E (cc1__bigmatmul_filt_kernel i arg2 harg2 arg3 harg3 arg4 harg4 arg5 harg5 arg6 harg6) K := by
  simp only [cc1__bigmatmul_filt_kernel_eq_skeleton]; unfold cc1__bigmatmul_filt_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x256.size (by sl_kernel_rfl) y), View.canon_unit_zero (S := S1024x256) r1_hz]
  simp only [View.readAt_eq_ld, harg2.read_unread, harg3.read_unread, harg6.read_unread, View.ld_unit_zero (S := S1024x2048) r1_hz, View.ld_unit_zero (S := S2048x256) r1_hz, View.ld_unit_zero (S := S1024x256) r1_hz]

end Cert.Kernel.Hand

end
-- ==== Proof.HandBits.R1d.lean ====
import proofs.«108687_j68341519613982_1_alg».proof.Proof.HandBits.R1c

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 3 the body adds the last stretch's product to the accumulator and stores it, each row scaled by its filter entry, into the output block. -/
theorem r1_run_C (c : Dev nD) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬r1_cond0 i) (hc1 : r1_cond1 i)
    (x0 : Vec F S1024x2048 .f32) (x1 : Vec F S2048x256 .f32) (x2 : Vec F S1024x1 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__bigmatmul_filt_kernel i arg2 harg2 arg3 harg3 arg4 harg4 arg5 harg5 arg6 harg6) K := by
  simp only [cc1__bigmatmul_filt_kernel_eq_skeleton]; unfold cc1__bigmatmul_filt_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S1024x256.size (by sl_kernel_rfl) y)]
    try sl_unfold_words
    rw [View.canon_unit_zero (S := S1024x256) r1_hz, View.readCov_unit_zero (S := S1024x256) _ r1_hz]
    simp only [View.readAt_eq_ld, harg2.read_unread, harg3.read_unread, harg4.read_unread, harg6.read_unread, View.ld_unit_zero (S := S1024x1) r1_hz, View.ld_unit_zero (S := S1024x2048) r1_hz, View.ld_unit_zero (S := S2048x256) r1_hz, View.ld_unit_zero (S := S1024x256) r1_hz]
  iexists _; isplitr
  swap; · iexact HS
  ipureintro
  rw [View.read_writes_eq_canon _ _ _ (fun y => View.cover_of_tiledL _ S1024x256.size (by sl_kernel_rfl) y)]
  try sl_unfold_words
  rw [View.canon_unit_zero (S := S1024x256) r1_hz]
  simp only [View.readAt_eq_ld, harg2.read_unread, harg3.read_unread, harg6.read_unread, View.ld_unit_zero (S := S1024x2048) r1_hz, View.ld_unit_zero (S := S2048x256) r1_hz, View.ld_unit_zero (S := S1024x256) r1_hz]

end Cert.Kernel.Hand

end
-- ==== Proof.HandBits.R1.lean ====
import proofs.«108687_j68341519613982_1_alg».proof.Proof.HandBits.R1d

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev r1_blkA (c : Dev nD) (t : Fin cfg1.N) : Vec F S1024x2048 .f32 := r1_iblk V c 0 t
abbrev r1_blkT (c : Dev nD) (t : Fin cfg1.N) : Vec F S2048x256 .f32 := r1_iblk V c 1 t
abbrev r1_blkF (c : Dev nD) (t : Fin cfg1.N) : Vec F S1024x1 .f32 := r1_iblk V c 2 t

/-- The accumulator after position n = 4 i + k: zero plus the stretches 0 … k of row block i, added one after the other. -/
def r1_accAt (c : Dev nD) : (n : ℕ) → n < cfg1.N → Vec F S1024x256 .f32
  | 0, hn => k1_pay2 (r1_blkA V c ⟨0, hn⟩) (r1_blkT V c ⟨0, hn⟩) k1_pay1
  | n + 1, hn => k1_pay2 (r1_blkA V c ⟨n + 1, hn⟩) (r1_blkT V c ⟨n + 1, hn⟩)
      (if (n + 1) % 4 = 0 then k1_pay1 else r1_accAt c n (Nat.lt_of_succ_lt hn))

theorem r1_accAt_first_eq (c : Dev nD) (t : Fin cfg1.N) (h0 : t.val % 4 = 0) :
    r1_accAt V c t.val t.isLt = k1_pay2 (r1_blkA V c t) (r1_blkT V c t) (k1_pay1 (F := F)) := by
  obtain ⟨n, hn⟩ := t
  cases n with
  | zero => rfl
  | succ n => exact congrArg _ (if_pos h0)

theorem r1_accAt_next_eq (c : Dev nD) (t : Fin cfg1.N) (h0 : ¬t.val % 4 = 0) :
    r1_accAt V c t.val t.isLt
      = k1_pay2 (r1_blkA V c t) (r1_blkT V c t) (r1_accAt V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The output block after position n: where k = 3 the accumulator with each row scaled by its filter entry (elsewhere not used). -/
def r1_outAt (c : Dev nD) (n : ℕ) (hn : n < cfg1.N) : Vec F S1024x256 .f32 :=
  if n % 4 = 3 then k1_pay3 (r1_accAt V c n hn) (r1_blkF V c ⟨n, hn⟩) else r1_accAt V c n hn

theorem r1_outAt_last_eq (c : Dev nD) (t : Fin cfg1.N) (h1 : t.val % 4 = 3) :
    r1_outAt V c t.val t.isLt = k1_pay3 (r1_accAt V c t.val t.isLt) (r1_blkF V c t) := if_pos h1

/-- Before position n: the plain invariant before the first; afterwards the accumulator owned at what the position before left. -/
def r1_Phi (c : Dev nD) : (n : ℕ) → n ≤ cfg1.N → sProp 𝕄
  | 0, _ => Pipeline.ΦA spec1 c
  | n + 1, hn => iprop(iprop(owns (c : Thread nD τ) r1_scM fullShare (r1_accAt V c n hn) ∗ Pipeline.scopedRestBut spec1 c [cc1_scratch0]) ∗ (∃ r, prngReg c r))

theorem r1_Phi_pos (c : Dev nD) (n : ℕ) (h : n ≤ cfg1.N) (hz : n ≠ 0) :
    r1_Phi V c n h = iprop(iprop(owns (c : Thread nD τ) r1_scM fullShare (r1_accAt V c (n - 1) (by omega)) ∗ Pipeline.scopedRestBut spec1 c [cc1_scratch0]) ∗ (∃ r, prngReg c r)) := by
  cases n with
  | zero => exact absurd rfl hz
  | succ n => rfl

/-- At any position the invariant owns the accumulator at something. -/
theorem r1_Phi_any (c : Dev nD) (n : ℕ) (h : n ≤ cfg1.N) :
    r1_Phi V c n h ⊢ iprop(iprop((∃ d, owns (c : Thread nD τ) r1_scM fullShare d) ∗ Pipeline.scopedRestBut spec1 c [cc1_scratch0]) ∗ (∃ r, prngReg c r)) := by
  cases n with
  | zero => rw [show r1_Phi V c 0 h = Pipeline.ΦA spec1 c from rfl, r1_PhiA_eq]; try exact Idealize.SL.BI.Entails.refl _
  | succ n =>
    rw [show r1_Phi V c (n + 1) h = iprop(iprop(owns (c : Thread nD τ) r1_scM fullShare (r1_accAt V c n h) ∗ Pipeline.scopedRestBut spec1 c [cc1_scratch0]) ∗ (∃ r, prngReg c r)) from rfl]
    iintro ⟨⟨HS, HR⟩, Hg⟩
    isplitl [HS HR]
    · isplitl [HS]
      · iexists _; iexact HS
      iexact HR
    iexact Hg

def r1_dat (c : Dev nD) : Dat τ (Elt F) Unit ℕ (UR sig nD τ) ℕ cfg1 c where
  A w := V c (Pipeline.arrRef spec1 w)
  after w t := match w with
    | ⟨0, _⟩ => r1_iblk V c 0 t
    | ⟨1, _⟩ => r1_iblk V c 1 t
    | ⟨2, _⟩ => r1_iblk V c 2 t
    | ⟨3, _⟩ => r1_outAt V c t.val t.isLt
  Φ t := r1_Phi V c t.val (Nat.le_of_lt_succ t.isLt)
  q _ := fullShare
  owed _ := 0

theorem r1_A_eq (c : Dev nD) (w : Fin cfg1.W) : (r1_dat V c).A w = V c (Pipeline.arrRef spec1 w) := by
  dsimp only [r1_dat]

theorem r1_Phi_castSucc (c : Dev nD) (t : Fin cfg1.N) :
    (r1_dat V c).Φ t.castSucc = r1_Phi V c t.val (Nat.le_of_lt t.isLt) := by
  dsimp only [r1_dat]; simp only [Fin.coe_castSucc]

theorem r1_after_0 (c : Dev nD) (t : Fin cfg1.N) : (r1_dat V c).after 0 t = r1_iblk V c 0 t := by dsimp only [r1_dat]
theorem r1_after_1 (c : Dev nD) (t : Fin cfg1.N) : (r1_dat V c).after 1 t = r1_iblk V c 1 t := by dsimp only [r1_dat]
theorem r1_after_2 (c : Dev nD) (t : Fin cfg1.N) : (r1_dat V c).after 2 t = r1_iblk V c 2 t := by dsimp only [r1_dat]
theorem r1_after_3 (c : Dev nD) (t : Fin cfg1.N) : (r1_dat V c).after 3 t = r1_outAt V c t.val t.isLt := by dsimp only [r1_dat]

theorem r1_before_0 (c : Dev nD) (t : Fin cfg1.N) (d) : (r1_dat V c).before 0 t d = r1_iblk V c 0 t :=
  (r1_dat V c).before_in_eq_fetched 0 rfl (fun _ => rfl) (fun _ _ _ => rfl) (fun _ => rfl) t d
theorem r1_before_1 (c : Dev nD) (t : Fin cfg1.N) (d) : (r1_dat V c).before 1 t d = r1_iblk V c 1 t :=
  (r1_dat V c).before_in_eq_fetched 1 rfl (fun _ => rfl) (fun _ _ _ => rfl) (fun _ => rfl) t d
theorem r1_before_2 (c : Dev nD) (t : Fin cfg1.N) (d) : (r1_dat V c).before 2 t d = r1_iblk V c 2 t :=
  (r1_dat V c).before_in_eq_fetched 2 rfl (fun _ => rfl) (fun _ _ _ => rfl) (fun _ => rfl) t d

def r1_bodyPre (c : Dev nD) (t : Fin cfg1.N) : sProp 𝕄 :=
  iprop((r1_dat V c).Φ t.castSucc ∗ (r1_dat V c).owesAt () t.castSucc
    ∗ (∃ d, owns (c : Thread nD τ) (r1_ms0 t) fullShare ((r1_dat V c).before 0 t d))
    ∗ (∃ d, owns (c : Thread nD τ) (r1_ms1 t) fullShare ((r1_dat V c).before 1 t d))
    ∗ (∃ d, owns (c : Thread nD τ) (r1_ms2 t) fullShare ((r1_dat V c).before 2 t d))
    ∗ (∃ d, owns (c : Thread nD τ) (r1_ms3 t) fullShare ((r1_dat V c).before 3 t d)))

def r1_bodyPost (c : Dev nD) (t : Fin cfg1.N) : sProp 𝕄 :=
  iprop((r1_dat V c).Φ t.succ ∗ (r1_dat V c).owesAt () t.succ
    ∗ (r1_dat V c).leavesExact 0 t
    ∗ (r1_dat V c).leavesExact 1 t
    ∗ (r1_dat V c).leavesExact 2 t
    ∗ (r1_dat V c).leavesExact 3 t)

set_option maxHeartbeats 4800000 in
/-- The body at any position, by the position's k: the invariant lends the accumulator and takes it back at this position's contents. -/
theorem r1_sound_body (c : Dev nD) (t : Fin cfg1.N) :
    r1_bodyPre V c t ⊢ wp frame (wpE (defs₀ (F := F)) Variants.none c none) Set.univ (bodyAt1 t) (fun _ => r1_bodyPost V c t) := by
  unfold r1_bodyPre r1_bodyPost bodyAt1
  simp only [r1_before_0, r1_before_1, r1_before_2]
  rw [show (r1_dat V c).owesAt () t.succ = (r1_dat V c).owesAt () t.castSucc from rfl]
  rw [show (r1_dat V c).Φ t.succ = iprop(iprop(owns (c : Thread nD τ) r1_scM fullShare (r1_accAt V c t.val t.isLt) ∗ Pipeline.scopedRestBut spec1 c [cc1_scratch0]) ∗ (∃ r, prngReg c r)) from rfl]
  rw [show (r1_dat V c).leavesExact 0 t = owns (c : Thread nD τ) (r1_ms0 t) fullShare ((r1_dat V c).after 0 t) from by
    unfold Dat.leavesExact; rw [r1_liveAt_0 t], r1_after_0]
  rw [show (r1_dat V c).leavesExact 1 t = owns (c : Thread nD τ) (r1_ms1 t) fullShare ((r1_dat V c).after 1 t) from by
    unfold Dat.leavesExact; rw [r1_liveAt_1 t], r1_after_1]
  rw [show (r1_dat V c).leavesExact 2 t = owns (c : Thread nD τ) (r1_ms2 t) fullShare ((r1_dat V c).after 2 t) from by
    unfold Dat.leavesExact; rw [r1_liveAt_2 t], r1_after_2]
  rw [r1_Phi_castSucc V c t]
  by_cases h0 : t.val % 4 = 0
  · have h1 : ¬t.val % 4 = 3 := by omega
    rw [Dat.leavesExact_idle (r1_dat V c) 3 t (r1_idleAt_3 t (fun h => h1 ((r1_hcond1 t).mp h))) (r1_noFlush_3 t (fun h => h1 ((r1_hcond1 t).mp h))), r1_accAt_first_eq V c t h0]
    iintro ⟨HP, Ho, ⟨%d0, H0⟩, ⟨%d1, H1⟩, ⟨%d2, H2⟩, ⟨%d3, H3⟩⟩
    ihave ⟨⟨HS, HR⟩, Hg⟩ := (r1_Phi_any V c _ _) $$ HP
    iapply (r1_run_A c (grid1.coords t) _ _ _ _ _ _ _ _ _ _ ((r1_hcond0 t).mpr h0) (fun h => h1 ((r1_hcond1 t).mp h)) (r1_blkA V c t) (r1_blkT V c t) (r1_blkF V c t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [r1_Phi_pos V c _ _ (fun e => h0 (by rw [e])), r1_accAt_next_eq V c t h0]
    by_cases h1 : t.val % 4 = 3
    · rw [show (r1_dat V c).leavesExact 3 t = owns (c : Thread nD τ) (r1_ms3 t) fullShare ((r1_dat V c).after 3 t) from by
        unfold Dat.leavesExact; rw [r1_liveAt_3 t ((r1_hcond1 t).mpr h1)], r1_after_3, r1_outAt_last_eq V c t h1, r1_accAt_next_eq V c t h0]
      iintro ⟨⟨⟨HS, HR⟩, Hg⟩, Ho, ⟨%d0, H0⟩, ⟨%d1, H1⟩, ⟨%d2, H2⟩, ⟨%d3, H3⟩⟩
      iapply (r1_run_C c (grid1.coords t) _ _ _ _ _ _ _ _ _ _ (fun h => h0 ((r1_hcond0 t).mp h)) ((r1_hcond1 t).mpr h1) (r1_blkA V c t) (r1_blkT V c t) (r1_blkF V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (r1_dat V c) 3 t (r1_idleAt_3 t (fun h => h1 ((r1_hcond1 t).mp h))) (r1_noFlush_3 t (fun h => h1 ((r1_hcond1 t).mp h)))]
      iintro ⟨⟨⟨HS, HR⟩, Hg⟩, Ho, ⟨%d0, H0⟩, ⟨%d1, H1⟩, ⟨%d2, H2⟩, ⟨%d3, H3⟩⟩
      iapply (r1_run_B c (grid1.coords t) _ _ _ _ _ _ _ _ _ _ (fun h => h0 ((r1_hcond0 t).mp h)) (fun h => h1 ((r1_hcond1 t).mp h)) (r1_blkA V c t) (r1_blkT V c t) (r1_blkF V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem r1_body_obligation (c : Dev nD) : BodyObligation (r1_dat (F := F) V c) (defs₀ (F := F)) Variants.none () Set.univ := fun t => by
  rw [bigSep_W1, bigSep_W1]
  exact r1_sound_body V c t

theorem r1_hout (c : Dev nD) : (r1_dat V c).Φ (Fin.last cfg1.N) ⊢ (Pipeline.ΦA spec1 c : sProp 𝕄) := by
  rw [show (r1_dat V c).Φ (Fin.last cfg1.N) = r1_Phi V c (Fin.last cfg1.N).val (Nat.le_of_lt_succ (Fin.last cfg1.N).isLt) from rfl, r1_PhiA_eq]
  exact r1_Phi_any V c _ _

def region1 : Region (F := F) cfg1 V where
  dat := r1_dat V
  A_eq := r1_A_eq V
  body := r1_body_obligation V
  q_full := fun _ _ => rfl
  owed_zero := fun _ _ => rfl
  recorded_univ := fun _ => rfl
  phi_in := fun _ => .rfl
  phi_out := r1_hout V

end

end Cert.Kernel.Hand

end
-- ==== Proof.HandBits.R2a.lean ====
import proofs.«108687_j68341519613982_1_alg».proof.Proof.HandBits.Iface
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem r2_hz : (![0, 0] : Fin 2 → Nat) = fun _ => 0 := funext fun a => by fin_cases a <;> rfl

local notation "𝕄" => MT nD τ sig Unit (Elt F) ℕ (UR sig nD τ) ℕ

section Shared
variable (V : (c : Dev nD) → (b : Ref sig .tc) → Buf (Elt F) ((c : Thread nD τ).loc b))

def r2_iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Shared

abbrev r2_cond0 (i : grid2.Coords) : Prop := (Scalar.cmpi .ne (Scalar.extui (Scalar.cmpi .eq (BitVec.ofNat 32 (i 1).val) 0#32)) 0#32) = 1#1

theorem r2_hcond0 : ∀ t : Fin cfg2.N, r2_cond0 (grid2.coords t) ↔ t.val % 4 = 0 :=
  (by decide +kernel : ∀ t : Fin grid2.N, r2_cond0 (grid2.coords t) ↔ t.val % 4 = 0)

abbrev r2_cond1 (i : grid2.Coords) : Prop := k2_cond2 i = 1#1

theorem r2_hcond1 : ∀ t : Fin cfg2.N, r2_cond1 (grid2.coords t) ↔ t.val % 4 = 3 :=
  (by decide +kernel : ∀ t : Fin grid2.N, r2_cond1 (grid2.coords t) ↔ t.val % 4 = 3)

theorem r2_liveAt0 : ∀ t : Fin cfg2.N, cfg2.idle 0 (grid2.coords t) = false := by decide +kernel
theorem r2_liveAt1 : ∀ t : Fin cfg2.N, cfg2.idle 1 (grid2.coords t) = false := by decide +kernel

theorem r2_idleAt2 : ∀ t : Fin cfg2.N, ¬r2_cond1 (grid2.coords t) → cfg2.idle 2 (grid2.coords t) = true := by decide +kernel

theorem r2_noFlush2 : ∀ t : Fin cfg2.N, ¬r2_cond1 (grid2.coords t) → (cfg2.win 2).flush t = false := by decide +kernel

theorem r2_liveAt2 : ∀ t : Fin cfg2.N, r2_cond1 (grid2.coords t) → cfg2.idle 2 (grid2.coords t) = false := by decide +kernel

abbrev r2_VO : View sig .tc .vmem S1024x256 .f32 := (Memref.whole cc2_stg2_0 : Memref sig .tc .vmem S1024x256 .f32).view
abbrev r2_ms0 (t : Fin cfg2.N) : Memref sig .tc .vmem S1024x2048 .f32 := win2_0.stage (cfg2.slots t 0)
abbrev r2_hs0 (t : Fin cfg2.N) : (r2_ms0 t).IsWhole := hstage2_0 ((cfg2.slots t 0).cast nbuf2_0)
abbrev r2_ms1 (t : Fin cfg2.N) : Memref sig .tc .vmem S2048x256 .f32 := win2_1.stage (cfg2.slots t 1)
abbrev r2_hs1 (t : Fin cfg2.N) : (r2_ms1 t).IsWhole := hstage2_1 ((cfg2.slots t 1).cast nbuf2_1)
abbrev r2_ms2 (t : Fin cfg2.N) : Memref sig .tc .vmem S1024x256 .f32 := win2_2.stage (cfg2.slots t 2)
abbrev r2_hs2 (t : Fin cfg2.N) : (r2_ms2 t).IsWhole := hstage2_2 ((cfg2.slots t 2).cast nbuf2_2)

abbrev r2_scM : Memref sig .tc .vmem S1024x256 .f32 := Memref.whole cc2_scratch0
abbrev r2_VS : View sig .tc .vmem S1024x256 .f32 := r2_scM.view

theorem r2_PhiA_eq (c : Dev nD) :
    (Pipeline.ΦA spec2 c : sProp 𝕄)
      = iprop(iprop((∃ d, owns (c : Thread nD τ) r2_scM fullShare d) ∗ Pipeline.scopedRestBut spec2 c [cc2_scratch0]) ∗ (∃ r, prngReg c r)) := by
  unfold Pipeline.ΦA; rw [scopedRest2_split]; simp only [r2_scM, owns_whole]; try rfl

end Cert.Kernel.Hand

end
-- ==== Proof.HandBits.R2b.lean ====
import proofs.«108687_j68341519613982_1_alg».proof.Proof.HandBits.R2a

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first step of a row block: the accumulator is zeroed and takes the first stretch's product of the two blocks. -/
theorem r2_run_A (c : Dev nD) (i : grid2.Coords) (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (x0 : Vec F S1024x2048 .f32) (x1 : Vec F S2048x256 .f32) (E : Set ℕ) (K : PUnit → sProp 𝕄)
    (hc0 : r2_cond0 i) (hc1 : ¬r2_cond1 i) (xi2 : Vec F S1024x256 .f32) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 k2_pay1)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x256.size (by sl_kernel_rfl) y)]
  try sl_unfold_words
  rw [View.canon_cons_unit_zero (S := S1024x256) r2_hz, View.readCov_unit_zero (S := S1024x256) _ r2_hz]
  simp only [View.readAt_eq_ld, harg2.read_unread, harg3.read_unread, harg5.read_unread, View.ld_unit_zero (S := S1024x2048) r2_hz, View.ld_unit_zero (S := S2048x256) r2_hz, View.ld_unit_zero (S := S1024x256) r2_hz]

set_option maxHeartbeats 4000000 in
/-- A middle step: the accumulator takes one more stretch's product. -/
theorem r2_run_B (c : Dev nD) (i : grid2.Coords) (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (x0 : Vec F S1024x2048 .f32) (x1 : Vec F S2048x256 .f32) (E : Set ℕ) (K : PUnit → sProp 𝕄)
    (hc0 : ¬r2_cond0 i) (hc1 : ¬r2_cond1 i) (xs0 xi2 : Vec F S1024x256 .f32) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 xs0)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x256.size (by sl_kernel_rfl) y)]
  try sl_unfold_words
  rw [View.canon_unit_zero r2_hz]
  simp only [View.readAt_eq_ld, harg2.read_unread, harg3.read_unread, harg5.read_unread, View.ld_unit_zero (S := S1024x2048) r2_hz, View.ld_unit_zero (S := S2048x256) r2_hz, View.ld_unit_zero (S := S1024x256) r2_hz]

set_option maxHeartbeats 4000000 in
/-- A last step: the accumulator takes the last stretch's product and its closing value is stored into the result block. -/
theorem r2_run_C (c : Dev nD) (i : grid2.Coords) (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (x0 : Vec F S1024x2048 .f32) (x1 : Vec F S2048x256 .f32) (E : Set ℕ) (K : PUnit → sProp 𝕄)
    (hc0 : ¬r2_cond0 i) (hc1 : r2_cond1 i) (xs0 : Vec F S1024x256 .f32) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k2_pay3 (k2_pay2 x0 x1 xs0)) ∗ owns (c : Thread nD τ) arg5 fullShare (k2_pay2 x0 x1 xs0)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => View.cover_of_tiledL _ S1024x256.size (by sl_kernel_rfl) y)]
    try sl_unfold_words
    rw [View.canon_unit_zero r2_hz, View.readCov_unit_zero (S := S1024x256) _ r2_hz]
    simp only [View.readAt_eq_ld, harg2.read_unread, harg3.read_unread, harg5.read_unread, View.ld_unit_zero (S := S1024x2048) r2_hz, View.ld_unit_zero (S := S2048x256) r2_hz, View.ld_unit_zero (S := S1024x256) r2_hz]
  iexists _; isplitr
  swap; · iexact HS0
  ipureintro
  rw [View.read_writes_eq_canon _ _ _ (fun y => View.cover_of_tiledL _ S1024x256.size (by sl_kernel_rfl) y)]
  try sl_unfold_words
  rw [View.canon_unit_zero r2_hz]
  simp only [View.readAt_eq_ld, harg2.read_unread, harg3.read_unread, harg5.read_unread, View.ld_unit_zero (S := S1024x2048) r2_hz, View.ld_unit_zero (S := S2048x256) r2_hz, View.ld_unit_zero (S := S1024x256) r2_hz]

end Cert.Kernel.Hand

end
-- ==== Proof.HandBits.R2.lean ====
import proofs.«108687_j68341519613982_1_alg».proof.Proof.HandBits.R2b

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

abbrev r2_blk0 (c : Dev nD) (t : Fin cfg2.N) : Vec F S1024x2048 .f32 := r2_iblk V c 0 t
abbrev r2_blk1 (c : Dev nD) (t : Fin cfg2.N) : Vec F S2048x256 .f32 := r2_iblk V c 1 t

/-- The accumulator after step n = 4 i + k: zero plus the stretches 0 … k of row block i, added one after the other. -/
def r2_accAt (c : Dev nD) : (n : ℕ) → n < cfg2.N → Vec F S1024x256 .f32
  | 0, hn => k2_pay2 (r2_blk0 V c ⟨0, hn⟩) (r2_blk1 V c ⟨0, hn⟩) k2_pay1
  | n + 1, hn => k2_pay2 (r2_blk0 V c ⟨n + 1, hn⟩) (r2_blk1 V c ⟨n + 1, hn⟩)
      (if (n + 1) % 4 = 0 then k2_pay1 else r2_accAt c n (Nat.lt_of_succ_lt hn))

/-- The result block (where k = 3 the accumulator's closing value; elsewhere not used) and the accumulator, after step n. -/
def r2_outsAt (c : Dev nD) (n : ℕ) (hn : n < cfg2.N) : Vec F S1024x256 .f32 × Vec F S1024x256 .f32 :=
  (if n % 4 = 3 then k2_pay3 (r2_accAt V c n hn) else r2_accAt V c n hn, r2_accAt V c n hn)

theorem r2_acc_first (c : Dev nD) (t : Fin cfg2.N) (h0 : t.val % 4 = 0) :
    (r2_outsAt V c t.val t.isLt).2 = k2_pay2 (r2_blk0 V c t) (r2_blk1 V c t) (k2_pay1 (F := F)) := by
  obtain ⟨n, hn⟩ := t
  cases n with
  | zero => rfl
  | succ n => show r2_accAt V c (n + 1) hn = _; exact congrArg _ (if_pos h0)

theorem r2_acc_next (c : Dev nD) (t : Fin cfg2.N) (h0 : ¬t.val % 4 = 0) :
    (r2_outsAt V c t.val t.isLt).2 = k2_pay2 (r2_blk0 V c t) (r2_blk1 V c t) (r2_outsAt V c (t.val - 1) (Nat.lt_of_le_of_lt (Nat.sub_le _ _) t.isLt)).2 := by
  obtain ⟨n, hn⟩ := t
  cases n with
  | zero => exact absurd (Nat.zero_mod _) h0
  | succ n => show r2_accAt V c (n + 1) hn = _; exact congrArg _ (if_neg h0)

theorem r2_out_last (c : Dev nD) (t : Fin cfg2.N) (h0 : ¬t.val % 4 = 0) (h1 : t.val % 4 = 3) :
    (r2_outsAt V c t.val t.isLt).1 = k2_pay3 (r2_outsAt V c t.val t.isLt).2 := if_pos h1

/-- Before step n: the plain invariant before the first; afterwards the accumulator owned at what the step before left. -/
def r2_PhiS (c : Dev nD) : (n : ℕ) → n ≤ cfg2.N → sProp 𝕄
  | 0, _ => Pipeline.ΦA spec2 c
  | n + 1, hn => iprop(iprop(owns (c : Thread nD τ) r2_scM fullShare ((r2_outsAt V c n hn).2) ∗ Pipeline.scopedRestBut spec2 c [cc2_scratch0]) ∗ (∃ r, prngReg c r))

theorem r2_PhiS_pos (c : Dev nD) (n : ℕ) (h : n ≤ cfg2.N) (hz : n ≠ 0) :
    r2_PhiS V c n h = iprop(iprop(owns (c : Thread nD τ) r2_scM fullShare ((r2_outsAt V c (n - 1) (by omega)).2) ∗ Pipeline.scopedRestBut spec2 c [cc2_scratch0]) ∗ (∃ r, prngReg c r)) := by
  cases n with
  | zero => exact absurd rfl hz
  | succ n => rfl

/-- At any step the invariant owns the accumulator at something. -/
theorem r2_PhiS_any (c : Dev nD) (n : ℕ) (h : n ≤ cfg2.N) :
    r2_PhiS V c n h ⊢ iprop(iprop((∃ d, owns (c : Thread nD τ) r2_scM fullShare d) ∗ Pipeline.scopedRestBut spec2 c [cc2_scratch0]) ∗ (∃ r, prngReg c r)) := by
  cases n with
  | zero => rw [show r2_PhiS V c 0 h = Pipeline.ΦA spec2 c from rfl, r2_PhiA_eq]; try exact Idealize.SL.BI.Entails.refl _
  | succ n =>
    rw [show r2_PhiS V c (n + 1) h = iprop(iprop(owns (c : Thread nD τ) r2_scM fullShare ((r2_outsAt V c n h).2) ∗ Pipeline.scopedRestBut spec2 c [cc2_scratch0]) ∗ (∃ r, prngReg c r)) from rfl]
    iintro ⟨⟨HS, HR⟩, Hg⟩
    isplitl [HS HR]
    · isplitl [HS]
      · iexists _; iexact HS
      iexact HR
    iexact Hg

def r2_dat (c : Dev nD) : Dat τ (Elt F) Unit ℕ (UR sig nD τ) ℕ cfg2 c where
  A w := V c (Pipeline.arrRef spec2 w)
  after w t := match w with
    | ⟨0, _⟩ => r2_iblk V c 0 t
    | ⟨1, _⟩ => r2_iblk V c 1 t
    | ⟨2, _⟩ => (r2_outsAt V c t.val t.isLt).1
  Φ t := r2_PhiS V c t.val (Nat.le_of_lt_succ t.isLt)
  q _ := fullShare
  owed _ := 0

theorem r2_A_eq (c : Dev nD) (w : Fin cfg2.W) : (r2_dat V c).A w = V c (Pipeline.arrRef spec2 w) := by
  dsimp only [r2_dat]

theorem r2_PhiS_castSucc (c : Dev nD) (t : Fin cfg2.N) :
    (r2_dat V c).Φ t.castSucc = r2_PhiS V c t.val (Nat.le_of_lt t.isLt) := by
  dsimp only [r2_dat]; simp only [Fin.coe_castSucc]

theorem r2_after0 (c : Dev nD) (t : Fin cfg2.N) : (r2_dat V c).after 0 t = r2_iblk V c 0 t := by dsimp only [r2_dat]
theorem r2_after1 (c : Dev nD) (t : Fin cfg2.N) : (r2_dat V c).after 1 t = r2_iblk V c 1 t := by dsimp only [r2_dat]
theorem r2_after2 (c : Dev nD) (t : Fin cfg2.N) : (r2_dat V c).after 2 t = (r2_outsAt V c t.val t.isLt).1 := by dsimp only [r2_dat]

theorem r2_before0 (c : Dev nD) (t : Fin cfg2.N) (d) : (r2_dat V c).before 0 t d = r2_iblk V c 0 t :=
  (r2_dat V c).before_in_eq_fetched 0 rfl (fun _ => rfl) (fun _ _ _ => rfl) (fun _ => rfl) t d
theorem r2_before1 (c : Dev nD) (t : Fin cfg2.N) (d) : (r2_dat V c).before 1 t d = r2_iblk V c 1 t :=
  (r2_dat V c).before_in_eq_fetched 1 rfl (fun _ => rfl) (fun _ _ _ => rfl) (fun _ => rfl) t d

def r2_bodyPre (c : Dev nD) (t : Fin cfg2.N) : sProp 𝕄 :=
  iprop((r2_dat V c).Φ t.castSucc ∗ (r2_dat V c).owesAt () t.castSucc
    ∗ (∃ d, owns (c : Thread nD τ) (r2_ms0 t) fullShare ((r2_dat V c).before 0 t d))
    ∗ (∃ d, owns (c : Thread nD τ) (r2_ms1 t) fullShare ((r2_dat V c).before 1 t d))
    ∗ (∃ d, owns (c : Thread nD τ) (r2_ms2 t) fullShare ((r2_dat V c).before 2 t d)))

def r2_bodyPost (c : Dev nD) (t : Fin cfg2.N) : sProp 𝕄 :=
  iprop((r2_dat V c).Φ t.succ ∗ (r2_dat V c).owesAt () t.succ
    ∗ (r2_dat V c).leavesExact 0 t
    ∗ (r2_dat V c).leavesExact 1 t
    ∗ (r2_dat V c).leavesExact 2 t)

set_option maxHeartbeats 4800000 in
/-- The body at any step, by the step's k: the invariant lends the accumulator and takes it back at this step's contents. -/
theorem r2_sound_body (c : Dev nD) (t : Fin cfg2.N) :
    r2_bodyPre V c t ⊢ wp frame (wpE (defs₀ (F := F)) Variants.none c none) Set.univ (bodyAt2 t) (fun _ => r2_bodyPost V c t) := by
  unfold r2_bodyPre r2_bodyPost bodyAt2
  simp only [r2_before0, r2_before1]
  rw [show (r2_dat V c).owesAt () t.succ = (r2_dat V c).owesAt () t.castSucc from rfl]
  rw [show (r2_dat V c).Φ t.succ = iprop(iprop(owns (c : Thread nD τ) r2_scM fullShare ((r2_outsAt V c t.val t.isLt).2) ∗ Pipeline.scopedRestBut spec2 c [cc2_scratch0]) ∗ (∃ r, prngReg c r)) from rfl]
  rw [show (r2_dat V c).leavesExact 0 t = owns (c : Thread nD τ) (r2_ms0 t) fullShare ((r2_dat V c).after 0 t) from by
    unfold Dat.leavesExact; rw [r2_liveAt0 t], r2_after0]
  rw [show (r2_dat V c).leavesExact 1 t = owns (c : Thread nD τ) (r2_ms1 t) fullShare ((r2_dat V c).after 1 t) from by
    unfold Dat.leavesExact; rw [r2_liveAt1 t], r2_after1]
  rw [r2_PhiS_castSucc V c t]
  by_cases h0 : t.val % 4 = 0
  · have h1 : ¬t.val % 4 = 3 := by omega
    rw [Dat.leavesExact_idle (r2_dat V c) 2 t (r2_idleAt2 t (fun h => h1 ((r2_hcond1 t).mp h))) (r2_noFlush2 t (fun h => h1 ((r2_hcond1 t).mp h))), r2_acc_first V c t h0]
    iintro ⟨HP, Ho, ⟨%d0, H0⟩, ⟨%d1, H1⟩, ⟨%d2, H2⟩⟩
    ihave ⟨⟨HS, HR⟩, Hg⟩ := (r2_PhiS_any V c _ _) $$ HP
    iapply (r2_run_A c (grid2.coords t) _ _ _ _ _ _ _ _ (r2_blk0 V c t) (r2_blk1 V c t) Set.univ _ ((r2_hcond0 t).mpr h0) (fun h => h1 ((r2_hcond1 t).mp h)) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · rw [r2_PhiS_pos V c _ _ (fun e => h0 (by rw [e]))]
    by_cases h1 : t.val % 4 = 3
    · rw [show (r2_dat V c).leavesExact 2 t = owns (c : Thread nD τ) (r2_ms2 t) fullShare ((r2_dat V c).after 2 t) from by
        unfold Dat.leavesExact; rw [r2_liveAt2 t ((r2_hcond1 t).mpr h1)], r2_after2, r2_out_last V c t h0 h1, r2_acc_next V c t h0]
      iintro ⟨⟨⟨HS, HR⟩, Hg⟩, Ho, ⟨%d0, H0⟩, ⟨%d1, H1⟩, ⟨%d2, H2⟩⟩
      iapply (r2_run_C c (grid2.coords t) _ _ _ _ _ _ _ _ (r2_blk0 V c t) (r2_blk1 V c t) Set.univ _ (fun h => h0 ((r2_hcond0 t).mp h)) ((r2_hcond1 t).mpr h1) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (r2_dat V c) 2 t (r2_idleAt2 t (fun h => h1 ((r2_hcond1 t).mp h))) (r2_noFlush2 t (fun h => h1 ((r2_hcond1 t).mp h))), r2_acc_next V c t h0]
      iintro ⟨⟨⟨HS, HR⟩, Hg⟩, Ho, ⟨%d0, H0⟩, ⟨%d1, H1⟩, ⟨%d2, H2⟩⟩
      iapply (r2_run_B c (grid2.coords t) _ _ _ _ _ _ _ _ (r2_blk0 V c t) (r2_blk1 V c t) Set.univ _ (fun h => h0 ((r2_hcond0 t).mp h)) (fun h => h1 ((r2_hcond1 t).mp h)) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem r2_body_obligation (c : Dev nD) : BodyObligation (r2_dat (F := F) V c) (defs₀ (F := F)) Variants.none () Set.univ := fun t => by
  rw [bigSep_W2, bigSep_W2]
  exact r2_sound_body V c t

theorem r2_hout (c : Dev nD) : (r2_dat V c).Φ (Fin.last cfg2.N) ⊢ (Pipeline.ΦA spec2 c : sProp 𝕄) := by
  rw [show (r2_dat V c).Φ (Fin.last cfg2.N) = r2_PhiS V c (Fin.last cfg2.N).val (Nat.le_of_lt_succ (Fin.last cfg2.N).isLt) from rfl, r2_PhiA_eq]
  exact r2_PhiS_any V c _ _

def region2 : Region (F := F) cfg2 V where
  dat := r2_dat V
  A_eq := r2_A_eq V
  body := r2_body_obligation V
  q_full := fun _ _ => rfl
  owed_zero := fun _ _ => rfl
  recorded_univ := fun _ => rfl
  phi_in := fun _ => .rfl
  phi_out := r2_hout V

end Frame

end Cert.Kernel.Hand

end
-- ==== Proof.HandBits.R3.lean ====
import proofs.«108687_j68341519613982_1_alg».proof.Proof.HandBits.Iface

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r3_iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_boxX : Rect S1024x256 := Rect.unit (s := S1024x256) ![0, 0] S1024x256.size inb_S1024x256_S1024x256_0_0
abbrev r3_boxW : Rect S256x64 := Rect.unit (s := S256x64) ![0, 0] S256x64.size inb_S256x64_S256x64_0_0
abbrev r3_boxT : Rect S1024x64 := Rect.unit (s := S1024x64) ![0, 0] S1024x64.size inb_S1024x64_S1024x64_0_0

def r3_out (x : Vec F S1024x256 .f32) (w : Vec F S256x64 .f32) : Vec F S1024x64 .f32 :=
  View.canon [⟨r3_boxT, k3_pay1 (View.ld x r3_boxX) (View.ld w r3_boxW)⟩]

theorem r3_cover (p : Vec F S1024x64 .f32) (y : S1024x64.Idx) :
    ∃ pc ∈ ([⟨r3_boxT, p⟩] : List (View.Piece (Elt F) S1024x64 .f32)), y ∈ pc.1.set :=
  View.cover_of_tiled [⟨r3_boxT, p⟩] S1024x64.size (by rfl) y

set_option maxHeartbeats 1000000 in

theorem r3_sound_kernel (c : Dev nD) (E : Set ℕ) (i : grid3.Coords)
    (arg1 : Memref sig .tc .vmem S1024x256 .f32) (harg1 : arg1.IsWhole)
    (arg2 : Memref sig .tc .vmem S256x64 .f32) (harg2 : arg2.IsWhole)
    (arg3 : Memref sig .tc .vmem S1024x64 .f32) (harg3 : arg3.IsWhole)
    (x : Vec F S1024x256 .f32) (w : Vec F S256x64 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (r3_out x w)) -∗ K ⟨⟩))
      ⊢ wp frame (wpE (defs₀ (F := F)) Variants.none c none) E (cc3__small_matmul_kernel i arg1 harg1 arg2 harg2 arg3 harg3) K := by
  simp only [cc3__small_matmul_kernel_eq_skeleton]; unfold cc3__small_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (r3_cover _)

def r3_dat (c : Dev nD) : Dat τ (Elt F) Unit ℕ (UR sig nD τ) ℕ cfg3 c where
  A w := V c (Pipeline.arrRef spec3 w)
  after w t := match w with
    | ⟨0, _⟩ => r3_iblk V c 0 t
    | ⟨1, _⟩ => r3_iblk V c 1 t
    | ⟨2, _⟩ => r3_out (r3_iblk V c 0 t) (r3_iblk V c 1 t)
  Φ _ := Pipeline.ΦA spec3 c
  q _ := fullShare
  owed _ := 0

theorem r3_A_eq (c : Dev nD) (w : Fin cfg3.W) : (r3_dat V c).A w = V c (Pipeline.arrRef spec3 w) := by
  dsimp only [r3_dat]

theorem r3_after_0 (c : Dev nD) (t : Fin cfg3.N) : (r3_dat V c).after 0 t = r3_iblk V c 0 t := by dsimp only [r3_dat]
theorem r3_after_1 (c : Dev nD) (t : Fin cfg3.N) : (r3_dat V c).after 1 t = r3_iblk V c 1 t := by dsimp only [r3_dat]
theorem r3_after_2 (c : Dev nD) (t : Fin cfg3.N) :
    (r3_dat V c).after 2 t = r3_out (r3_iblk V c 0 t) (r3_iblk V c 1 t) := by dsimp only [r3_dat]

theorem r3_before_0 (c : Dev nD) (t : Fin cfg3.N) (d) : (r3_dat V c).before 0 t d = r3_iblk V c 0 t :=
  (r3_dat V c).before_in_eq_fetched 0 rfl (fun _ => rfl) (fun _ _ _ => rfl) (fun _ => rfl) t d
theorem r3_before_1 (c : Dev nD) (t : Fin cfg3.N) (d) : (r3_dat V c).before 1 t d = r3_iblk V c 1 t :=
  (r3_dat V c).before_in_eq_fetched 1 rfl (fun _ => rfl) (fun _ _ _ => rfl) (fun _ => rfl) t d

def r3_bodyPre (c : Dev nD) (t : Fin cfg3.N) : sProp 𝕄 :=
  iprop((r3_dat V c).Φ t.castSucc ∗ (r3_dat V c).owesAt () t.castSucc
    ∗ (∃ d, owns (c : Thread nD τ) (st3_0 t) fullShare ((r3_dat V c).before 0 t d))
    ∗ (∃ d, owns (c : Thread nD τ) (st3_1 t) fullShare ((r3_dat V c).before 1 t d))
    ∗ (∃ d, owns (c : Thread nD τ) (st3_2 t) fullShare ((r3_dat V c).before 2 t d)))

def r3_bodyPost (c : Dev nD) (t : Fin cfg3.N) : sProp 𝕄 :=
  iprop((r3_dat V c).Φ t.succ ∗ (r3_dat V c).owesAt () t.succ
    ∗ owns (c : Thread nD τ) (st3_0 t) fullShare ((r3_dat V c).after 0 t)
    ∗ owns (c : Thread nD τ) (st3_1 t) fullShare ((r3_dat V c).after 1 t)
    ∗ owns (c : Thread nD τ) (st3_2 t) fullShare ((r3_dat V c).after 2 t))

theorem r3_sound_body (c : Dev nD) (t : Fin cfg3.N) :
    r3_bodyPre V c t ⊢ wp frame (wpE (defs₀ (F := F)) Variants.none c none) Set.univ (bodyAt3 t) (fun _ => r3_bodyPost V c t) := by
  unfold r3_bodyPre r3_bodyPost bodyAt3
  simp only [r3_before_0, r3_before_1]
  rw [show (r3_dat V c).Φ t.succ = (r3_dat V c).Φ t.castSucc from rfl,
    show (r3_dat V c).owesAt () t.succ = (r3_dat V c).owesAt () t.castSucc from rfl,
    r3_after_0, r3_after_1, r3_after_2]
  iintro ⟨HΦ, Ho, ⟨%d0, H0⟩, ⟨%d1, H1⟩, ⟨%d2, H2⟩⟩
  iapply (r3_sound_kernel c Set.univ _ _ _ _ _ _ _ (r3_iblk V c 0 t) (r3_iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem r3_body_obligation (c : Dev nD) : BodyObligation (r3_dat (F := F) V c) (defs₀ (F := F)) Variants.none () Set.univ := fun t => by
  rw [bigSep_W3, bigSep_W3]
  exact r3_sound_body V c t

end

def region3 (V : (c : Dev nD) → (b : Ref sig .tc) → Buf (Elt F) ((c : Thread nD τ).loc b)) : Region (F := F) cfg3 V where
  dat := r3_dat V
  A_eq := r3_A_eq V
  body := r3_body_obligation V
  q_full _ _ := rfl
  owed_zero _ _ := rfl
  recorded_univ _ := rfl
  phi_in _ := .rfl
  phi_out _ := .rfl

end Cert.Kernel.Hand

end
-- ==== Proof.HandBits.R4a.lean ====
import proofs.«108687_j68341519613982_1_alg».proof.Proof.HandBits.Iface
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r4_iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

end

theorem r4_hz : (![0, 0] : Fin 2 → Nat) = fun _ => 0 := funext fun a => by fin_cases a <;> rfl

abbrev r4_cond0 (i : grid4.Coords) : Prop := (Scalar.cmpi .ne (Scalar.extui (Scalar.cmpi .eq (BitVec.ofNat 32 (i 1).val) 0#32)) 0#32) = 1#1

theorem r4_hcond0 : ∀ t : Fin cfg4.N, r4_cond0 (grid4.coords t) ↔ t.val % 4 = 0 :=
  (by decide +kernel : ∀ t : Fin grid4.N, r4_cond0 (grid4.coords t) ↔ t.val % 4 = 0)

abbrev r4_cond1 (i : grid4.Coords) : Prop := k4_cond2 i = 1#1

theorem r4_hcond1 : ∀ t : Fin cfg4.N, r4_cond1 (grid4.coords t) ↔ t.val % 4 = 3 :=
  (by decide +kernel : ∀ t : Fin grid4.N, r4_cond1 (grid4.coords t) ↔ t.val % 4 = 3)

theorem r4_liveAt_0 : ∀ t : Fin cfg4.N, cfg4.idle 0 (grid4.coords t) = false := fun _ => rfl
theorem r4_liveAt_1 : ∀ t : Fin cfg4.N, cfg4.idle 1 (grid4.coords t) = false := fun _ => rfl
theorem r4_liveAt_2 : ∀ t : Fin cfg4.N, cfg4.idle 2 (grid4.coords t) = false := fun _ => rfl

theorem r4_idleAt_3 : ∀ t : Fin cfg4.N, ¬r4_cond1 (grid4.coords t) → cfg4.idle 3 (grid4.coords t) = true := by decide +kernel

theorem r4_noFlush_3 : ∀ t : Fin cfg4.N, ¬r4_cond1 (grid4.coords t) → (cfg4.win 3).flush t = false := by decide +kernel

theorem r4_liveAt_3 : ∀ t : Fin cfg4.N, r4_cond1 (grid4.coords t) → cfg4.idle 3 (grid4.coords t) = false := by decide +kernel

abbrev r4_VO : View sig .tc .vmem S1024x64 .f32 := (Memref.whole cc4_stg3_0 : Memref sig .tc .vmem S1024x64 .f32).view
abbrev r4_ms0 (t : Fin cfg4.N) : Memref sig .tc .vmem S1024x2048 .f32 := win4_0.stage (cfg4.slots t 0)
abbrev r4_hs0 (t : Fin cfg4.N) : (r4_ms0 t).IsWhole := hstage4_0 ((cfg4.slots t 0).cast nbuf4_0)
abbrev r4_ms1 (t : Fin cfg4.N) : Memref sig .tc .vmem S2048x64 .f32 := win4_1.stage (cfg4.slots t 1)
abbrev r4_hs1 (t : Fin cfg4.N) : (r4_ms1 t).IsWhole := hstage4_1 ((cfg4.slots t 1).cast nbuf4_1)
abbrev r4_ms2 (t : Fin cfg4.N) : Memref sig .tc .vmem S1024x1 .f32 := win4_2.stage (cfg4.slots t 2)
abbrev r4_hs2 (t : Fin cfg4.N) : (r4_ms2 t).IsWhole := hstage4_2 ((cfg4.slots t 2).cast nbuf4_2)
abbrev r4_ms3 (t : Fin cfg4.N) : Memref sig .tc .vmem S1024x64 .f32 := win4_3.stage (cfg4.slots t 3)
abbrev r4_hs3 (t : Fin cfg4.N) : (r4_ms3 t).IsWhole := hstage4_3 ((cfg4.slots t 3).cast nbuf4_3)

abbrev r4_scM : Memref sig .tc .vmem S1024x64 .f32 := Memref.whole cc4_scratch0

abbrev r4_VS : View sig .tc .vmem S1024x64 .f32 := r4_scM.view

theorem r4_PhiA_eq (c : Dev nD) :
    (Pipeline.ΦA spec4 c : sProp 𝕄)
      = iprop(iprop(iprop((∃ d, owns (c : Thread nD τ) r4_scM fullShare d)) ∗ Pipeline.scopedRestBut spec4 c [cc4_scratch0]) ∗ (∃ r, prngReg c r)) := by
  unfold Pipeline.ΦA; rw [scopedRest4_split]; simp only [r4_scM, owns_whole]; try rfl

end Cert.Kernel.Hand

end
-- ==== Proof.HandBits.R4b.lean ====
import proofs.«108687_j68341519613982_1_alg».proof.Proof.HandBits.R4a

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 0 the body zeroes the accumulator and adds the first stretch's product of the two blocks to it. -/
theorem r4_run_A (c : Dev nD) (i : grid4.Coords)
    (arg2 : Memref sig .tc .vmem S1024x2048 .f32) (harg2 : arg2.IsWhole)
    (arg3 : Memref sig .tc .vmem S2048x64 .f32) (harg3 : arg3.IsWhole)
    (arg4 : Memref sig .tc .vmem S1024x1 .f32) (harg4 : arg4.IsWhole)
    (arg5 : Memref sig .tc .vmem S1024x64 .f32) (harg5 : arg5.IsWhole)
    (arg6 : Memref sig .tc .vmem S1024x64 .f32) (harg6 : arg6.IsWhole)
    (hc0 : r4_cond0 i) (hc1 : ¬r4_cond1 i)
    (x0 : Vec F S1024x2048 .f32) (x1 : Vec F S2048x64 .f32) (x2 : Vec F S1024x1 .f32) (xi3 : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k4_pay2 x0 x1 k4_pay1)) -∗ K ⟨⟩))
      ⊢ wp frame (wpE (defs₀ (F := F)) Variants.none c none) E (cc4__bigmatmul_filt_kernel i arg2 harg2 arg3 harg3 arg4 harg4 arg5 harg5 arg6 harg6) K := by
  simp only [cc4__bigmatmul_filt_kernel_eq_skeleton]; unfold cc4__bigmatmul_filt_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x64.size (by sl_kernel_rfl) y)]
  try sl_unfold_words
  rw [View.canon_cons_unit_zero (S := S1024x64) r4_hz, View.readCov_unit_zero (S := S1024x64) _ r4_hz]
  simp only [View.readAt_eq_ld, harg2.read_unread, harg3.read_unread, View.ld_unit_zero (S := S1024x2048) r4_hz, View.ld_unit_zero (S := S2048x64) r4_hz, View.ld_unit_zero (S := S1024x64) r4_hz]

end Cert.Kernel.Hand

end
-- ==== Proof.HandBits.R4c.lean ====
import proofs.«108687_j68341519613982_1_alg».proof.Proof.HandBits.R4b

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 1 or 2 the body adds one more stretch's product to the accumulator. -/
theorem r4_run_B (c : Dev nD) (i : grid4.Coords)
    (arg2 : Memref sig .tc .vmem S1024x2048 .f32) (harg2 : arg2.IsWhole)
    (arg3 : Memref sig .tc .vmem S2048x64 .f32) (harg3 : arg3.IsWhole)
    (arg4 : Memref sig .tc .vmem S1024x1 .f32) (harg4 : arg4.IsWhole)
    (arg5 : Memref sig .tc .vmem S1024x64 .f32) (harg5 : arg5.IsWhole)
    (arg6 : Memref sig .tc .vmem S1024x64 .f32) (harg6 : arg6.IsWhole)
    (hc0 : ¬r4_cond0 i) (hc1 : ¬r4_cond1 i)
    (x0 : Vec F S1024x2048 .f32) (x1 : Vec F S2048x64 .f32) (x2 : Vec F S1024x1 .f32) (xs xi3 : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k4_pay2 x0 x1 xs)) -∗ K ⟨⟩))
      ⊢ wp frame (wpE (defs₀ (F := F)) Variants.none c none) E (cc4__bigmatmul_filt_kernel i arg2 harg2 arg3 harg3 arg4 harg4 arg5 harg5 arg6 harg6) K := by
  simp only [cc4__bigmatmul_filt_kernel_eq_skeleton]; unfold cc4__bigmatmul_filt_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x64.size (by sl_kernel_rfl) y), View.canon_unit_zero (S := S1024x64) r4_hz]
  simp only [View.readAt_eq_ld, harg2.read_unread, harg3.read_unread, harg6.read_unread, View.ld_unit_zero (S := S1024x2048) r4_hz, View.ld_unit_zero (S := S2048x64) r4_hz, View.ld_unit_zero (S := S1024x64) r4_hz]

end Cert.Kernel.Hand

end
-- ==== Proof.HandBits.R4d.lean ====
import proofs.«108687_j68341519613982_1_alg».proof.Proof.HandBits.R4c

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 3 the body adds the last stretch's product to the accumulator and stores it, each row scaled by its filter entry, into the output block. -/
theorem r4_run_C (c : Dev nD) (i : grid4.Coords)
    (arg2 : Memref sig .tc .vmem S1024x2048 .f32) (harg2 : arg2.IsWhole)
    (arg3 : Memref sig .tc .vmem S2048x64 .f32) (harg3 : arg3.IsWhole)
    (arg4 : Memref sig .tc .vmem S1024x1 .f32) (harg4 : arg4.IsWhole)
    (arg5 : Memref sig .tc .vmem S1024x64 .f32) (harg5 : arg5.IsWhole)
    (arg6 : Memref sig .tc .vmem S1024x64 .f32) (harg6 : arg6.IsWhole)
    (hc0 : ¬r4_cond0 i) (hc1 : r4_cond1 i)
    (x0 : Vec F S1024x2048 .f32) (x1 : Vec F S2048x64 .f32) (x2 : Vec F S1024x1 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k4_pay3 (k4_pay2 x0 x1 xs) x2) ∗ owns (c : Thread nD τ) arg6 fullShare (k4_pay2 x0 x1 xs)) -∗ K ⟨⟩))
      ⊢ wp frame (wpE (defs₀ (F := F)) Variants.none c none) E (cc4__bigmatmul_filt_kernel i arg2 harg2 arg3 harg3 arg4 harg4 arg5 harg5 arg6 harg6) K := by
  simp only [cc4__bigmatmul_filt_kernel_eq_skeleton]; unfold cc4__bigmatmul_filt_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S1024x64.size (by sl_kernel_rfl) y)]
    try sl_unfold_words
    rw [View.canon_unit_zero (S := S1024x64) r4_hz, View.readCov_unit_zero (S := S1024x64) _ r4_hz]
    simp only [View.readAt_eq_ld, harg2.read_unread, harg3.read_unread, harg4.read_unread, harg6.read_unread, View.ld_unit_zero (S := S1024x1) r4_hz, View.ld_unit_zero (S := S1024x2048) r4_hz, View.ld_unit_zero (S := S2048x64) r4_hz, View.ld_unit_zero (S := S1024x64) r4_hz]
  iexists _; isplitr
  swap; · iexact HS
  ipureintro
  rw [View.read_writes_eq_canon _ _ _ (fun y => View.cover_of_tiledL _ S1024x64.size (by sl_kernel_rfl) y)]
  try sl_unfold_words
  rw [View.canon_unit_zero (S := S1024x64) r4_hz]
  simp only [View.readAt_eq_ld, harg2.read_unread, harg3.read_unread, harg6.read_unread, View.ld_unit_zero (S := S1024x2048) r4_hz, View.ld_unit_zero (S := S2048x64) r4_hz, View.ld_unit_zero (S := S1024x64) r4_hz]

end Cert.Kernel.Hand

end
-- ==== Proof.HandBits.R4.lean ====
import proofs.«108687_j68341519613982_1_alg».proof.Proof.HandBits.R4d

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev r4_blkA (c : Dev nD) (t : Fin cfg4.N) : Vec F S1024x2048 .f32 := r4_iblk V c 0 t
abbrev r4_blkT (c : Dev nD) (t : Fin cfg4.N) : Vec F S2048x64 .f32 := r4_iblk V c 1 t
abbrev r4_blkF (c : Dev nD) (t : Fin cfg4.N) : Vec F S1024x1 .f32 := r4_iblk V c 2 t

/-- The accumulator after position n = 4 i + k: zero plus the stretches 0 … k of row block i, added one after the other. -/
def r4_accAt (c : Dev nD) : (n : ℕ) → n < cfg4.N → Vec F S1024x64 .f32
  | 0, hn => k4_pay2 (r4_blkA V c ⟨0, hn⟩) (r4_blkT V c ⟨0, hn⟩) k4_pay1
  | n + 1, hn => k4_pay2 (r4_blkA V c ⟨n + 1, hn⟩) (r4_blkT V c ⟨n + 1, hn⟩)
      (if (n + 1) % 4 = 0 then k4_pay1 else r4_accAt c n (Nat.lt_of_succ_lt hn))

theorem r4_accAt_first_eq (c : Dev nD) (t : Fin cfg4.N) (h0 : t.val % 4 = 0) :
    r4_accAt V c t.val t.isLt = k4_pay2 (r4_blkA V c t) (r4_blkT V c t) (k4_pay1 (F := F)) := by
  obtain ⟨n, hn⟩ := t
  cases n with
  | zero => rfl
  | succ n => exact congrArg _ (if_pos h0)

theorem r4_accAt_next_eq (c : Dev nD) (t : Fin cfg4.N) (h0 : ¬t.val % 4 = 0) :
    r4_accAt V c t.val t.isLt
      = k4_pay2 (r4_blkA V c t) (r4_blkT V c t) (r4_accAt V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The output block after position n: where k = 3 the accumulator with each row scaled by its filter entry (elsewhere not used). -/
def r4_outAt (c : Dev nD) (n : ℕ) (hn : n < cfg4.N) : Vec F S1024x64 .f32 :=
  if n % 4 = 3 then k4_pay3 (r4_accAt V c n hn) (r4_blkF V c ⟨n, hn⟩) else r4_accAt V c n hn

theorem r4_outAt_last_eq (c : Dev nD) (t : Fin cfg4.N) (h1 : t.val % 4 = 3) :
    r4_outAt V c t.val t.isLt = k4_pay3 (r4_accAt V c t.val t.isLt) (r4_blkF V c t) := if_pos h1

/-- Before position n: the plain invariant before the first; afterwards the accumulator owned at what the position before left. -/
def r4_Phi (c : Dev nD) : (n : ℕ) → n ≤ cfg4.N → sProp 𝕄
  | 0, _ => Pipeline.ΦA spec4 c
  | n + 1, hn => iprop(iprop(owns (c : Thread nD τ) r4_scM fullShare (r4_accAt V c n hn) ∗ Pipeline.scopedRestBut spec4 c [cc4_scratch0]) ∗ (∃ r, prngReg c r))

theorem r4_Phi_pos (c : Dev nD) (n : ℕ) (h : n ≤ cfg4.N) (hz : n ≠ 0) :
    r4_Phi V c n h = iprop(iprop(owns (c : Thread nD τ) r4_scM fullShare (r4_accAt V c (n - 1) (by omega)) ∗ Pipeline.scopedRestBut spec4 c [cc4_scratch0]) ∗ (∃ r, prngReg c r)) := by
  cases n with
  | zero => exact absurd rfl hz
  | succ n => rfl

/-- At any position the invariant owns the accumulator at something. -/
theorem r4_Phi_any (c : Dev nD) (n : ℕ) (h : n ≤ cfg4.N) :
    r4_Phi V c n h ⊢ iprop(iprop((∃ d, owns (c : Thread nD τ) r4_scM fullShare d) ∗ Pipeline.scopedRestBut spec4 c [cc4_scratch0]) ∗ (∃ r, prngReg c r)) := by
  cases n with
  | zero => rw [show r4_Phi V c 0 h = Pipeline.ΦA spec4 c from rfl, r4_PhiA_eq]; try exact Idealize.SL.BI.Entails.refl _
  | succ n =>
    rw [show r4_Phi V c (n + 1) h = iprop(iprop(owns (c : Thread nD τ) r4_scM fullShare (r4_accAt V c n h) ∗ Pipeline.scopedRestBut spec4 c [cc4_scratch0]) ∗ (∃ r, prngReg c r)) from rfl]
    iintro ⟨⟨HS, HR⟩, Hg⟩
    isplitl [HS HR]
    · isplitl [HS]
      · iexists _; iexact HS
      iexact HR
    iexact Hg

def r4_dat (c : Dev nD) : Dat τ (Elt F) Unit ℕ (UR sig nD τ) ℕ cfg4 c where
  A w := V c (Pipeline.arrRef spec4 w)
  after w t := match w with
    | ⟨0, _⟩ => r4_iblk V c 0 t
    | ⟨1, _⟩ => r4_iblk V c 1 t
    | ⟨2, _⟩ => r4_iblk V c 2 t
    | ⟨3, _⟩ => r4_outAt V c t.val t.isLt
  Φ t := r4_Phi V c t.val (Nat.le_of_lt_succ t.isLt)
  q _ := fullShare
  owed _ := 0

theorem r4_A_eq (c : Dev nD) (w : Fin cfg4.W) : (r4_dat V c).A w = V c (Pipeline.arrRef spec4 w) := by
  dsimp only [r4_dat]

theorem r4_Phi_castSucc (c : Dev nD) (t : Fin cfg4.N) :
    (r4_dat V c).Φ t.castSucc = r4_Phi V c t.val (Nat.le_of_lt t.isLt) := by
  dsimp only [r4_dat]; simp only [Fin.coe_castSucc]

theorem r4_after_0 (c : Dev nD) (t : Fin cfg4.N) : (r4_dat V c).after 0 t = r4_iblk V c 0 t := by dsimp only [r4_dat]
theorem r4_after_1 (c : Dev nD) (t : Fin cfg4.N) : (r4_dat V c).after 1 t = r4_iblk V c 1 t := by dsimp only [r4_dat]
theorem r4_after_2 (c : Dev nD) (t : Fin cfg4.N) : (r4_dat V c).after 2 t = r4_iblk V c 2 t := by dsimp only [r4_dat]
theorem r4_after_3 (c : Dev nD) (t : Fin cfg4.N) : (r4_dat V c).after 3 t = r4_outAt V c t.val t.isLt := by dsimp only [r4_dat]

theorem r4_before_0 (c : Dev nD) (t : Fin cfg4.N) (d) : (r4_dat V c).before 0 t d = r4_iblk V c 0 t :=
  (r4_dat V c).before_in_eq_fetched 0 rfl (fun _ => rfl) (fun _ _ _ => rfl) (fun _ => rfl) t d
theorem r4_before_1 (c : Dev nD) (t : Fin cfg4.N) (d) : (r4_dat V c).before 1 t d = r4_iblk V c 1 t :=
  (r4_dat V c).before_in_eq_fetched 1 rfl (fun _ => rfl) (fun _ _ _ => rfl) (fun _ => rfl) t d
theorem r4_before_2 (c : Dev nD) (t : Fin cfg4.N) (d) : (r4_dat V c).before 2 t d = r4_iblk V c 2 t :=
  (r4_dat V c).before_in_eq_fetched 2 rfl (fun _ => rfl) (fun _ _ _ => rfl) (fun _ => rfl) t d

def r4_bodyPre (c : Dev nD) (t : Fin cfg4.N) : sProp 𝕄 :=
  iprop((r4_dat V c).Φ t.castSucc ∗ (r4_dat V c).owesAt () t.castSucc
    ∗ (∃ d, owns (c : Thread nD τ) (r4_ms0 t) fullShare ((r4_dat V c).before 0 t d))
    ∗ (∃ d, owns (c : Thread nD τ) (r4_ms1 t) fullShare ((r4_dat V c).before 1 t d))
    ∗ (∃ d, owns (c : Thread nD τ) (r4_ms2 t) fullShare ((r4_dat V c).before 2 t d))
    ∗ (∃ d, owns (c : Thread nD τ) (r4_ms3 t) fullShare ((r4_dat V c).before 3 t d)))

def r4_bodyPost (c : Dev nD) (t : Fin cfg4.N) : sProp 𝕄 :=
  iprop((r4_dat V c).Φ t.succ ∗ (r4_dat V c).owesAt () t.succ
    ∗ (r4_dat V c).leavesExact 0 t
    ∗ (r4_dat V c).leavesExact 1 t
    ∗ (r4_dat V c).leavesExact 2 t
    ∗ (r4_dat V c).leavesExact 3 t)

set_option maxHeartbeats 4800000 in
/-- The body at any position, by the position's k: the invariant lends the accumulator and takes it back at this position's contents. -/
theorem r4_sound_body (c : Dev nD) (t : Fin cfg4.N) :
    r4_bodyPre V c t ⊢ wp frame (wpE (defs₀ (F := F)) Variants.none c none) Set.univ (bodyAt4 t) (fun _ => r4_bodyPost V c t) := by
  unfold r4_bodyPre r4_bodyPost bodyAt4
  simp only [r4_before_0, r4_before_1, r4_before_2]
  rw [show (r4_dat V c).owesAt () t.succ = (r4_dat V c).owesAt () t.castSucc from rfl]
  rw [show (r4_dat V c).Φ t.succ = iprop(iprop(owns (c : Thread nD τ) r4_scM fullShare (r4_accAt V c t.val t.isLt) ∗ Pipeline.scopedRestBut spec4 c [cc4_scratch0]) ∗ (∃ r, prngReg c r)) from rfl]
  rw [show (r4_dat V c).leavesExact 0 t = owns (c : Thread nD τ) (r4_ms0 t) fullShare ((r4_dat V c).after 0 t) from by
    unfold Dat.leavesExact; rw [r4_liveAt_0 t], r4_after_0]
  rw [show (r4_dat V c).leavesExact 1 t = owns (c : Thread nD τ) (r4_ms1 t) fullShare ((r4_dat V c).after 1 t) from by
    unfold Dat.leavesExact; rw [r4_liveAt_1 t], r4_after_1]
  rw [show (r4_dat V c).leavesExact 2 t = owns (c : Thread nD τ) (r4_ms2 t) fullShare ((r4_dat V c).after 2 t) from by
    unfold Dat.leavesExact; rw [r4_liveAt_2 t], r4_after_2]
  rw [r4_Phi_castSucc V c t]
  by_cases h0 : t.val % 4 = 0
  · have h1 : ¬t.val % 4 = 3 := by omega
    rw [Dat.leavesExact_idle (r4_dat V c) 3 t (r4_idleAt_3 t (fun h => h1 ((r4_hcond1 t).mp h))) (r4_noFlush_3 t (fun h => h1 ((r4_hcond1 t).mp h))), r4_accAt_first_eq V c t h0]
    iintro ⟨HP, Ho, ⟨%d0, H0⟩, ⟨%d1, H1⟩, ⟨%d2, H2⟩, ⟨%d3, H3⟩⟩
    ihave ⟨⟨HS, HR⟩, Hg⟩ := (r4_Phi_any V c _ _) $$ HP
    iapply (r4_run_A c (grid4.coords t) _ _ _ _ _ _ _ _ _ _ ((r4_hcond0 t).mpr h0) (fun h => h1 ((r4_hcond1 t).mp h)) (r4_blkA V c t) (r4_blkT V c t) (r4_blkF V c t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [r4_Phi_pos V c _ _ (fun e => h0 (by rw [e])), r4_accAt_next_eq V c t h0]
    by_cases h1 : t.val % 4 = 3
    · rw [show (r4_dat V c).leavesExact 3 t = owns (c : Thread nD τ) (r4_ms3 t) fullShare ((r4_dat V c).after 3 t) from by
        unfold Dat.leavesExact; rw [r4_liveAt_3 t ((r4_hcond1 t).mpr h1)], r4_after_3, r4_outAt_last_eq V c t h1, r4_accAt_next_eq V c t h0]
      iintro ⟨⟨⟨HS, HR⟩, Hg⟩, Ho, ⟨%d0, H0⟩, ⟨%d1, H1⟩, ⟨%d2, H2⟩, ⟨%d3, H3⟩⟩
      iapply (r4_run_C c (grid4.coords t) _ _ _ _ _ _ _ _ _ _ (fun h => h0 ((r4_hcond0 t).mp h)) ((r4_hcond1 t).mpr h1) (r4_blkA V c t) (r4_blkT V c t) (r4_blkF V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (r4_dat V c) 3 t (r4_idleAt_3 t (fun h => h1 ((r4_hcond1 t).mp h))) (r4_noFlush_3 t (fun h => h1 ((r4_hcond1 t).mp h)))]
      iintro ⟨⟨⟨HS, HR⟩, Hg⟩, Ho, ⟨%d0, H0⟩, ⟨%d1, H1⟩, ⟨%d2, H2⟩, ⟨%d3, H3⟩⟩
      iapply (r4_run_B c (grid4.coords t) _ _ _ _ _ _ _ _ _ _ (fun h => h0 ((r4_hcond0 t).mp h)) (fun h => h1 ((r4_hcond1 t).mp h)) (r4_blkA V c t) (r4_blkT V c t) (r4_blkF V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem r4_body_obligation (c : Dev nD) : BodyObligation (r4_dat (F := F) V c) (defs₀ (F := F)) Variants.none () Set.univ := fun t => by
  rw [bigSep_W4, bigSep_W4]
  exact r4_sound_body V c t

theorem r4_hout (c : Dev nD) : (r4_dat V c).Φ (Fin.last cfg4.N) ⊢ (Pipeline.ΦA spec4 c : sProp 𝕄) := by
  rw [show (r4_dat V c).Φ (Fin.last cfg4.N) = r4_Phi V c (Fin.last cfg4.N).val (Nat.le_of_lt_succ (Fin.last cfg4.N).isLt) from rfl, r4_PhiA_eq]
  exact r4_Phi_any V c _ _

def region4 : Region (F := F) cfg4 V where
  dat := r4_dat V
  A_eq := r4_A_eq V
  body := r4_body_obligation V
  q_full := fun _ _ => rfl
  owed_zero := fun _ _ => rfl
  recorded_univ := fun _ => rfl
  phi_in := fun _ => .rfl
  phi_out := r4_hout V

end

end Cert.Kernel.Hand

end
-- ==== Proof.HandBits.R5a.lean ====
import proofs.«108687_j68341519613982_1_alg».proof.Proof.HandBits.Iface
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem r5_hz : (![0, 0] : Fin 2 → Nat) = fun _ => 0 := funext fun a => by fin_cases a <;> rfl

local notation "𝕄" => MT nD τ sig Unit (Elt F) ℕ (UR sig nD τ) ℕ

section Shared
variable (V : (c : Dev nD) → (b : Ref sig .tc) → Buf (Elt F) ((c : Thread nD τ).loc b))

def r5_iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Shared

abbrev r5_cond0 (i : grid5.Coords) : Prop := (Scalar.cmpi .ne (Scalar.extui (Scalar.cmpi .eq (BitVec.ofNat 32 (i 1).val) 0#32)) 0#32) = 1#1

theorem r5_hcond0 : ∀ t : Fin cfg5.N, r5_cond0 (grid5.coords t) ↔ t.val % 4 = 0 :=
  (by decide +kernel : ∀ t : Fin grid5.N, r5_cond0 (grid5.coords t) ↔ t.val % 4 = 0)

abbrev r5_cond1 (i : grid5.Coords) : Prop := k5_cond2 i = 1#1

theorem r5_hcond1 : ∀ t : Fin cfg5.N, r5_cond1 (grid5.coords t) ↔ t.val % 4 = 3 :=
  (by decide +kernel : ∀ t : Fin grid5.N, r5_cond1 (grid5.coords t) ↔ t.val % 4 = 3)

theorem r5_liveAt0 : ∀ t : Fin cfg5.N, cfg5.idle 0 (grid5.coords t) = false := by decide +kernel
theorem r5_liveAt1 : ∀ t : Fin cfg5.N, cfg5.idle 1 (grid5.coords t) = false := by decide +kernel

theorem r5_idleAt2 : ∀ t : Fin cfg5.N, ¬r5_cond1 (grid5.coords t) → cfg5.idle 2 (grid5.coords t) = true := by decide +kernel

theorem r5_noFlush2 : ∀ t : Fin cfg5.N, ¬r5_cond1 (grid5.coords t) → (cfg5.win 2).flush t = false := by decide +kernel

theorem r5_liveAt2 : ∀ t : Fin cfg5.N, r5_cond1 (grid5.coords t) → cfg5.idle 2 (grid5.coords t) = false := by decide +kernel

abbrev r5_VO : View sig .tc .vmem S1024x64 .f32 := (Memref.whole cc5_stg2_0 : Memref sig .tc .vmem S1024x64 .f32).view
abbrev r5_ms0 (t : Fin cfg5.N) : Memref sig .tc .vmem S1024x2048 .f32 := win5_0.stage (cfg5.slots t 0)
abbrev r5_hs0 (t : Fin cfg5.N) : (r5_ms0 t).IsWhole := hstage5_0 ((cfg5.slots t 0).cast nbuf5_0)
abbrev r5_ms1 (t : Fin cfg5.N) : Memref sig .tc .vmem S2048x64 .f32 := win5_1.stage (cfg5.slots t 1)
abbrev r5_hs1 (t : Fin cfg5.N) : (r5_ms1 t).IsWhole := hstage5_1 ((cfg5.slots t 1).cast nbuf5_1)
abbrev r5_ms2 (t : Fin cfg5.N) : Memref sig .tc .vmem S1024x64 .f32 := win5_2.stage (cfg5.slots t 2)
abbrev r5_hs2 (t : Fin cfg5.N) : (r5_ms2 t).IsWhole := hstage5_2 ((cfg5.slots t 2).cast nbuf5_2)

abbrev r5_scM : Memref sig .tc .vmem S1024x64 .f32 := Memref.whole cc5_scratch0
abbrev r5_VS : View sig .tc .vmem S1024x64 .f32 := r5_scM.view

theorem r5_PhiA_eq (c : Dev nD) :
    (Pipeline.ΦA spec5 c : sProp 𝕄)
      = iprop(iprop((∃ d, owns (c : Thread nD τ) r5_scM fullShare d) ∗ Pipeline.scopedRestBut spec5 c [cc5_scratch0]) ∗ (∃ r, prngReg c r)) := by
  unfold Pipeline.ΦA; rw [scopedRest5_split]; simp only [r5_scM, owns_whole]; try rfl

end Cert.Kernel.Hand

end
-- ==== Proof.HandBits.R5b.lean ====
import proofs.«108687_j68341519613982_1_alg».proof.Proof.HandBits.R5a

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first step of a row block: the accumulator is zeroed and takes the first stretch's product of the two blocks. -/
theorem r5_run_A (c : Dev nD) (i : grid5.Coords) (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x2048 .f32) (x1 : Vec F S2048x64 .f32) (E : Set ℕ) (K : PUnit → sProp 𝕄)
    (hc0 : r5_cond0 i) (hc1 : ¬r5_cond1 i) (xi2 : Vec F S1024x64 .f32) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 x0 x1 k5_pay1)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x64.size (by sl_kernel_rfl) y)]
  try sl_unfold_words
  rw [View.canon_cons_unit_zero (S := S1024x64) r5_hz, View.readCov_unit_zero (S := S1024x64) _ r5_hz]
  simp only [View.readAt_eq_ld, harg2.read_unread, harg3.read_unread, harg5.read_unread, View.ld_unit_zero (S := S1024x2048) r5_hz, View.ld_unit_zero (S := S2048x64) r5_hz, View.ld_unit_zero (S := S1024x64) r5_hz]

set_option maxHeartbeats 4000000 in
/-- A middle step: the accumulator takes one more stretch's product. -/
theorem r5_run_B (c : Dev nD) (i : grid5.Coords) (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x2048 .f32) (x1 : Vec F S2048x64 .f32) (E : Set ℕ) (K : PUnit → sProp 𝕄)
    (hc0 : ¬r5_cond0 i) (hc1 : ¬r5_cond1 i) (xs0 xi2 : Vec F S1024x64 .f32) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 x0 x1 xs0)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x64.size (by sl_kernel_rfl) y)]
  try sl_unfold_words
  rw [View.canon_unit_zero r5_hz]
  simp only [View.readAt_eq_ld, harg2.read_unread, harg3.read_unread, harg5.read_unread, View.ld_unit_zero (S := S1024x2048) r5_hz, View.ld_unit_zero (S := S2048x64) r5_hz, View.ld_unit_zero (S := S1024x64) r5_hz]

set_option maxHeartbeats 4000000 in
/-- A last step: the accumulator takes the last stretch's product and its closing value is stored into the result block. -/
theorem r5_run_C (c : Dev nD) (i : grid5.Coords) (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x2048 .f32) (x1 : Vec F S2048x64 .f32) (E : Set ℕ) (K : PUnit → sProp 𝕄)
    (hc0 : ¬r5_cond0 i) (hc1 : r5_cond1 i) (xs0 : Vec F S1024x64 .f32) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k5_pay3 (k5_pay2 x0 x1 xs0)) ∗ owns (c : Thread nD τ) arg5 fullShare (k5_pay2 x0 x1 xs0)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => View.cover_of_tiledL _ S1024x64.size (by sl_kernel_rfl) y)]
    try sl_unfold_words
    rw [View.canon_unit_zero r5_hz, View.readCov_unit_zero (S := S1024x64) _ r5_hz]
    simp only [View.readAt_eq_ld, harg2.read_unread, harg3.read_unread, harg5.read_unread, View.ld_unit_zero (S := S1024x2048) r5_hz, View.ld_unit_zero (S := S2048x64) r5_hz, View.ld_unit_zero (S := S1024x64) r5_hz]
  iexists _; isplitr
  swap; · iexact HS0
  ipureintro
  rw [View.read_writes_eq_canon _ _ _ (fun y => View.cover_of_tiledL _ S1024x64.size (by sl_kernel_rfl) y)]
  try sl_unfold_words
  rw [View.canon_unit_zero r5_hz]
  simp only [View.readAt_eq_ld, harg2.read_unread, harg3.read_unread, harg5.read_unread, View.ld_unit_zero (S := S1024x2048) r5_hz, View.ld_unit_zero (S := S2048x64) r5_hz, View.ld_unit_zero (S := S1024x64) r5_hz]

end Cert.Kernel.Hand

end
-- ==== Proof.HandBits.R5.lean ====
import proofs.«108687_j68341519613982_1_alg».proof.Proof.HandBits.R5b

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

abbrev r5_blk0 (c : Dev nD) (t : Fin cfg5.N) : Vec F S1024x2048 .f32 := r5_iblk V c 0 t
abbrev r5_blk1 (c : Dev nD) (t : Fin cfg5.N) : Vec F S2048x64 .f32 := r5_iblk V c 1 t

/-- The accumulator after step n = 4 i + k: zero plus the stretches 0 … k of row block i, added one after the other. -/
def r5_accAt (c : Dev nD) : (n : ℕ) → n < cfg5.N → Vec F S1024x64 .f32
  | 0, hn => k5_pay2 (r5_blk0 V c ⟨0, hn⟩) (r5_blk1 V c ⟨0, hn⟩) k5_pay1
  | n + 1, hn => k5_pay2 (r5_blk0 V c ⟨n + 1, hn⟩) (r5_blk1 V c ⟨n + 1, hn⟩)
      (if (n + 1) % 4 = 0 then k5_pay1 else r5_accAt c n (Nat.lt_of_succ_lt hn))

/-- The result block (where k = 3 the accumulator's closing value; elsewhere not used) and the accumulator, after step n. -/
def r5_outsAt (c : Dev nD) (n : ℕ) (hn : n < cfg5.N) : Vec F S1024x64 .f32 × Vec F S1024x64 .f32 :=
  (if n % 4 = 3 then k5_pay3 (r5_accAt V c n hn) else r5_accAt V c n hn, r5_accAt V c n hn)

theorem r5_acc_first (c : Dev nD) (t : Fin cfg5.N) (h0 : t.val % 4 = 0) :
    (r5_outsAt V c t.val t.isLt).2 = k5_pay2 (r5_blk0 V c t) (r5_blk1 V c t) (k5_pay1 (F := F)) := by
  obtain ⟨n, hn⟩ := t
  cases n with
  | zero => rfl
  | succ n => show r5_accAt V c (n + 1) hn = _; exact congrArg _ (if_pos h0)

theorem r5_acc_next (c : Dev nD) (t : Fin cfg5.N) (h0 : ¬t.val % 4 = 0) :
    (r5_outsAt V c t.val t.isLt).2 = k5_pay2 (r5_blk0 V c t) (r5_blk1 V c t) (r5_outsAt V c (t.val - 1) (Nat.lt_of_le_of_lt (Nat.sub_le _ _) t.isLt)).2 := by
  obtain ⟨n, hn⟩ := t
  cases n with
  | zero => exact absurd (Nat.zero_mod _) h0
  | succ n => show r5_accAt V c (n + 1) hn = _; exact congrArg _ (if_neg h0)

theorem r5_out_last (c : Dev nD) (t : Fin cfg5.N) (h0 : ¬t.val % 4 = 0) (h1 : t.val % 4 = 3) :
    (r5_outsAt V c t.val t.isLt).1 = k5_pay3 (r5_outsAt V c t.val t.isLt).2 := if_pos h1

/-- Before step n: the plain invariant before the first; afterwards the accumulator owned at what the step before left. -/
def r5_PhiS (c : Dev nD) : (n : ℕ) → n ≤ cfg5.N → sProp 𝕄
  | 0, _ => Pipeline.ΦA spec5 c
  | n + 1, hn => iprop(iprop(owns (c : Thread nD τ) r5_scM fullShare ((r5_outsAt V c n hn).2) ∗ Pipeline.scopedRestBut spec5 c [cc5_scratch0]) ∗ (∃ r, prngReg c r))

theorem r5_PhiS_pos (c : Dev nD) (n : ℕ) (h : n ≤ cfg5.N) (hz : n ≠ 0) :
    r5_PhiS V c n h = iprop(iprop(owns (c : Thread nD τ) r5_scM fullShare ((r5_outsAt V c (n - 1) (by omega)).2) ∗ Pipeline.scopedRestBut spec5 c [cc5_scratch0]) ∗ (∃ r, prngReg c r)) := by
  cases n with
  | zero => exact absurd rfl hz
  | succ n => rfl

/-- At any step the invariant owns the accumulator at something. -/
theorem r5_PhiS_any (c : Dev nD) (n : ℕ) (h : n ≤ cfg5.N) :
    r5_PhiS V c n h ⊢ iprop(iprop((∃ d, owns (c : Thread nD τ) r5_scM fullShare d) ∗ Pipeline.scopedRestBut spec5 c [cc5_scratch0]) ∗ (∃ r, prngReg c r)) := by
  cases n with
  | zero => rw [show r5_PhiS V c 0 h = Pipeline.ΦA spec5 c from rfl, r5_PhiA_eq]; try exact Idealize.SL.BI.Entails.refl _
  | succ n =>
    rw [show r5_PhiS V c (n + 1) h = iprop(iprop(owns (c : Thread nD τ) r5_scM fullShare ((r5_outsAt V c n h).2) ∗ Pipeline.scopedRestBut spec5 c [cc5_scratch0]) ∗ (∃ r, prngReg c r)) from rfl]
    iintro ⟨⟨HS, HR⟩, Hg⟩
    isplitl [HS HR]
    · isplitl [HS]
      · iexists _; iexact HS
      iexact HR
    iexact Hg

def r5_dat (c : Dev nD) : Dat τ (Elt F) Unit ℕ (UR sig nD τ) ℕ cfg5 c where
  A w := V c (Pipeline.arrRef spec5 w)
  after w t := match w with
    | ⟨0, _⟩ => r5_iblk V c 0 t
    | ⟨1, _⟩ => r5_iblk V c 1 t
    | ⟨2, _⟩ => (r5_outsAt V c t.val t.isLt).1
  Φ t := r5_PhiS V c t.val (Nat.le_of_lt_succ t.isLt)
  q _ := fullShare
  owed _ := 0

theorem r5_A_eq (c : Dev nD) (w : Fin cfg5.W) : (r5_dat V c).A w = V c (Pipeline.arrRef spec5 w) := by
  dsimp only [r5_dat]

theorem r5_PhiS_castSucc (c : Dev nD) (t : Fin cfg5.N) :
    (r5_dat V c).Φ t.castSucc = r5_PhiS V c t.val (Nat.le_of_lt t.isLt) := by
  dsimp only [r5_dat]; simp only [Fin.coe_castSucc]

theorem r5_after0 (c : Dev nD) (t : Fin cfg5.N) : (r5_dat V c).after 0 t = r5_iblk V c 0 t := by dsimp only [r5_dat]
theorem r5_after1 (c : Dev nD) (t : Fin cfg5.N) : (r5_dat V c).after 1 t = r5_iblk V c 1 t := by dsimp only [r5_dat]
theorem r5_after2 (c : Dev nD) (t : Fin cfg5.N) : (r5_dat V c).after 2 t = (r5_outsAt V c t.val t.isLt).1 := by dsimp only [r5_dat]

theorem r5_before0 (c : Dev nD) (t : Fin cfg5.N) (d) : (r5_dat V c).before 0 t d = r5_iblk V c 0 t :=
  (r5_dat V c).before_in_eq_fetched 0 rfl (fun _ => rfl) (fun _ _ _ => rfl) (fun _ => rfl) t d
theorem r5_before1 (c : Dev nD) (t : Fin cfg5.N) (d) : (r5_dat V c).before 1 t d = r5_iblk V c 1 t :=
  (r5_dat V c).before_in_eq_fetched 1 rfl (fun _ => rfl) (fun _ _ _ => rfl) (fun _ => rfl) t d

def r5_bodyPre (c : Dev nD) (t : Fin cfg5.N) : sProp 𝕄 :=
  iprop((r5_dat V c).Φ t.castSucc ∗ (r5_dat V c).owesAt () t.castSucc
    ∗ (∃ d, owns (c : Thread nD τ) (r5_ms0 t) fullShare ((r5_dat V c).before 0 t d))
    ∗ (∃ d, owns (c : Thread nD τ) (r5_ms1 t) fullShare ((r5_dat V c).before 1 t d))
    ∗ (∃ d, owns (c : Thread nD τ) (r5_ms2 t) fullShare ((r5_dat V c).before 2 t d)))

def r5_bodyPost (c : Dev nD) (t : Fin cfg5.N) : sProp 𝕄 :=
  iprop((r5_dat V c).Φ t.succ ∗ (r5_dat V c).owesAt () t.succ
    ∗ (r5_dat V c).leavesExact 0 t
    ∗ (r5_dat V c).leavesExact 1 t
    ∗ (r5_dat V c).leavesExact 2 t)

set_option maxHeartbeats 4800000 in
/-- The body at any step, by the step's k: the invariant lends the accumulator and takes it back at this step's contents. -/
theorem r5_sound_body (c : Dev nD) (t : Fin cfg5.N) :
    r5_bodyPre V c t ⊢ wp frame (wpE (defs₀ (F := F)) Variants.none c none) Set.univ (bodyAt5 t) (fun _ => r5_bodyPost V c t) := by
  unfold r5_bodyPre r5_bodyPost bodyAt5
  simp only [r5_before0, r5_before1]
  rw [show (r5_dat V c).owesAt () t.succ = (r5_dat V c).owesAt () t.castSucc from rfl]
  rw [show (r5_dat V c).Φ t.succ = iprop(iprop(owns (c : Thread nD τ) r5_scM fullShare ((r5_outsAt V c t.val t.isLt).2) ∗ Pipeline.scopedRestBut spec5 c [cc5_scratch0]) ∗ (∃ r, prngReg c r)) from rfl]
  rw [show (r5_dat V c).leavesExact 0 t = owns (c : Thread nD τ) (r5_ms0 t) fullShare ((r5_dat V c).after 0 t) from by
    unfold Dat.leavesExact; rw [r5_liveAt0 t], r5_after0]
  rw [show (r5_dat V c).leavesExact 1 t = owns (c : Thread nD τ) (r5_ms1 t) fullShare ((r5_dat V c).after 1 t) from by
    unfold Dat.leavesExact; rw [r5_liveAt1 t], r5_after1]
  rw [r5_PhiS_castSucc V c t]
  by_cases h0 : t.val % 4 = 0
  · have h1 : ¬t.val % 4 = 3 := by omega
    rw [Dat.leavesExact_idle (r5_dat V c) 2 t (r5_idleAt2 t (fun h => h1 ((r5_hcond1 t).mp h))) (r5_noFlush2 t (fun h => h1 ((r5_hcond1 t).mp h))), r5_acc_first V c t h0]
    iintro ⟨HP, Ho, ⟨%d0, H0⟩, ⟨%d1, H1⟩, ⟨%d2, H2⟩⟩
    ihave ⟨⟨HS, HR⟩, Hg⟩ := (r5_PhiS_any V c _ _) $$ HP
    iapply (r5_run_A c (grid5.coords t) _ _ _ _ _ _ _ _ (r5_blk0 V c t) (r5_blk1 V c t) Set.univ _ ((r5_hcond0 t).mpr h0) (fun h => h1 ((r5_hcond1 t).mp h)) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · rw [r5_PhiS_pos V c _ _ (fun e => h0 (by rw [e]))]
    by_cases h1 : t.val % 4 = 3
    · rw [show (r5_dat V c).leavesExact 2 t = owns (c : Thread nD τ) (r5_ms2 t) fullShare ((r5_dat V c).after 2 t) from by
        unfold Dat.leavesExact; rw [r5_liveAt2 t ((r5_hcond1 t).mpr h1)], r5_after2, r5_out_last V c t h0 h1, r5_acc_next V c t h0]
      iintro ⟨⟨⟨HS, HR⟩, Hg⟩, Ho, ⟨%d0, H0⟩, ⟨%d1, H1⟩, ⟨%d2, H2⟩⟩
      iapply (r5_run_C c (grid5.coords t) _ _ _ _ _ _ _ _ (r5_blk0 V c t) (r5_blk1 V c t) Set.univ _ (fun h => h0 ((r5_hcond0 t).mp h)) ((r5_hcond1 t).mpr h1) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (r5_dat V c) 2 t (r5_idleAt2 t (fun h => h1 ((r5_hcond1 t).mp h))) (r5_noFlush2 t (fun h => h1 ((r5_hcond1 t).mp h))), r5_acc_next V c t h0]
      iintro ⟨⟨⟨HS, HR⟩, Hg⟩, Ho, ⟨%d0, H0⟩, ⟨%d1, H1⟩, ⟨%d2, H2⟩⟩
      iapply (r5_run_B c (grid5.coords t) _ _ _ _ _ _ _ _ (r5_blk0 V c t) (r5_blk1 V c t) Set.univ _ (fun h => h0 ((r5_hcond0 t).mp h)) (fun h => h1 ((r5_hcond1 t).mp h)) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem r5_body_obligation (c : Dev nD) : BodyObligation (r5_dat (F := F) V c) (defs₀ (F := F)) Variants.none () Set.univ := fun t => by
  rw [bigSep_W5, bigSep_W5]
  exact r5_sound_body V c t

theorem r5_hout (c : Dev nD) : (r5_dat V c).Φ (Fin.last cfg5.N) ⊢ (Pipeline.ΦA spec5 c : sProp 𝕄) := by
  rw [show (r5_dat V c).Φ (Fin.last cfg5.N) = r5_PhiS V c (Fin.last cfg5.N).val (Nat.le_of_lt_succ (Fin.last cfg5.N).isLt) from rfl, r5_PhiA_eq]
  exact r5_PhiS_any V c _ _

def region5 : Region (F := F) cfg5 V where
  dat := r5_dat V
  A_eq := r5_A_eq V
  body := r5_body_obligation V
  q_full := fun _ _ => rfl
  owed_zero := fun _ _ => rfl
  recorded_univ := fun _ => rfl
  phi_in := fun _ => .rfl
  phi_out := r5_hout V

end Frame

end Cert.Kernel.Hand

end
-- ==== Proof.HandBits.RunA.lean ====
import proofs.«108687_j68341519613982_1_alg».proof.Proof.HandBits.Iface

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {cfg : Cfg sig Λ₀} (r : ∀ V, Region (F := F) cfg V) (W : Dev nD → Valuation τ sig (Elt F)) (c : Dev nD)

/-- A core's buffers read at the TensorCore's references. -/
abbrev Vof (W : Dev nD → Valuation τ sig (Elt F)) : (c : Dev nD) → (b : Ref sig .tc) → Buf (Elt F) ((c : Thread nD τ).loc b) := fun c b => W c b

/-- The buffers after a launch entered at `W`: its arrays at what its pipeline leaves, every other buffer as before. -/
def step : Valuation τ sig (Elt F) :=
  Pipeline.withArrays cfg.spec c (W c) fun w => ((r (Vof W)).dat c).arrAt w cfg.N

theorem step_arr (hw : Pipeline.WinFacts cfg.spec) (w : Fin cfg.W) :
    step r W c (Proc.devRef .tc (Pipeline.arrRef cfg.spec w)) = ((r (Vof W)).dat c).arrAt w cfg.N :=
  Pipeline.withArrays_arr cfg.spec hw.arr_inj c _ _ w

theorem step_of_ne (b : Ref sig .tc) (hb : ∀ w, Pipeline.arrRef cfg.spec w ≠ b) :
    step r W c (Proc.devRef .tc b) = W c (Proc.devRef .tc b) :=
  Pipeline.withArrays_of_ne cfg.spec c _ _ b hb

/-- `b` is no output window's array of the launch. -/
abbrev Keeps (cfg : Cfg sig Λ₀) (b : Ref sig .tc) : Prop := ∀ w, Pipeline.arrRef cfg.spec w = b → (cfg.win w).isOut = false

/-- A launch changes no array but those of its output windows. -/
theorem step_same (hw : Pipeline.WinFacts cfg.spec) (b : Ref sig .tc) (hb : Keeps cfg b) :
    step r W c (Proc.devRef .tc b) = W c (Proc.devRef .tc b) := by
  by_cases h : ∃ w, Pipeline.arrRef cfg.spec w = b
  · obtain ⟨w, rfl⟩ := h
    exact (step_arr r W c hw w).trans ((((r _).dat c).arrAt_in w (hb w rfl) _).trans ((r _).A_eq c w))
  · exact step_of_ne r W c b fun w e => h ⟨w, e⟩

end

variable (r0 : ∀ V, Region (F := F) cfg0 V) (r1 : ∀ V, Region (F := F) cfg1 V) (r2 : ∀ V, Region (F := F) cfg2 V)
  (r3 : ∀ V, Region (F := F) cfg3 V) (r4 : ∀ V, Region (F := F) cfg4 V) (r5 : ∀ V, Region (F := F) cfg5 V)
variable (m : (ℓ : Loc nD τ sig) → Buf (Elt F) ℓ)

/-- The buffers between the program's items, from the launch memory: launch 0, a reshape, launches 1 to 3, a reshape, launches 4 and 5. -/
abbrev W0 : Dev nD → Valuation τ sig (Elt F) := fun c b => m ((c : Dev nD), b)
abbrev W1 := step r0 (W0 m)
abbrev W2 : Dev nD → Valuation τ sig (Elt F) := fun c => StableHlo.after hostOps1 (W1 r0 m c)
abbrev W3 := step r1 (W2 r0 m)
abbrev W4 := step r2 (W3 r0 r1 m)
abbrev W5 := step r3 (W4 r0 r1 r2 m)
abbrev W6 : Dev nD → Valuation τ sig (Elt F) := fun c => StableHlo.after hostOps4 (W5 r0 r1 r2 r3 m c)
abbrev W7 := step r4 (W6 r0 r1 r2 r3 m)
abbrev W8 := step r5 (W7 r0 r1 r2 r3 r4 m)

theorem W1_arr (c : Dev nD) (w : Fin cfg0.W) :
    W1 r0 m c (Proc.devRef .tc (Pipeline.arrRef cfg0.spec w)) = ((r0 (Vof (W0 m))).dat c).arrAt w cfg0.N :=
  step_arr r0 _ c winFacts0 w
theorem W1_same (c : Dev nD) (b : Ref sig .tc) (hb : Keeps cfg0 b) :
    W1 r0 m c (Proc.devRef .tc b) = W0 m c (Proc.devRef .tc b) :=
  step_same r0 _ c winFacts0 b hb
theorem W3_arr (c : Dev nD) (w : Fin cfg1.W) :
    W3 r0 r1 m c (Proc.devRef .tc (Pipeline.arrRef cfg1.spec w)) = ((r1 (Vof (W2 r0 m))).dat c).arrAt w cfg1.N :=
  step_arr r1 _ c winFacts1 w
theorem W3_same (c : Dev nD) (b : Ref sig .tc) (hb : Keeps cfg1 b) :
    W3 r0 r1 m c (Proc.devRef .tc b) = W2 r0 m c (Proc.devRef .tc b) :=
  step_same r1 _ c winFacts1 b hb
theorem W4_arr (c : Dev nD) (w : Fin cfg2.W) :
    W4 r0 r1 r2 m c (Proc.devRef .tc (Pipeline.arrRef cfg2.spec w)) = ((r2 (Vof (W3 r0 r1 m))).dat c).arrAt w cfg2.N :=
  step_arr r2 _ c winFacts2 w
theorem W4_same (c : Dev nD) (b : Ref sig .tc) (hb : Keeps cfg2 b) :
    W4 r0 r1 r2 m c (Proc.devRef .tc b) = W3 r0 r1 m c (Proc.devRef .tc b) :=
  step_same r2 _ c winFacts2 b hb
theorem W5_arr (c : Dev nD) (w : Fin cfg3.W) :
    W5 r0 r1 r2 r3 m c (Proc.devRef .tc (Pipeline.arrRef cfg3.spec w)) = ((r3 (Vof (W4 r0 r1 r2 m))).dat c).arrAt w cfg3.N :=
  step_arr r3 _ c winFacts3 w
theorem W5_same (c : Dev nD) (b : Ref sig .tc) (hb : Keeps cfg3 b) :
    W5 r0 r1 r2 r3 m c (Proc.devRef .tc b) = W4 r0 r1 r2 m c (Proc.devRef .tc b) :=
  step_same r3 _ c winFacts3 b hb
theorem W7_arr (c : Dev nD) (w : Fin cfg4.W) :
    W7 r0 r1 r2 r3 r4 m c (Proc.devRef .tc (Pipeline.arrRef cfg4.spec w)) = ((r4 (Vof (W6 r0 r1 r2 r3 m))).dat c).arrAt w cfg4.N :=
  step_arr r4 _ c winFacts4 w
theorem W7_same (c : Dev nD) (b : Ref sig .tc) (hb : Keeps cfg4 b) :
    W7 r0 r1 r2 r3 r4 m c (Proc.devRef .tc b) = W6 r0 r1 r2 r3 m c (Proc.devRef .tc b) :=
  step_same r4 _ c winFacts4 b hb
theorem W8_arr (c : Dev nD) (w : Fin cfg5.W) :
    W8 r0 r1 r2 r3 r4 r5 m c (Proc.devRef .tc (Pipeline.arrRef cfg5.spec w)) = ((r5 (Vof (W7 r0 r1 r2 r3 r4 m))).dat c).arrAt w cfg5.N :=
  step_arr r5 _ c winFacts5 w
theorem W8_same (c : Dev nD) (b : Ref sig .tc) (hb : Keeps cfg5 b) :
    W8 r0 r1 r2 r3 r4 r5 m c (Proc.devRef .tc b) = W7 r0 r1 r2 r3 r4 m c (Proc.devRef .tc b) :=
  step_same r5 _ c winFacts5 b hb

theorem W2_of_ne (c : Dev nD) (b : Ref sig .tc) (hb : b ≠ main_v1) :
    W2 r0 m c (Proc.devRef .tc b) = W1 r0 m c (Proc.devRef .tc b) :=
  StableHlo.reshape_result_ne main_arg4 main_v1 rfl shapeCasts_S8192_S8192x1 _ _ (W1 r0 m c) hb
theorem W2_main_v1 (c : Dev nD) :
    W2 r0 m c (Proc.devRef .tc main_v1)
      = fun i => shapeCast main_v1.ty.shape (W1 r0 m c (Proc.devRef .tc main_arg4)) shapeCasts_S8192_S8192x1 i :=
  by dsimp only [W2, hostOps1]; after_results

theorem W6_of_ne (c : Dev nD) (b : Ref sig .tc) (hb : b ≠ main_v5) :
    W6 r0 r1 r2 r3 m c (Proc.devRef .tc b) = W5 r0 r1 r2 r3 m c (Proc.devRef .tc b) :=
  StableHlo.reshape_result_ne main_arg6 main_v5 rfl shapeCasts_S8192_S8192x1 _ _ (W5 r0 r1 r2 r3 m c) hb
theorem W6_main_v5 (c : Dev nD) :
    W6 r0 r1 r2 r3 m c (Proc.devRef .tc main_v5)
      = fun i => shapeCast main_v5.ty.shape (W5 r0 r1 r2 r3 m c (Proc.devRef .tc main_arg6)) shapeCasts_S8192_S8192x1 i :=
  by dsimp only [W6, hostOps4]; after_results

end Cert.Kernel.Hand

end
-- ==== Proof.HandBits.RunB.lean ====
import proofs.«108687_j68341519613982_1_alg».proof.Proof.HandBits.RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev admNone : (p : Fin 6) → (pcfgs (F := F) p).Adm := fun p => (cfgs p).toPCfg_adm
abbrev 𝒱n : Variants := Variants.none

abbrev Ln : GSem nD τ sig → Finset Unit := fun _ => ∅
abbrev lvn : GSem nD τ sig → Unit → ℕ := fun _ _ => 0

abbrev Rest (c : Dev nD) : sProp 𝕄 :=
  iprop((∃ r, prngReg c r) ∗ ∃ W, owes (c : Thread nD τ) (0 : CellTallies nD τ sig Unit) W)

theorem rest_regroup (A : sProp 𝕄) (c : Dev nD) :
    iprop(A ∗ Rest c) ⊢ iprop(iprop(A ∗ ∃ r, prngReg c r) ∗ ∃ W, owes (c : Thread nD τ) (0 : CellTallies nD τ sig Unit) W) := by
  iintro ⟨HA, Hreg, Howes⟩
  isplitr [Howes]
  · isplitl [HA]; · iexact HA
    iexact Hreg
  iexact Howes

section OneLaunch

variable (pd : (p : Fin 6) → (c : Dev nD) → Dat τ (Elt F) Unit ℕ (UR sig nD τ) ℕ (Pipeline.pin (pcfgs (F := F)) admNone p) c)

set_option backward.isDefEq.respectTransparency.types false in

def regOf (p : Fin 6) (lf : Pipeline.LaunchFacts (nD := nD) (τ := τ) cfgs p)
    (Win Wout : Dev nD → Valuation τ sig (Elt F))
    (hA : ∀ c w, (pd p c).A w = Win c (Proc.devRef .tc (Pipeline.arrRef (Pipeline.pin (pcfgs (F := F)) admNone p).spec w)))
    (hq : ∀ c w, (pd p c).q w = fullShare)
    (howed : ∀ c t, (pd p c).owed t = 0)
    (hrec : ∀ c, (pd p c).recorded 0 = Set.univ)
    (hbody : ∀ c, BodyObligation (pd p c) (defs₀ (F := F)) Variants.none () Set.univ)
    (hphi_in : ∀ c, (Pipeline.ΦA (Pipeline.pin (pcfgs (F := F)) admNone p).spec c : sProp 𝕄) ⊢ (pd p c).Φ 0)
    (hphi_out : ∀ c, (pd p c).Φ (Fin.last (Pipeline.pin (pcfgs (F := F)) admNone p).N) ⊢ (Pipeline.ΦA (Pipeline.pin (pcfgs (F := F)) admNone p).spec c : sProp 𝕄))
    (hF : ∀ c w, (pd p c).arrAt w (Pipeline.pin (pcfgs (F := F)) admNone p).N = Wout c (Proc.devRef .tc (Pipeline.arrRef (Pipeline.pin (pcfgs (F := F)) admNone p).spec w)))
    (hrest : ∀ c (b : Ref sig .tc), (∀ w, Pipeline.arrRef (Pipeline.pin (pcfgs (F := F)) admNone p).spec w ≠ b) → Wout c (Proc.devRef .tc b) = Win c (Proc.devRef .tc b)) :
    Pipeline.RegionSeg (pcfgs (F := F)) admNone pd () defs₀ 𝒱n Ln lvn p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Ln lvn p howed
  pre c := iprop(StableHlo.held (c : Thread nD τ) (Pipeline.ucRefs τ sig) (Win c) ∗ Rest c)
  post c := iprop(StableHlo.held (c : Thread nD τ) (Pipeline.ucRefs τ sig) (Wout c) ∗ Rest c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admNone p).spec c (fun b => Win c b)
  hentry c := by
    rw [Pipeline.ownSems0_none]
    have hsplit := Pipeline.arrays_of_unscopedBufs (p := p) (pcfgs (F := F)) admNone pd lf.win lf.arr_whole c
      ((pd p c).share_full (hq c)) (fun b => Win c b) (hA c)
    rw [Pipeline.unscopedBufs_held] at hsplit
    iintro ⟨⟨Hbufs, Hreg, Howes⟩, -, -⟩
    ihave H := hsplit $$ Hbufs
    icases H with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      rw [howed c 0]
      icases Howes with ⟨%W, Howes⟩; iexists W
      isplitr; · ipureintro; exact fun x _ => Or.inl (show x ∈ (pd p c).recorded 0 from (hrec c) ▸ Set.mem_univ x)
      iexact Howes
    isplitl [Hreg]; · iexact Hreg
    iexact Hother
  hin c := by
    refine BIBase.Entails.trans ?_ (hphi_in c)
    unfold Pipeline.ΦA
    iintro ⟨Hreg, -, Hscoped⟩
    isplitl [Hscoped]; · iexact Hscoped
    iexact Hreg
  hout c := by
    refine BIBase.Entails.trans (hphi_out c) ?_
    rw [Pipeline.ownSems0_none]; unfold Pipeline.ΦA
    iintro ⟨Hscoped, Hreg⟩
    isplitl [Hreg]; · iexact Hreg
    isplitr; · iempintro
    iexact Hscoped
  hexit c := by
    have hjoin := Pipeline.unscopedBufs_of_arrays (p := p) (pcfgs (F := F)) admNone (Ix := Unit) (Name := ℕ) (U := UR sig nD τ) (Lvl := ℕ)
      lf.win lf.arr_whole c pd ((pd p c).share_full (hq c))
      (fun b => Win c b) (fun b => Wout c b) ((pd p c).arrAt · (Pipeline.pin (pcfgs (F := F)) admNone p).N) (hF c)
      (fun b hb => hrest c b fun w e => hb (Finset.mem_image.mpr ⟨w, Finset.mem_univ _, e⟩))
    rw [Pipeline.unscopedBufs_held] at hjoin
    iintro ⟨Harr, Howes, Hreg, Hother⟩
    imodintro
    isplitl [Harr Hother]
    · iapply hjoin; isplitl [Harr] <;> iassumption
    isplitl [Hreg]; · iexact Hreg
    unfold Pipeline.Dat.owesAt Pipeline.owesWithin
    rw [howed c (Fin.last _)]
    icases Howes with ⟨%W, -, Howes⟩; iexists W; iexact Howes

end OneLaunch

variable (r0 : ∀ V, Region (F := F) cfg0 V) (r1 : ∀ V, Region (F := F) cfg1 V) (r2 : ∀ V, Region (F := F) cfg2 V)
  (r3 : ∀ V, Region (F := F) cfg3 V) (r4 : ∀ V, Region (F := F) cfg4 V) (r5 : ∀ V, Region (F := F) cfg5 V)
variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) admNone p) c
  | ⟨0, _⟩ => (r0 (Vof (W0 m))).dat
  | ⟨1, _⟩ => (r1 (Vof (W2 r0 m))).dat
  | ⟨2, _⟩ => (r2 (Vof (W3 r0 r1 m))).dat
  | ⟨3, _⟩ => (r3 (Vof (W4 r0 r1 r2 m))).dat
  | ⟨4, _⟩ => (r4 (Vof (W6 r0 r1 r2 r3 m))).dat
  | ⟨5, _⟩ => (r5 (Vof (W7 r0 r1 r2 r3 r4 m))).dat

def reg0 := regOf (pdats r0 r1 r2 r3 r4 r5 m) 0 launch0 (W0 m) (W1 r0 m) (r0 (Vof (W0 m))).A_eq (r0 (Vof (W0 m))).q_full (r0 (Vof (W0 m))).owed_zero
  (r0 (Vof (W0 m))).recorded_univ (r0 (Vof (W0 m))).body (r0 (Vof (W0 m))).phi_in (r0 (Vof (W0 m))).phi_out
  (fun c w => (step_arr r0 (W0 m) c winFacts0 w).symm) (step_of_ne r0 (W0 m))

def reg1 := regOf (pdats r0 r1 r2 r3 r4 r5 m) 1 launch1 (W2 r0 m) (W3 r0 r1 m) (r1 (Vof (W2 r0 m))).A_eq (r1 (Vof (W2 r0 m))).q_full (r1 (Vof (W2 r0 m))).owed_zero
  (r1 (Vof (W2 r0 m))).recorded_univ (r1 (Vof (W2 r0 m))).body (r1 (Vof (W2 r0 m))).phi_in (r1 (Vof (W2 r0 m))).phi_out
  (fun c w => (step_arr r1 (W2 r0 m) c winFacts1 w).symm) (step_of_ne r1 (W2 r0 m))

def reg2 := regOf (pdats r0 r1 r2 r3 r4 r5 m) 2 launch2 (W3 r0 r1 m) (W4 r0 r1 r2 m) (r2 (Vof (W3 r0 r1 m))).A_eq (r2 (Vof (W3 r0 r1 m))).q_full (r2 (Vof (W3 r0 r1 m))).owed_zero
  (r2 (Vof (W3 r0 r1 m))).recorded_univ (r2 (Vof (W3 r0 r1 m))).body (r2 (Vof (W3 r0 r1 m))).phi_in (r2 (Vof (W3 r0 r1 m))).phi_out
  (fun c w => (step_arr r2 (W3 r0 r1 m) c winFacts2 w).symm) (step_of_ne r2 (W3 r0 r1 m))

def reg3 := regOf (pdats r0 r1 r2 r3 r4 r5 m) 3 launch3 (W4 r0 r1 r2 m) (W5 r0 r1 r2 r3 m) (r3 (Vof (W4 r0 r1 r2 m))).A_eq (r3 (Vof (W4 r0 r1 r2 m))).q_full (r3 (Vof (W4 r0 r1 r2 m))).owed_zero
  (r3 (Vof (W4 r0 r1 r2 m))).recorded_univ (r3 (Vof (W4 r0 r1 r2 m))).body (r3 (Vof (W4 r0 r1 r2 m))).phi_in (r3 (Vof (W4 r0 r1 r2 m))).phi_out
  (fun c w => (step_arr r3 (W4 r0 r1 r2 m) c winFacts3 w).symm) (step_of_ne r3 (W4 r0 r1 r2 m))

def reg4 := regOf (pdats r0 r1 r2 r3 r4 r5 m) 4 launch4 (W6 r0 r1 r2 r3 m) (W7 r0 r1 r2 r3 r4 m) (r4 (Vof (W6 r0 r1 r2 r3 m))).A_eq (r4 (Vof (W6 r0 r1 r2 r3 m))).q_full (r4 (Vof (W6 r0 r1 r2 r3 m))).owed_zero
  (r4 (Vof (W6 r0 r1 r2 r3 m))).recorded_univ (r4 (Vof (W6 r0 r1 r2 r3 m))).body (r4 (Vof (W6 r0 r1 r2 r3 m))).phi_in (r4 (Vof (W6 r0 r1 r2 r3 m))).phi_out
  (fun c w => (step_arr r4 (W6 r0 r1 r2 r3 m) c winFacts4 w).symm) (step_of_ne r4 (W6 r0 r1 r2 r3 m))

def reg5 := regOf (pdats r0 r1 r2 r3 r4 r5 m) 5 launch5 (W7 r0 r1 r2 r3 r4 m) (W8 r0 r1 r2 r3 r4 r5 m) (r5 (Vof (W7 r0 r1 r2 r3 r4 m))).A_eq (r5 (Vof (W7 r0 r1 r2 r3 r4 m))).q_full (r5 (Vof (W7 r0 r1 r2 r3 r4 m))).owed_zero
  (r5 (Vof (W7 r0 r1 r2 r3 r4 m))).recorded_univ (r5 (Vof (W7 r0 r1 r2 r3 r4 m))).body (r5 (Vof (W7 r0 r1 r2 r3 r4 m))).phi_in (r5 (Vof (W7 r0 r1 r2 r3 r4 m))).phi_out
  (fun c w => (step_arr r5 (W7 r0 r1 r2 r3 r4 m) c winFacts5 w).symm) (step_of_ne r5 (W7 r0 r1 r2 r3 r4 m))

theorem reshape1_allocates_nothing : (hostOps1 : List (HloOp τ sig (Elt F))).Forall fun op => op.fresh = ∅ := by
  simp only [List.Forall]; repeat' constructor
theorem reshape4_allocates_nothing : (hostOps4 : List (HloOp τ sig (Elt F))).Forall fun op => op.fresh = ∅ := by
  simp only [List.Forall]; repeat' constructor

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev items : List (Pipeline.Seg (pcfgs (F := F)) admNone (pdats r0 r1 r2 r3 r4 r5 m) () defs₀ 𝒱n Ln lvn) :=
  [ .region (reg0 r0 r1 r2 r3 r4 r5 m),
    .host (hostItem hostOps1 hostOps1_sub reshape1_allocates_nothing (W1 r0 m)),
    .region (reg1 r0 r1 r2 r3 r4 r5 m),
    .region (reg2 r0 r1 r2 r3 r4 r5 m),
    .region (reg3 r0 r1 r2 r3 r4 r5 m),
    .host (hostItem hostOps4 hostOps4_sub reshape4_allocates_nothing (W5 r0 r1 r2 r3 m)),
    .region (reg4 r0 r1 r2 r3 r4 r5 m),
    .region (reg5 r0 r1 r2 r3 r4 r5 m) ]

theorem main_items (c : Dev nD) : main (F := F) c = Pipeline.Seg.run (items r0 r1 r2 r3 r4 r5 m) :=
  main_segs admNone (pdats r0 r1 r2 r3 r4 r5 m) () 𝒱n Ln lvn _ _ _ _ _ _ _ _ rfl rfl c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 :=
  iprop(StableHlo.held (c : Thread nD τ) (Pipeline.ucRefs τ sig) (W8 r0 r1 r2 r3 r4 r5 m c) ∗ ∃ r, prngReg c r)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W8 r0 r1 r2 r3 r4 r5 m c b) :=
  Pipeline.θ_run_regions_kit (pcfgs (F := F)) admNone (pdats r0 r1 r2 r3 r4 r5 m) () cellOf_inj emb₁ defs₀ 𝒱n Ln lvn m ρ main (items r0 r1 r2 r3 r4 r5 m)
    (fun c Q => by rw [main_items r0 r1 r2 r3 r4 r5 m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend r0 r1 r2 r3 r4 r5 m)
    (hch := ⟨fun _ => .rfl, fun _ => .rfl, fun _ => .rfl, fun _ => .rfl, fun _ => .rfl, fun _ => .rfl, fun _ => .rfl, fun _ => .rfl,
      fun c => rest_regroup _ c⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W8 r0 r1 r2 r3 r4 r5 m c b)
    (hfin := fun c s' => by
      iintro ⟨⟨Hbufs, -⟩, HSI⟩
      unfold StableHlo.held
      imodintro
      iapply (pointsTo_read_all (Pipeline.ucRefs τ sig) (fun b => (((c : Thread nD τ)).1, b)) (W8 r0 r1 r2 r3 r4 r5 m c) s')
      isplitl [Hbufs] <;> iassumption)
    (hQ := fun s h => h)

end Cert.Kernel.Hand

end
-- ==== Proof.HandBits.Kept.lean ====
import proofs.«108687_j68341519613982_1_alg».proof.Proof.HandBits.RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (r0 : ∀ V, Region (F := F) cfg0 V) (r1 : ∀ V, Region (F := F) cfg1 V) (r2 : ∀ V, Region (F := F) cfg2 V)
  (r3 : ∀ V, Region (F := F) cfg3 V) (r4 : ∀ V, Region (F := F) cfg4 V) (r5 : ∀ V, Region (F := F) cfg5 V)
variable (m : (ℓ : Loc nD τ sig) → Buf (Elt F) ℓ)

/-- A buffer that is no launch's output and no reshape's result ends as launched. -/
theorem W8_kept (c : Dev nD) (b : Ref sig .tc)
    (h : Keeps cfg0 b ∧ b ≠ main_v1 ∧ Keeps cfg1 b ∧ Keeps cfg2 b ∧ Keeps cfg3 b ∧ b ≠ main_v5 ∧ Keeps cfg4 b ∧ Keeps cfg5 b) :
    W8 r0 r1 r2 r3 r4 r5 m c (Proc.devRef .tc b) = m ((c : Thread nD τ).loc b) :=
  (W8_same r0 r1 r2 r3 r4 r5 m c b h.2.2.2.2.2.2.2).trans <| (W7_same r0 r1 r2 r3 r4 m c b h.2.2.2.2.2.2.1).trans <|
    (W6_of_ne r0 r1 r2 r3 m c b h.2.2.2.2.2.1).trans <| (W5_same r0 r1 r2 r3 m c b h.2.2.2.2.1).trans <|
    (W4_same r0 r1 r2 m c b h.2.2.2.1).trans <| (W3_same r0 r1 m c b h.2.2.1).trans <|
    (W2_of_ne r0 m c b h.2.1).trans <| (W1_same r0 m c b h.1).trans rfl

end Cert.Kernel.Hand

end
-- ==== Proof.HandBits.Whole.lean ====
import proofs.«108687_j68341519613982_1_alg».proof.Proof.HandBits.R0
import proofs.«108687_j68341519613982_1_alg».proof.Proof.HandBits.R1
import proofs.«108687_j68341519613982_1_alg».proof.Proof.HandBits.R2
import proofs.«108687_j68341519613982_1_alg».proof.Proof.HandBits.R3
import proofs.«108687_j68341519613982_1_alg».proof.Proof.HandBits.R4
import proofs.«108687_j68341519613982_1_alg».proof.Proof.HandBits.R5
import proofs.«108687_j68341519613982_1_alg».proof.Proof.HandBits.RunB
import proofs.«108687_j68341519613982_1_alg».proof.Proof.HandBits.Kept

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution of the program ends with the result array at what the sixth launch leaves and the arguments as launched. -/
theorem whole_value : θ_run defs (onTc (τ := τ) (main (F := F))) ⟨m, fun _ => 0, ρ⟩ (fun r => ∀ c : Dev nD,
      r.2.mem ((c.tc : Thread nD τ).loc main_v7) = W8 region0 region1 region2 region3 region4 region5 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c =>
    have k (b : Ref sig .tc) (hu : ¬(Proc.devRef .tc b : DevRef τ sig).isScoped)
        (h : Keeps cfg0 b ∧ b ≠ main_v1 ∧ Keeps cfg1 b ∧ Keeps cfg2 b ∧ Keeps cfg3 b ∧ b ≠ main_v5 ∧ Keeps cfg4 b ∧ Keeps cfg5 b) :
        r.2.mem ((c.tc : Thread nD τ).loc b) = m ((c.tc : Thread nD τ).loc b) :=
      (hr c _ (mem_uc b hu)).trans (W8_kept region0 region1 region2 region3 region4 region5 m c b h)
    ⟨hr c _ (mem_uc main_v7 (by decide)), k main_arg0 (by decide) (by decide), k main_arg1 (by decide) (by decide),
      k main_arg2 (by decide) (by decide), k main_arg3 (by decide) (by decide), k main_arg4 (by decide) (by decide),
      k main_arg5 (by decide) (by decide), k main_arg6 (by decide) (by decide)⟩)
    (run_all region0 region1 region2 region3 region4 region5 m ρ)

theorem whole_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => (hr c).2) (whole_value m ρ)

end Cert.Kernel.Hand

end
-- ==== Proof.Hand.Iface.lean ====
import proofs.«108687_j68341519613982_1_alg».proof.Proof.Gen.KernelIdeal.Launch
import proofs.«108687_j68341519613982_1_alg».proof.Proof.Gen.KernelIdeal.Skeleton
import proofs.«108687_j68341519613982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run of the whole program asks of the launch `cfg`, entered with the buffers at `V`. -/
structure Region (cfg : Cfg sig Λ₀) (V : (c : Dev nD) → (b : Ref sig .tc) → Buf (Elt F) ((c : Thread nD τ).loc b)) where
  dat : (c : Dev nD) → Dat τ (Elt F) Unit ℕ (UR sig nD τ) ℕ cfg c
  A_eq : ∀ (c : Dev nD) (w : Fin cfg.W), (dat c).A w = V c (Pipeline.arrRef cfg.spec w)
  body : ∀ c : Dev nD, BodyObligation (dat c) (defs₀ (F := F)) Variants.none () Set.univ
  q_full : ∀ (c : Dev nD) (w : Fin cfg.W), (dat c).q w = fullShare
  owed_zero : ∀ (c : Dev nD) t, (dat c).owed t = 0
  recorded_univ : ∀ c : Dev nD, (dat c).recorded 0 = Set.univ
  phi_in : ∀ c : Dev nD, (Pipeline.ΦA cfg.spec c : sProp 𝕄) ⊢ (dat c).Φ 0
  phi_out : ∀ c : Dev nD, (dat c).Φ (Fin.last cfg.N) ⊢ (Pipeline.ΦA cfg.spec c : sProp 𝕄)

end Cert.KernelIdeal.Hand

end
-- ==== Proof.Hand.R0.lean ====
import proofs.«108687_j68341519613982_1_alg».proof.Proof.Hand.Iface

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r0_iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_boxX : Rect S1024x512 := Rect.unit (s := S1024x512) ![0, 0] S1024x512.size inb_S1024x512_S1024x512_0_0
abbrev r0_boxW : Rect S512x256 := Rect.unit (s := S512x256) ![0, 0] S512x256.size inb_S512x256_S512x256_0_0
abbrev r0_boxT : Rect S1024x256 := Rect.unit (s := S1024x256) ![0, 0] S1024x256.size inb_S1024x256_S1024x256_0_0

def r0_out (x : Vec F S1024x512 .f32) (w : Vec F S512x256 .f32) : Vec F S1024x256 .f32 :=
  View.canon [⟨r0_boxT, k0_pay1 (View.ld x r0_boxX) (View.ld w r0_boxW)⟩]

theorem r0_cover (p : Vec F S1024x256 .f32) (y : S1024x256.Idx) :
    ∃ pc ∈ ([⟨r0_boxT, p⟩] : List (View.Piece (Elt F) S1024x256 .f32)), y ∈ pc.1.set :=
  View.cover_of_tiled [⟨r0_boxT, p⟩] S1024x256.size (by rfl) y

set_option maxHeartbeats 1000000 in

theorem r0_sound_kernel (c : Dev nD) (E : Set ℕ) (i : grid0.Coords)
    (arg1 : Memref sig .tc .vmem S1024x512 .f32) (harg1 : arg1.IsWhole)
    (arg2 : Memref sig .tc .vmem S512x256 .f32) (harg2 : arg2.IsWhole)
    (arg3 : Memref sig .tc .vmem S1024x256 .f32) (harg3 : arg3.IsWhole)
    (x : Vec F S1024x512 .f32) (w : Vec F S512x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (r0_out x w)) -∗ K ⟨⟩))
      ⊢ wp frame (wpE (defs₀ (F := F)) Variants.none c none) E (cc0__small_matmul_kernel i arg1 harg1 arg2 harg2 arg3 harg3) K := by
  simp only [cc0__small_matmul_kernel_eq_skeleton]; unfold cc0__small_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (r0_cover _)

def r0_dat (c : Dev nD) : Dat τ (Elt F) Unit ℕ (UR sig nD τ) ℕ cfg0 c where
  A w := V c (Pipeline.arrRef spec0 w)
  after w t := match w with
    | ⟨0, _⟩ => r0_iblk V c 0 t
    | ⟨1, _⟩ => r0_iblk V c 1 t
    | ⟨2, _⟩ => r0_out (r0_iblk V c 0 t) (r0_iblk V c 1 t)
  Φ _ := Pipeline.ΦA spec0 c
  q _ := fullShare
  owed _ := 0

theorem r0_A_eq (c : Dev nD) (w : Fin cfg0.W) : (r0_dat V c).A w = V c (Pipeline.arrRef spec0 w) := by
  dsimp only [r0_dat]

theorem r0_after_0 (c : Dev nD) (t : Fin cfg0.N) : (r0_dat V c).after 0 t = r0_iblk V c 0 t := by dsimp only [r0_dat]
theorem r0_after_1 (c : Dev nD) (t : Fin cfg0.N) : (r0_dat V c).after 1 t = r0_iblk V c 1 t := by dsimp only [r0_dat]
theorem r0_after_2 (c : Dev nD) (t : Fin cfg0.N) :
    (r0_dat V c).after 2 t = r0_out (r0_iblk V c 0 t) (r0_iblk V c 1 t) := by dsimp only [r0_dat]

theorem r0_before_0 (c : Dev nD) (t : Fin cfg0.N) (d) : (r0_dat V c).before 0 t d = r0_iblk V c 0 t :=
  (r0_dat V c).before_in_eq_fetched 0 rfl (fun _ => rfl) (fun _ _ _ => rfl) (fun _ => rfl) t d
theorem r0_before_1 (c : Dev nD) (t : Fin cfg0.N) (d) : (r0_dat V c).before 1 t d = r0_iblk V c 1 t :=
  (r0_dat V c).before_in_eq_fetched 1 rfl (fun _ => rfl) (fun _ _ _ => rfl) (fun _ => rfl) t d

def r0_bodyPre (c : Dev nD) (t : Fin cfg0.N) : sProp 𝕄 :=
  iprop((r0_dat V c).Φ t.castSucc ∗ (r0_dat V c).owesAt () t.castSucc
    ∗ (∃ d, owns (c : Thread nD τ) (st0_0 t) fullShare ((r0_dat V c).before 0 t d))
    ∗ (∃ d, owns (c : Thread nD τ) (st0_1 t) fullShare ((r0_dat V c).before 1 t d))
    ∗ (∃ d, owns (c : Thread nD τ) (st0_2 t) fullShare ((r0_dat V c).before 2 t d)))

def r0_bodyPost (c : Dev nD) (t : Fin cfg0.N) : sProp 𝕄 :=
  iprop((r0_dat V c).Φ t.succ ∗ (r0_dat V c).owesAt () t.succ
    ∗ owns (c : Thread nD τ) (st0_0 t) fullShare ((r0_dat V c).after 0 t)
    ∗ owns (c : Thread nD τ) (st0_1 t) fullShare ((r0_dat V c).after 1 t)
    ∗ owns (c : Thread nD τ) (st0_2 t) fullShare ((r0_dat V c).after 2 t))

theorem r0_sound_body (c : Dev nD) (t : Fin cfg0.N) :
    r0_bodyPre V c t ⊢ wp frame (wpE (defs₀ (F := F)) Variants.none c none) Set.univ (bodyAt0 t) (fun _ => r0_bodyPost V c t) := by
  unfold r0_bodyPre r0_bodyPost bodyAt0
  simp only [r0_before_0, r0_before_1]
  rw [show (r0_dat V c).Φ t.succ = (r0_dat V c).Φ t.castSucc from rfl,
    show (r0_dat V c).owesAt () t.succ = (r0_dat V c).owesAt () t.castSucc from rfl,
    r0_after_0, r0_after_1, r0_after_2]
  iintro ⟨HΦ, Ho, ⟨%d0, H0⟩, ⟨%d1, H1⟩, ⟨%d2, H2⟩⟩
  iapply (r0_sound_kernel c Set.univ _ _ _ _ _ _ _ (r0_iblk V c 0 t) (r0_iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem r0_body_obligation (c : Dev nD) : BodyObligation (r0_dat (F := F) V c) (defs₀ (F := F)) Variants.none () Set.univ := fun t => by
  rw [bigSep_W0, bigSep_W0]
  exact r0_sound_body V c t

end

def region0 (V : (c : Dev nD) → (b : Ref sig .tc) → Buf (Elt F) ((c : Thread nD τ).loc b)) : Region (F := F) cfg0 V where
  dat := r0_dat V
  A_eq := r0_A_eq V
  body := r0_body_obligation V
  q_full _ _ := rfl
  owed_zero _ _ := rfl
  recorded_univ _ := rfl
  phi_in _ := .rfl
  phi_out _ := .rfl

end Cert.KernelIdeal.Hand

end
-- ==== Proof.Hand.R1a.lean ====
import proofs.«108687_j68341519613982_1_alg».proof.Proof.Hand.Iface
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r1_iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

theorem r1_hz : (![0, 0] : Fin 2 → Nat) = fun _ => 0 := funext fun a => by fin_cases a <;> rfl

abbrev r1_cond0 (i : grid1.Coords) : Prop := (Scalar.cmpi .ne (Scalar.extui (Scalar.cmpi .eq (BitVec.ofNat 32 (i 1).val) 0#32)) 0#32) = 1#1

theorem r1_hcond0 : ∀ t : Fin cfg1.N, r1_cond0 (grid1.coords t) ↔ t.val % 4 = 0 :=
  (by decide +kernel : ∀ t : Fin grid1.N, r1_cond0 (grid1.coords t) ↔ t.val % 4 = 0)

abbrev r1_cond1 (i : grid1.Coords) : Prop := k1_cond2 i = 1#1

theorem r1_hcond1 : ∀ t : Fin cfg1.N, r1_cond1 (grid1.coords t) ↔ t.val % 4 = 3 :=
  (by decide +kernel : ∀ t : Fin grid1.N, r1_cond1 (grid1.coords t) ↔ t.val % 4 = 3)

theorem r1_liveAt_0 : ∀ t : Fin cfg1.N, cfg1.idle 0 (grid1.coords t) = false := fun _ => rfl
theorem r1_liveAt_1 : ∀ t : Fin cfg1.N, cfg1.idle 1 (grid1.coords t) = false := fun _ => rfl
theorem r1_liveAt_2 : ∀ t : Fin cfg1.N, cfg1.idle 2 (grid1.coords t) = false := fun _ => rfl

theorem r1_idleAt_3 : ∀ t : Fin cfg1.N, ¬r1_cond1 (grid1.coords t) → cfg1.idle 3 (grid1.coords t) = true := by decide +kernel

theorem r1_noFlush_3 : ∀ t : Fin cfg1.N, ¬r1_cond1 (grid1.coords t) → (cfg1.win 3).flush t = false := by decide +kernel

theorem r1_liveAt_3 : ∀ t : Fin cfg1.N, r1_cond1 (grid1.coords t) → cfg1.idle 3 (grid1.coords t) = false := by decide +kernel

abbrev r1_VO : View sig .tc .vmem S1024x256 .f32 := (Memref.whole cc1_stg3_0 : Memref sig .tc .vmem S1024x256 .f32).view
abbrev r1_ms0 (t : Fin cfg1.N) : Memref sig .tc .vmem S1024x2048 .f32 := win1_0.stage (cfg1.slots t 0)
abbrev r1_hs0 (t : Fin cfg1.N) : (r1_ms0 t).IsWhole := hstage1_0 ((cfg1.slots t 0).cast nbuf1_0)
abbrev r1_ms1 (t : Fin cfg1.N) : Memref sig .tc .vmem S2048x256 .f32 := win1_1.stage (cfg1.slots t 1)
abbrev r1_hs1 (t : Fin cfg1.N) : (r1_ms1 t).IsWhole := hstage1_1 ((cfg1.slots t 1).cast nbuf1_1)
abbrev r1_ms2 (t : Fin cfg1.N) : Memref sig .tc .vmem S1024x1 .f32 := win1_2.stage (cfg1.slots t 2)
abbrev r1_hs2 (t : Fin cfg1.N) : (r1_ms2 t).IsWhole := hstage1_2 ((cfg1.slots t 2).cast nbuf1_2)
abbrev r1_ms3 (t : Fin cfg1.N) : Memref sig .tc .vmem S1024x256 .f32 := win1_3.stage (cfg1.slots t 3)
abbrev r1_hs3 (t : Fin cfg1.N) : (r1_ms3 t).IsWhole := hstage1_3 ((cfg1.slots t 3).cast nbuf1_3)

abbrev r1_scM : Memref sig .tc .vmem S1024x256 .f32 := Memref.whole cc1_scratch0

abbrev r1_VS : View sig .tc .vmem S1024x256 .f32 := r1_scM.view

theorem r1_PhiA_eq (c : Dev nD) :
    (Pipeline.ΦA spec1 c : sProp 𝕄)
      = iprop(iprop(iprop((∃ d, owns (c : Thread nD τ) r1_scM fullShare d)) ∗ Pipeline.scopedRestBut spec1 c [cc1_scratch0]) ∗ (∃ r, prngReg c r)) := by
  unfold Pipeline.ΦA; rw [scopedRest1_split]; simp only [r1_scM, owns_whole]; try rfl

end Cert.KernelIdeal.Hand

end
-- ==== Proof.Hand.R1b.lean ====
import proofs.«108687_j68341519613982_1_alg».proof.Proof.Hand.R1a

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 0 the body zeroes the accumulator and adds the first stretch's product of the two blocks to it. -/
theorem r1_run_A (c : Dev nD) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : r1_cond0 i) (hc1 : ¬r1_cond1 i)
    (x0 : Vec F S1024x2048 .f32) (x1 : Vec F S2048x256 .f32) (x2 : Vec F S1024x1 .f32) (xi3 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1 k1_pay1)) -∗ K ⟨⟩))
      ⊢ wp frame (wpE (defs₀ (F := F)) Variants.none c none) E (cc1__bigmatmul_filt_kernel i arg2 harg2 arg3 harg3 arg4 harg4 arg5 harg5 arg6 harg6) K := by
  simp only [cc1__bigmatmul_filt_kernel_eq_skeleton]; unfold cc1__bigmatmul_filt_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x256.size (by sl_kernel_rfl) y)]
  try sl_unfold_words
  rw [View.canon_cons_unit_zero (S := S1024x256) r1_hz, View.readCov_unit_zero (S := S1024x256) _ r1_hz]
  simp only [View.readAt_eq_ld, harg2.read_unread, harg3.read_unread, View.ld_unit_zero (S := S1024x2048) r1_hz, View.ld_unit_zero (S := S2048x256) r1_hz, View.ld_unit_zero (S := S1024x256) r1_hz]

end Cert.KernelIdeal.Hand

end
-- ==== Proof.Hand.R1c.lean ====
import proofs.«108687_j68341519613982_1_alg».proof.Proof.Hand.R1b

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 1 or 2 the body adds one more stretch's product to the accumulator. -/
theorem r1_run_B (c : Dev nD) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬r1_cond0 i) (hc1 : ¬r1_cond1 i)
    (x0 : Vec F S1024x2048 .f32) (x1 : Vec F S2048x256 .f32) (x2 : Vec F S1024x1 .f32) (xs xi3 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1 xs)) -∗ K ⟨⟩))
      ⊢ wp frame (wpE (defs₀ (F := F)) Variants.none c none) E (cc1__bigmatmul_filt_kernel i arg2 harg2 arg3 harg3 arg4 harg4 arg5 harg5 arg6 harg6) K := by
  simp only [cc1__bigmatmul_filt_kernel_eq_skeleton]; unfold cc1__bigmatmul_filt_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x256.size (by sl_kernel_rfl) y), View.canon_unit_zero (S := S1024x256) r1_hz]
  simp only [View.readAt_eq_ld, harg2.read_unread, harg3.read_unread, harg6.read_unread, View.ld_unit_zero (S := S1024x2048) r1_hz, View.ld_unit_zero (S := S2048x256) r1_hz, View.ld_unit_zero (S := S1024x256) r1_hz]

end Cert.KernelIdeal.Hand

end
-- ==== Proof.Hand.R1d.lean ====
import proofs.«108687_j68341519613982_1_alg».proof.Proof.Hand.R1c

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 3 the body adds the last stretch's product to the accumulator and stores it, each row scaled by its filter entry, into the output block. -/
theorem r1_run_C (c : Dev nD) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S1024x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬r1_cond0 i) (hc1 : r1_cond1 i)
    (x0 : Vec F S1024x2048 .f32) (x1 : Vec F S2048x256 .f32) (x2 : Vec F S1024x1 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__bigmatmul_filt_kernel i arg2 harg2 arg3 harg3 arg4 harg4 arg5 harg5 arg6 harg6) K := by
  simp only [cc1__bigmatmul_filt_kernel_eq_skeleton]; unfold cc1__bigmatmul_filt_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S1024x256.size (by sl_kernel_rfl) y)]
    try sl_unfold_words
    rw [View.canon_unit_zero (S := S1024x256) r1_hz, View.readCov_unit_zero (S := S1024x256) _ r1_hz]
    simp only [View.readAt_eq_ld, harg2.read_unread, harg3.read_unread, harg4.read_unread, harg6.read_unread, View.ld_unit_zero (S := S1024x1) r1_hz, View.ld_unit_zero (S := S1024x2048) r1_hz, View.ld_unit_zero (S := S2048x256) r1_hz, View.ld_unit_zero (S := S1024x256) r1_hz]
  iexists _; isplitr
  swap; · iexact HS
  ipureintro
  rw [View.read_writes_eq_canon _ _ _ (fun y => View.cover_of_tiledL _ S1024x256.size (by sl_kernel_rfl) y)]
  try sl_unfold_words
  rw [View.canon_unit_zero (S := S1024x256) r1_hz]
  simp only [View.readAt_eq_ld, harg2.read_unread, harg3.read_unread, harg6.read_unread, View.ld_unit_zero (S := S1024x2048) r1_hz, View.ld_unit_zero (S := S2048x256) r1_hz, View.ld_unit_zero (S := S1024x256) r1_hz]

end Cert.KernelIdeal.Hand

end
-- ==== Proof.Hand.R1.lean ====
import proofs.«108687_j68341519613982_1_alg».proof.Proof.Hand.R1d

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev r1_blkA (c : Dev nD) (t : Fin cfg1.N) : Vec F S1024x2048 .f32 := r1_iblk V c 0 t
abbrev r1_blkT (c : Dev nD) (t : Fin cfg1.N) : Vec F S2048x256 .f32 := r1_iblk V c 1 t
abbrev r1_blkF (c : Dev nD) (t : Fin cfg1.N) : Vec F S1024x1 .f32 := r1_iblk V c 2 t

/-- The accumulator after position n = 4 i + k: zero plus the stretches 0 … k of row block i, added one after the other. -/
def r1_accAt (c : Dev nD) : (n : ℕ) → n < cfg1.N → Vec F S1024x256 .f32
  | 0, hn => k1_pay2 (r1_blkA V c ⟨0, hn⟩) (r1_blkT V c ⟨0, hn⟩) k1_pay1
  | n + 1, hn => k1_pay2 (r1_blkA V c ⟨n + 1, hn⟩) (r1_blkT V c ⟨n + 1, hn⟩)
      (if (n + 1) % 4 = 0 then k1_pay1 else r1_accAt c n (Nat.lt_of_succ_lt hn))

theorem r1_accAt_first_eq (c : Dev nD) (t : Fin cfg1.N) (h0 : t.val % 4 = 0) :
    r1_accAt V c t.val t.isLt = k1_pay2 (r1_blkA V c t) (r1_blkT V c t) (k1_pay1 (F := F)) := by
  obtain ⟨n, hn⟩ := t
  cases n with
  | zero => rfl
  | succ n => exact congrArg _ (if_pos h0)

theorem r1_accAt_next_eq (c : Dev nD) (t : Fin cfg1.N) (h0 : ¬t.val % 4 = 0) :
    r1_accAt V c t.val t.isLt
      = k1_pay2 (r1_blkA V c t) (r1_blkT V c t) (r1_accAt V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The output block after position n: where k = 3 the accumulator with each row scaled by its filter entry (elsewhere not used). -/
def r1_outAt (c : Dev nD) (n : ℕ) (hn : n < cfg1.N) : Vec F S1024x256 .f32 :=
  if n % 4 = 3 then k1_pay3 (r1_accAt V c n hn) (r1_blkF V c ⟨n, hn⟩) else r1_accAt V c n hn

theorem r1_outAt_last_eq (c : Dev nD) (t : Fin cfg1.N) (h1 : t.val % 4 = 3) :
    r1_outAt V c t.val t.isLt = k1_pay3 (r1_accAt V c t.val t.isLt) (r1_blkF V c t) := if_pos h1

/-- Before position n: the plain invariant before the first; afterwards the accumulator owned at what the position before left. -/
def r1_Phi (c : Dev nD) : (n : ℕ) → n ≤ cfg1.N → sProp 𝕄
  | 0, _ => Pipeline.ΦA spec1 c
  | n + 1, hn => iprop(iprop(owns (c : Thread nD τ) r1_scM fullShare (r1_accAt V c n hn) ∗ Pipeline.scopedRestBut spec1 c [cc1_scratch0]) ∗ (∃ r, prngReg c r))

theorem r1_Phi_pos (c : Dev nD) (n : ℕ) (h : n ≤ cfg1.N) (hz : n ≠ 0) :
    r1_Phi V c n h = iprop(iprop(owns (c : Thread nD τ) r1_scM fullShare (r1_accAt V c (n - 1) (by omega)) ∗ Pipeline.scopedRestBut spec1 c [cc1_scratch0]) ∗ (∃ r, prngReg c r)) := by
  cases n with
  | zero => exact absurd rfl hz
  | succ n => rfl

/-- At any position the invariant owns the accumulator at something. -/
theorem r1_Phi_any (c : Dev nD) (n : ℕ) (h : n ≤ cfg1.N) :
    r1_Phi V c n h ⊢ iprop(iprop((∃ d, owns (c : Thread nD τ) r1_scM fullShare d) ∗ Pipeline.scopedRestBut spec1 c [cc1_scratch0]) ∗ (∃ r, prngReg c r)) := by
  cases n with
  | zero => rw [show r1_Phi V c 0 h = Pipeline.ΦA spec1 c from rfl, r1_PhiA_eq]; try exact Idealize.SL.BI.Entails.refl _
  | succ n =>
    rw [show r1_Phi V c (n + 1) h = iprop(iprop(owns (c : Thread nD τ) r1_scM fullShare (r1_accAt V c n h) ∗ Pipeline.scopedRestBut spec1 c [cc1_scratch0]) ∗ (∃ r, prngReg c r)) from rfl]
    iintro ⟨⟨HS, HR⟩, Hg⟩
    isplitl [HS HR]
    · isplitl [HS]
      · iexists _; iexact HS
      iexact HR
    iexact Hg

def r1_dat (c : Dev nD) : Dat τ (Elt F) Unit ℕ (UR sig nD τ) ℕ cfg1 c where
  A w := V c (Pipeline.arrRef spec1 w)
  after w t := match w with
    | ⟨0, _⟩ => r1_iblk V c 0 t
    | ⟨1, _⟩ => r1_iblk V c 1 t
    | ⟨2, _⟩ => r1_iblk V c 2 t
    | ⟨3, _⟩ => r1_outAt V c t.val t.isLt
  Φ t := r1_Phi V c t.val (Nat.le_of_lt_succ t.isLt)
  q _ := fullShare
  owed _ := 0

theorem r1_A_eq (c : Dev nD) (w : Fin cfg1.W) : (r1_dat V c).A w = V c (Pipeline.arrRef spec1 w) := by
  dsimp only [r1_dat]

theorem r1_Phi_castSucc (c : Dev nD) (t : Fin cfg1.N) :
    (r1_dat V c).Φ t.castSucc = r1_Phi V c t.val (Nat.le_of_lt t.isLt) := by
  dsimp only [r1_dat]; simp only [Fin.coe_castSucc]

theorem r1_after_0 (c : Dev nD) (t : Fin cfg1.N) : (r1_dat V c).after 0 t = r1_iblk V c 0 t := by dsimp only [r1_dat]
theorem r1_after_1 (c : Dev nD) (t : Fin cfg1.N) : (r1_dat V c).after 1 t = r1_iblk V c 1 t := by dsimp only [r1_dat]
theorem r1_after_2 (c : Dev nD) (t : Fin cfg1.N) : (r1_dat V c).after 2 t = r1_iblk V c 2 t := by dsimp only [r1_dat]
theorem r1_after_3 (c : Dev nD) (t : Fin cfg1.N) : (r1_dat V c).after 3 t = r1_outAt V c t.val t.isLt := by dsimp only [r1_dat]

theorem r1_before_0 (c : Dev nD) (t : Fin cfg1.N) (d) : (r1_dat V c).before 0 t d = r1_iblk V c 0 t :=
  (r1_dat V c).before_in_eq_fetched 0 rfl (fun _ => rfl) (fun _ _ _ => rfl) (fun _ => rfl) t d
theorem r1_before_1 (c : Dev nD) (t : Fin cfg1.N) (d) : (r1_dat V c).before 1 t d = r1_iblk V c 1 t :=
  (r1_dat V c).before_in_eq_fetched 1 rfl (fun _ => rfl) (fun _ _ _ => rfl) (fun _ => rfl) t d
theorem r1_before_2 (c : Dev nD) (t : Fin cfg1.N) (d) : (r1_dat V c).before 2 t d = r1_iblk V c 2 t :=
  (r1_dat V c).before_in_eq_fetched 2 rfl (fun _ => rfl) (fun _ _ _ => rfl) (fun _ => rfl) t d

def r1_bodyPre (c : Dev nD) (t : Fin cfg1.N) : sProp 𝕄 :=
  iprop((r1_dat V c).Φ t.castSucc ∗ (r1_dat V c).owesAt () t.castSucc
    ∗ (∃ d, owns (c : Thread nD τ) (r1_ms0 t) fullShare ((r1_dat V c).before 0 t d))
    ∗ (∃ d, owns (c : Thread nD τ) (r1_ms1 t) fullShare ((r1_dat V c).before 1 t d))
    ∗ (∃ d, owns (c : Thread nD τ) (r1_ms2 t) fullShare ((r1_dat V c).before 2 t d))
    ∗ (∃ d, owns (c : Thread nD τ) (r1_ms3 t) fullShare ((r1_dat V c).before 3 t d)))

def r1_bodyPost (c : Dev nD) (t : Fin cfg1.N) : sProp 𝕄 :=
  iprop((r1_dat V c).Φ t.succ ∗ (r1_dat V c).owesAt () t.succ
    ∗ (r1_dat V c).leavesExact 0 t
    ∗ (r1_dat V c).leavesExact 1 t
    ∗ (r1_dat V c).leavesExact 2 t
    ∗ (r1_dat V c).leavesExact 3 t)

set_option maxHeartbeats 4800000 in
/-- The body at any position, by the position's k: the invariant lends the accumulator and takes it back at this position's contents. -/
theorem r1_sound_body (c : Dev nD) (t : Fin cfg1.N) :
    r1_bodyPre V c t ⊢ wp frame (wpE (defs₀ (F := F)) Variants.none c none) Set.univ (bodyAt1 t) (fun _ => r1_bodyPost V c t) := by
  unfold r1_bodyPre r1_bodyPost bodyAt1
  simp only [r1_before_0, r1_before_1, r1_before_2]
  rw [show (r1_dat V c).owesAt () t.succ = (r1_dat V c).owesAt () t.castSucc from rfl]
  rw [show (r1_dat V c).Φ t.succ = iprop(iprop(owns (c : Thread nD τ) r1_scM fullShare (r1_accAt V c t.val t.isLt) ∗ Pipeline.scopedRestBut spec1 c [cc1_scratch0]) ∗ (∃ r, prngReg c r)) from rfl]
  rw [show (r1_dat V c).leavesExact 0 t = owns (c : Thread nD τ) (r1_ms0 t) fullShare ((r1_dat V c).after 0 t) from by
    unfold Dat.leavesExact; rw [r1_liveAt_0 t], r1_after_0]
  rw [show (r1_dat V c).leavesExact 1 t = owns (c : Thread nD τ) (r1_ms1 t) fullShare ((r1_dat V c).after 1 t) from by
    unfold Dat.leavesExact; rw [r1_liveAt_1 t], r1_after_1]
  rw [show (r1_dat V c).leavesExact 2 t = owns (c : Thread nD τ) (r1_ms2 t) fullShare ((r1_dat V c).after 2 t) from by
    unfold Dat.leavesExact; rw [r1_liveAt_2 t], r1_after_2]
  rw [r1_Phi_castSucc V c t]
  by_cases h0 : t.val % 4 = 0
  · have h1 : ¬t.val % 4 = 3 := by omega
    rw [Dat.leavesExact_idle (r1_dat V c) 3 t (r1_idleAt_3 t (fun h => h1 ((r1_hcond1 t).mp h))) (r1_noFlush_3 t (fun h => h1 ((r1_hcond1 t).mp h))), r1_accAt_first_eq V c t h0]
    iintro ⟨HP, Ho, ⟨%d0, H0⟩, ⟨%d1, H1⟩, ⟨%d2, H2⟩, ⟨%d3, H3⟩⟩
    ihave ⟨⟨HS, HR⟩, Hg⟩ := (r1_Phi_any V c _ _) $$ HP
    iapply (r1_run_A c (grid1.coords t) _ _ _ _ _ _ _ _ _ _ ((r1_hcond0 t).mpr h0) (fun h => h1 ((r1_hcond1 t).mp h)) (r1_blkA V c t) (r1_blkT V c t) (r1_blkF V c t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [r1_Phi_pos V c _ _ (fun e => h0 (by rw [e])), r1_accAt_next_eq V c t h0]
    by_cases h1 : t.val % 4 = 3
    · rw [show (r1_dat V c).leavesExact 3 t = owns (c : Thread nD τ) (r1_ms3 t) fullShare ((r1_dat V c).after 3 t) from by
        unfold Dat.leavesExact; rw [r1_liveAt_3 t ((r1_hcond1 t).mpr h1)], r1_after_3, r1_outAt_last_eq V c t h1, r1_accAt_next_eq V c t h0]
      iintro ⟨⟨⟨HS, HR⟩, Hg⟩, Ho, ⟨%d0, H0⟩, ⟨%d1, H1⟩, ⟨%d2, H2⟩, ⟨%d3, H3⟩⟩
      iapply (r1_run_C c (grid1.coords t) _ _ _ _ _ _ _ _ _ _ (fun h => h0 ((r1_hcond0 t).mp h)) ((r1_hcond1 t).mpr h1) (r1_blkA V c t) (r1_blkT V c t) (r1_blkF V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (r1_dat V c) 3 t (r1_idleAt_3 t (fun h => h1 ((r1_hcond1 t).mp h))) (r1_noFlush_3 t (fun h => h1 ((r1_hcond1 t).mp h)))]
      iintro ⟨⟨⟨HS, HR⟩, Hg⟩, Ho, ⟨%d0, H0⟩, ⟨%d1, H1⟩, ⟨%d2, H2⟩, ⟨%d3, H3⟩⟩
      iapply (r1_run_B c (grid1.coords t) _ _ _ _ _ _ _ _ _ _ (fun h => h0 ((r1_hcond0 t).mp h)) (fun h => h1 ((r1_hcond1 t).mp h)) (r1_blkA V c t) (r1_blkT V c t) (r1_blkF V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem r1_body_obligation (c : Dev nD) : BodyObligation (r1_dat (F := F) V c) (defs₀ (F := F)) Variants.none () Set.univ := fun t => by
  rw [bigSep_W1, bigSep_W1]
  exact r1_sound_body V c t

theorem r1_hout (c : Dev nD) : (r1_dat V c).Φ (Fin.last cfg1.N) ⊢ (Pipeline.ΦA spec1 c : sProp 𝕄) := by
  rw [show (r1_dat V c).Φ (Fin.last cfg1.N) = r1_Phi V c (Fin.last cfg1.N).val (Nat.le_of_lt_succ (Fin.last cfg1.N).isLt) from rfl, r1_PhiA_eq]
  exact r1_Phi_any V c _ _

def region1 : Region (F := F) cfg1 V where
  dat := r1_dat V
  A_eq := r1_A_eq V
  body := r1_body_obligation V
  q_full := fun _ _ => rfl
  owed_zero := fun _ _ => rfl
  recorded_univ := fun _ => rfl
  phi_in := fun _ => .rfl
  phi_out := r1_hout V

end

end Cert.KernelIdeal.Hand

end
-- ==== Proof.Hand.R2a.lean ====
import proofs.«108687_j68341519613982_1_alg».proof.Proof.Hand.Iface
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem r2_hz : (![0, 0] : Fin 2 → Nat) = fun _ => 0 := funext fun a => by fin_cases a <;> rfl

local notation "𝕄" => MT nD τ sig Unit (Elt F) ℕ (UR sig nD τ) ℕ

section Shared
variable (V : (c : Dev nD) → (b : Ref sig .tc) → Buf (Elt F) ((c : Thread nD τ).loc b))

def r2_iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Shared

abbrev r2_cond0 (i : grid2.Coords) : Prop := (Scalar.cmpi .ne (Scalar.extui (Scalar.cmpi .eq (BitVec.ofNat 32 (i 1).val) 0#32)) 0#32) = 1#1

theorem r2_hcond0 : ∀ t : Fin cfg2.N, r2_cond0 (grid2.coords t) ↔ t.val % 4 = 0 :=
  (by decide +kernel : ∀ t : Fin grid2.N, r2_cond0 (grid2.coords t) ↔ t.val % 4 = 0)

abbrev r2_cond1 (i : grid2.Coords) : Prop := k2_cond2 i = 1#1

theorem r2_hcond1 : ∀ t : Fin cfg2.N, r2_cond1 (grid2.coords t) ↔ t.val % 4 = 3 :=
  (by decide +kernel : ∀ t : Fin grid2.N, r2_cond1 (grid2.coords t) ↔ t.val % 4 = 3)

theorem r2_liveAt0 : ∀ t : Fin cfg2.N, cfg2.idle 0 (grid2.coords t) = false := by decide +kernel
theorem r2_liveAt1 : ∀ t : Fin cfg2.N, cfg2.idle 1 (grid2.coords t) = false := by decide +kernel

theorem r2_idleAt2 : ∀ t : Fin cfg2.N, ¬r2_cond1 (grid2.coords t) → cfg2.idle 2 (grid2.coords t) = true := by decide +kernel

theorem r2_noFlush2 : ∀ t : Fin cfg2.N, ¬r2_cond1 (grid2.coords t) → (cfg2.win 2).flush t = false := by decide +kernel

theorem r2_liveAt2 : ∀ t : Fin cfg2.N, r2_cond1 (grid2.coords t) → cfg2.idle 2 (grid2.coords t) = false := by decide +kernel

abbrev r2_VO : View sig .tc .vmem S1024x256 .f32 := (Memref.whole cc2_stg2_0 : Memref sig .tc .vmem S1024x256 .f32).view
abbrev r2_ms0 (t : Fin cfg2.N) : Memref sig .tc .vmem S1024x2048 .f32 := win2_0.stage (cfg2.slots t 0)
abbrev r2_hs0 (t : Fin cfg2.N) : (r2_ms0 t).IsWhole := hstage2_0 ((cfg2.slots t 0).cast nbuf2_0)
abbrev r2_ms1 (t : Fin cfg2.N) : Memref sig .tc .vmem S2048x256 .f32 := win2_1.stage (cfg2.slots t 1)
abbrev r2_hs1 (t : Fin cfg2.N) : (r2_ms1 t).IsWhole := hstage2_1 ((cfg2.slots t 1).cast nbuf2_1)
abbrev r2_ms2 (t : Fin cfg2.N) : Memref sig .tc .vmem S1024x256 .f32 := win2_2.stage (cfg2.slots t 2)
abbrev r2_hs2 (t : Fin cfg2.N) : (r2_ms2 t).IsWhole := hstage2_2 ((cfg2.slots t 2).cast nbuf2_2)

abbrev r2_scM : Memref sig .tc .vmem S1024x256 .f32 := Memref.whole cc2_scratch0
abbrev r2_VS : View sig .tc .vmem S1024x256 .f32 := r2_scM.view

theorem r2_PhiA_eq (c : Dev nD) :
    (Pipeline.ΦA spec2 c : sProp 𝕄)
      = iprop(iprop((∃ d, owns (c : Thread nD τ) r2_scM fullShare d) ∗ Pipeline.scopedRestBut spec2 c [cc2_scratch0]) ∗ (∃ r, prngReg c r)) := by
  unfold Pipeline.ΦA; rw [scopedRest2_split]; simp only [r2_scM, owns_whole]; try rfl

end Cert.KernelIdeal.Hand

end
-- ==== Proof.Hand.R2b.lean ====
import proofs.«108687_j68341519613982_1_alg».proof.Proof.Hand.R2a

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first step of a row block: the accumulator is zeroed and takes the first stretch's product of the two blocks. -/
theorem r2_run_A (c : Dev nD) (i : grid2.Coords) (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (x0 : Vec F S1024x2048 .f32) (x1 : Vec F S2048x256 .f32) (E : Set ℕ) (K : PUnit → sProp 𝕄)
    (hc0 : r2_cond0 i) (hc1 : ¬r2_cond1 i) (xi2 : Vec F S1024x256 .f32) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 k2_pay1)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x256.size (by sl_kernel_rfl) y)]
  try sl_unfold_words
  rw [View.canon_cons_unit_zero (S := S1024x256) r2_hz, View.readCov_unit_zero (S := S1024x256) _ r2_hz]
  simp only [View.readAt_eq_ld, harg2.read_unread, harg3.read_unread, harg5.read_unread, View.ld_unit_zero (S := S1024x2048) r2_hz, View.ld_unit_zero (S := S2048x256) r2_hz, View.ld_unit_zero (S := S1024x256) r2_hz]

set_option maxHeartbeats 4000000 in
/-- A middle step: the accumulator takes one more stretch's product. -/
theorem r2_run_B (c : Dev nD) (i : grid2.Coords) (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (x0 : Vec F S1024x2048 .f32) (x1 : Vec F S2048x256 .f32) (E : Set ℕ) (K : PUnit → sProp 𝕄)
    (hc0 : ¬r2_cond0 i) (hc1 : ¬r2_cond1 i) (xs0 xi2 : Vec F S1024x256 .f32) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 xs0)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x256.size (by sl_kernel_rfl) y)]
  try sl_unfold_words
  rw [View.canon_unit_zero r2_hz]
  simp only [View.readAt_eq_ld, harg2.read_unread, harg3.read_unread, harg5.read_unread, View.ld_unit_zero (S := S1024x2048) r2_hz, View.ld_unit_zero (S := S2048x256) r2_hz, View.ld_unit_zero (S := S1024x256) r2_hz]

set_option maxHeartbeats 4000000 in
/-- A last step: the accumulator takes the last stretch's product and its closing value is stored into the result block. -/
theorem r2_run_C (c : Dev nD) (i : grid2.Coords) (arg2 : Memref sig .tc .vmem S1024x2048 .f32) (harg2 : arg2.IsWhole) (arg3 : Memref sig .tc .vmem S2048x256 .f32) (harg3 : arg3.IsWhole)
    (arg4 : Memref sig .tc .vmem S1024x256 .f32) (harg4 : arg4.IsWhole) (arg5 : Memref sig .tc .vmem S1024x256 .f32) (harg5 : arg5.IsWhole)
    (x0 : Vec F S1024x2048 .f32) (x1 : Vec F S2048x256 .f32) (E : Set ℕ) (K : PUnit → sProp 𝕄)
    (hc0 : ¬r2_cond0 i) (hc1 : r2_cond1 i) (xs0 : Vec F S1024x256 .f32) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k2_pay3 (k2_pay2 x0 x1 xs0)) ∗ owns (c : Thread nD τ) arg5 fullShare (k2_pay2 x0 x1 xs0)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => View.cover_of_tiledL _ S1024x256.size (by sl_kernel_rfl) y)]
    try sl_unfold_words
    rw [View.canon_unit_zero r2_hz, View.readCov_unit_zero (S := S1024x256) _ r2_hz]
    simp only [View.readAt_eq_ld, harg2.read_unread, harg3.read_unread, harg5.read_unread, View.ld_unit_zero (S := S1024x2048) r2_hz, View.ld_unit_zero (S := S2048x256) r2_hz, View.ld_unit_zero (S := S1024x256) r2_hz]
  iexists _; isplitr
  swap; · iexact HS0
  ipureintro
  rw [View.read_writes_eq_canon _ _ _ (fun y => View.cover_of_tiledL _ S1024x256.size (by sl_kernel_rfl) y)]
  try sl_unfold_words
  rw [View.canon_unit_zero r2_hz]
  simp only [View.readAt_eq_ld, harg2.read_unread, harg3.read_unread, harg5.read_unread, View.ld_unit_zero (S := S1024x2048) r2_hz, View.ld_unit_zero (S := S2048x256) r2_hz, View.ld_unit_zero (S := S1024x256) r2_hz]

end Cert.KernelIdeal.Hand

end
-- ==== Proof.Hand.R2.lean ====
import proofs.«108687_j68341519613982_1_alg».proof.Proof.Hand.R2b

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

abbrev r2_blk0 (c : Dev nD) (t : Fin cfg2.N) : Vec F S1024x2048 .f32 := r2_iblk V c 0 t
abbrev r2_blk1 (c : Dev nD) (t : Fin cfg2.N) : Vec F S2048x256 .f32 := r2_iblk V c 1 t

/-- The accumulator after step n = 4 i + k: zero plus the stretches 0 … k of row block i, added one after the other. -/
def r2_accAt (c : Dev nD) : (n : ℕ) → n < cfg2.N → Vec F S1024x256 .f32
  | 0, hn => k2_pay2 (r2_blk0 V c ⟨0, hn⟩) (r2_blk1 V c ⟨0, hn⟩) k2_pay1
  | n + 1, hn => k2_pay2 (r2_blk0 V c ⟨n + 1, hn⟩) (r2_blk1 V c ⟨n + 1, hn⟩)
      (if (n + 1) % 4 = 0 then k2_pay1 else r2_accAt c n (Nat.lt_of_succ_lt hn))

/-- The result block (where k = 3 the accumulator's closing value; elsewhere not used) and the accumulator, after step n. -/
def r2_outsAt (c : Dev nD) (n : ℕ) (hn : n < cfg2.N) : Vec F S1024x256 .f32 × Vec F S1024x256 .f32 :=
  (if n % 4 = 3 then k2_pay3 (r2_accAt V c n hn) else r2_accAt V c n hn, r2_accAt V c n hn)

theorem r2_acc_first (c : Dev nD) (t : Fin cfg2.N) (h0 : t.val % 4 = 0) :
    (r2_outsAt V c t.val t.isLt).2 = k2_pay2 (r2_blk0 V c t) (r2_blk1 V c t) (k2_pay1 (F := F)) := by
  obtain ⟨n, hn⟩ := t
  cases n with
  | zero => rfl
  | succ n => show r2_accAt V c (n + 1) hn = _; exact congrArg _ (if_pos h0)

theorem r2_acc_next (c : Dev nD) (t : Fin cfg2.N) (h0 : ¬t.val % 4 = 0) :
    (r2_outsAt V c t.val t.isLt).2 = k2_pay2 (r2_blk0 V c t) (r2_blk1 V c t) (r2_outsAt V c (t.val - 1) (Nat.lt_of_le_of_lt (Nat.sub_le _ _) t.isLt)).2 := by
  obtain ⟨n, hn⟩ := t
  cases n with
  | zero => exact absurd (Nat.zero_mod _) h0
  | succ n => show r2_accAt V c (n + 1) hn = _; exact congrArg _ (if_neg h0)

theorem r2_out_last (c : Dev nD) (t : Fin cfg2.N) (h0 : ¬t.val % 4 = 0) (h1 : t.val % 4 = 3) :
    (r2_outsAt V c t.val t.isLt).1 = k2_pay3 (r2_outsAt V c t.val t.isLt).2 := if_pos h1

/-- Before step n: the plain invariant before the first; afterwards the accumulator owned at what the step before left. -/
def r2_PhiS (c : Dev nD) : (n : ℕ) → n ≤ cfg2.N → sProp 𝕄
  | 0, _ => Pipeline.ΦA spec2 c
  | n + 1, hn => iprop(iprop(owns (c : Thread nD τ) r2_scM fullShare ((r2_outsAt V c n hn).2) ∗ Pipeline.scopedRestBut spec2 c [cc2_scratch0]) ∗ (∃ r, prngReg c r))

theorem r2_PhiS_pos (c : Dev nD) (n : ℕ) (h : n ≤ cfg2.N) (hz : n ≠ 0) :
    r2_PhiS V c n h = iprop(iprop(owns (c : Thread nD τ) r2_scM fullShare ((r2_outsAt V c (n - 1) (by omega)).2) ∗ Pipeline.scopedRestBut spec2 c [cc2_scratch0]) ∗ (∃ r, prngReg c r)) := by
  cases n with
  | zero => exact absurd rfl hz
  | succ n => rfl

/-- At any step the invariant owns the accumulator at something. -/
theorem r2_PhiS_any (c : Dev nD) (n : ℕ) (h : n ≤ cfg2.N) :
    r2_PhiS V c n h ⊢ iprop(iprop((∃ d, owns (c : Thread nD τ) r2_scM fullShare d) ∗ Pipeline.scopedRestBut spec2 c [cc2_scratch0]) ∗ (∃ r, prngReg c r)) := by
  cases n with
  | zero => rw [show r2_PhiS V c 0 h = Pipeline.ΦA spec2 c from rfl, r2_PhiA_eq]; try exact Idealize.SL.BI.Entails.refl _
  | succ n =>
    rw [show r2_PhiS V c (n + 1) h = iprop(iprop(owns (c : Thread nD τ) r2_scM fullShare ((r2_outsAt V c n h).2) ∗ Pipeline.scopedRestBut spec2 c [cc2_scratch0]) ∗ (∃ r, prngReg c r)) from rfl]
    iintro ⟨⟨HS, HR⟩, Hg⟩
    isplitl [HS HR]
    · isplitl [HS]
      · iexists _; iexact HS
      iexact HR
    iexact Hg

def r2_dat (c : Dev nD) : Dat τ (Elt F) Unit ℕ (UR sig nD τ) ℕ cfg2 c where
  A w := V c (Pipeline.arrRef spec2 w)
  after w t := match w with
    | ⟨0, _⟩ => r2_iblk V c 0 t
    | ⟨1, _⟩ => r2_iblk V c 1 t
    | ⟨2, _⟩ => (r2_outsAt V c t.val t.isLt).1
  Φ t := r2_PhiS V c t.val (Nat.le_of_lt_succ t.isLt)
  q _ := fullShare
  owed _ := 0

theorem r2_A_eq (c : Dev nD) (w : Fin cfg2.W) : (r2_dat V c).A w = V c (Pipeline.arrRef spec2 w) := by
  dsimp only [r2_dat]

theorem r2_PhiS_castSucc (c : Dev nD) (t : Fin cfg2.N) :
    (r2_dat V c).Φ t.castSucc = r2_PhiS V c t.val (Nat.le_of_lt t.isLt) := by
  dsimp only [r2_dat]; simp only [Fin.coe_castSucc]

theorem r2_after0 (c : Dev nD) (t : Fin cfg2.N) : (r2_dat V c).after 0 t = r2_iblk V c 0 t := by dsimp only [r2_dat]
theorem r2_after1 (c : Dev nD) (t : Fin cfg2.N) : (r2_dat V c).after 1 t = r2_iblk V c 1 t := by dsimp only [r2_dat]
theorem r2_after2 (c : Dev nD) (t : Fin cfg2.N) : (r2_dat V c).after 2 t = (r2_outsAt V c t.val t.isLt).1 := by dsimp only [r2_dat]

theorem r2_before0 (c : Dev nD) (t : Fin cfg2.N) (d) : (r2_dat V c).before 0 t d = r2_iblk V c 0 t :=
  (r2_dat V c).before_in_eq_fetched 0 rfl (fun _ => rfl) (fun _ _ _ => rfl) (fun _ => rfl) t d
theorem r2_before1 (c : Dev nD) (t : Fin cfg2.N) (d) : (r2_dat V c).before 1 t d = r2_iblk V c 1 t :=
  (r2_dat V c).before_in_eq_fetched 1 rfl (fun _ => rfl) (fun _ _ _ => rfl) (fun _ => rfl) t d

def r2_bodyPre (c : Dev nD) (t : Fin cfg2.N) : sProp 𝕄 :=
  iprop((r2_dat V c).Φ t.castSucc ∗ (r2_dat V c).owesAt () t.castSucc
    ∗ (∃ d, owns (c : Thread nD τ) (r2_ms0 t) fullShare ((r2_dat V c).before 0 t d))
    ∗ (∃ d, owns (c : Thread nD τ) (r2_ms1 t) fullShare ((r2_dat V c).before 1 t d))
    ∗ (∃ d, owns (c : Thread nD τ) (r2_ms2 t) fullShare ((r2_dat V c).before 2 t d)))

def r2_bodyPost (c : Dev nD) (t : Fin cfg2.N) : sProp 𝕄 :=
  iprop((r2_dat V c).Φ t.succ ∗ (r2_dat V c).owesAt () t.succ
    ∗ (r2_dat V c).leavesExact 0 t
    ∗ (r2_dat V c).leavesExact 1 t
    ∗ (r2_dat V c).leavesExact 2 t)

set_option maxHeartbeats 4800000 in
/-- The body at any step, by the step's k: the invariant lends the accumulator and takes it back at this step's contents. -/
theorem r2_sound_body (c : Dev nD) (t : Fin cfg2.N) :
    r2_bodyPre V c t ⊢ wp frame (wpE (defs₀ (F := F)) Variants.none c none) Set.univ (bodyAt2 t) (fun _ => r2_bodyPost V c t) := by
  unfold r2_bodyPre r2_bodyPost bodyAt2
  simp only [r2_before0, r2_before1]
  rw [show (r2_dat V c).owesAt () t.succ = (r2_dat V c).owesAt () t.castSucc from rfl]
  rw [show (r2_dat V c).Φ t.succ = iprop(iprop(owns (c : Thread nD τ) r2_scM fullShare ((r2_outsAt V c t.val t.isLt).2) ∗ Pipeline.scopedRestBut spec2 c [cc2_scratch0]) ∗ (∃ r, prngReg c r)) from rfl]
  rw [show (r2_dat V c).leavesExact 0 t = owns (c : Thread nD τ) (r2_ms0 t) fullShare ((r2_dat V c).after 0 t) from by
    unfold Dat.leavesExact; rw [r2_liveAt0 t], r2_after0]
  rw [show (r2_dat V c).leavesExact 1 t = owns (c : Thread nD τ) (r2_ms1 t) fullShare ((r2_dat V c).after 1 t) from by
    unfold Dat.leavesExact; rw [r2_liveAt1 t], r2_after1]
  rw [r2_PhiS_castSucc V c t]
  by_cases h0 : t.val % 4 = 0
  · have h1 : ¬t.val % 4 = 3 := by omega
    rw [Dat.leavesExact_idle (r2_dat V c) 2 t (r2_idleAt2 t (fun h => h1 ((r2_hcond1 t).mp h))) (r2_noFlush2 t (fun h => h1 ((r2_hcond1 t).mp h))), r2_acc_first V c t h0]
    iintro ⟨HP, Ho, ⟨%d0, H0⟩, ⟨%d1, H1⟩, ⟨%d2, H2⟩⟩
    ihave ⟨⟨HS, HR⟩, Hg⟩ := (r2_PhiS_any V c _ _) $$ HP
    iapply (r2_run_A c (grid2.coords t) _ _ _ _ _ _ _ _ (r2_blk0 V c t) (r2_blk1 V c t) Set.univ _ ((r2_hcond0 t).mpr h0) (fun h => h1 ((r2_hcond1 t).mp h)) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · rw [r2_PhiS_pos V c _ _ (fun e => h0 (by rw [e]))]
    by_cases h1 : t.val % 4 = 3
    · rw [show (r2_dat V c).leavesExact 2 t = owns (c : Thread nD τ) (r2_ms2 t) fullShare ((r2_dat V c).after 2 t) from by
        unfold Dat.leavesExact; rw [r2_liveAt2 t ((r2_hcond1 t).mpr h1)], r2_after2, r2_out_last V c t h0 h1, r2_acc_next V c t h0]
      iintro ⟨⟨⟨HS, HR⟩, Hg⟩, Ho, ⟨%d0, H0⟩, ⟨%d1, H1⟩, ⟨%d2, H2⟩⟩
      iapply (r2_run_C c (grid2.coords t) _ _ _ _ _ _ _ _ (r2_blk0 V c t) (r2_blk1 V c t) Set.univ _ (fun h => h0 ((r2_hcond0 t).mp h)) ((r2_hcond1 t).mpr h1) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (r2_dat V c) 2 t (r2_idleAt2 t (fun h => h1 ((r2_hcond1 t).mp h))) (r2_noFlush2 t (fun h => h1 ((r2_hcond1 t).mp h))), r2_acc_next V c t h0]
      iintro ⟨⟨⟨HS, HR⟩, Hg⟩, Ho, ⟨%d0, H0⟩, ⟨%d1, H1⟩, ⟨%d2, H2⟩⟩
      iapply (r2_run_B c (grid2.coords t) _ _ _ _ _ _ _ _ (r2_blk0 V c t) (r2_blk1 V c t) Set.univ _ (fun h => h0 ((r2_hcond0 t).mp h)) (fun h => h1 ((r2_hcond1 t).mp h)) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem r2_body_obligation (c : Dev nD) : BodyObligation (r2_dat (F := F) V c) (defs₀ (F := F)) Variants.none () Set.univ := fun t => by
  rw [bigSep_W2, bigSep_W2]
  exact r2_sound_body V c t

theorem r2_hout (c : Dev nD) : (r2_dat V c).Φ (Fin.last cfg2.N) ⊢ (Pipeline.ΦA spec2 c : sProp 𝕄) := by
  rw [show (r2_dat V c).Φ (Fin.last cfg2.N) = r2_PhiS V c (Fin.last cfg2.N).val (Nat.le_of_lt_succ (Fin.last cfg2.N).isLt) from rfl, r2_PhiA_eq]
  exact r2_PhiS_any V c _ _

def region2 : Region (F := F) cfg2 V where
  dat := r2_dat V
  A_eq := r2_A_eq V
  body := r2_body_obligation V
  q_full := fun _ _ => rfl
  owed_zero := fun _ _ => rfl
  recorded_univ := fun _ => rfl
  phi_in := fun _ => .rfl
  phi_out := r2_hout V

end Frame

end Cert.KernelIdeal.Hand

end
-- ==== Proof.Hand.R3.lean ====
import proofs.«108687_j68341519613982_1_alg».proof.Proof.Hand.Iface

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r3_iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_boxX : Rect S1024x256 := Rect.unit (s := S1024x256) ![0, 0] S1024x256.size inb_S1024x256_S1024x256_0_0
abbrev r3_boxW : Rect S256x64 := Rect.unit (s := S256x64) ![0, 0] S256x64.size inb_S256x64_S256x64_0_0
abbrev r3_boxT : Rect S1024x64 := Rect.unit (s := S1024x64) ![0, 0] S1024x64.size inb_S1024x64_S1024x64_0_0

def r3_out (x : Vec F S1024x256 .f32) (w : Vec F S256x64 .f32) : Vec F S1024x64 .f32 :=
  View.canon [⟨r3_boxT, k3_pay1 (View.ld x r3_boxX) (View.ld w r3_boxW)⟩]

theorem r3_cover (p : Vec F S1024x64 .f32) (y : S1024x64.Idx) :
    ∃ pc ∈ ([⟨r3_boxT, p⟩] : List (View.Piece (Elt F) S1024x64 .f32)), y ∈ pc.1.set :=
  View.cover_of_tiled [⟨r3_boxT, p⟩] S1024x64.size (by rfl) y

set_option maxHeartbeats 1000000 in

theorem r3_sound_kernel (c : Dev nD) (E : Set ℕ) (i : grid3.Coords)
    (arg1 : Memref sig .tc .vmem S1024x256 .f32) (harg1 : arg1.IsWhole)
    (arg2 : Memref sig .tc .vmem S256x64 .f32) (harg2 : arg2.IsWhole)
    (arg3 : Memref sig .tc .vmem S1024x64 .f32) (harg3 : arg3.IsWhole)
    (x : Vec F S1024x256 .f32) (w : Vec F S256x64 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (r3_out x w)) -∗ K ⟨⟩))
      ⊢ wp frame (wpE (defs₀ (F := F)) Variants.none c none) E (cc3__small_matmul_kernel i arg1 harg1 arg2 harg2 arg3 harg3) K := by
  simp only [cc3__small_matmul_kernel_eq_skeleton]; unfold cc3__small_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (r3_cover _)

def r3_dat (c : Dev nD) : Dat τ (Elt F) Unit ℕ (UR sig nD τ) ℕ cfg3 c where
  A w := V c (Pipeline.arrRef spec3 w)
  after w t := match w with
    | ⟨0, _⟩ => r3_iblk V c 0 t
    | ⟨1, _⟩ => r3_iblk V c 1 t
    | ⟨2, _⟩ => r3_out (r3_iblk V c 0 t) (r3_iblk V c 1 t)
  Φ _ := Pipeline.ΦA spec3 c
  q _ := fullShare
  owed _ := 0

theorem r3_A_eq (c : Dev nD) (w : Fin cfg3.W) : (r3_dat V c).A w = V c (Pipeline.arrRef spec3 w) := by
  dsimp only [r3_dat]

theorem r3_after_0 (c : Dev nD) (t : Fin cfg3.N) : (r3_dat V c).after 0 t = r3_iblk V c 0 t := by dsimp only [r3_dat]
theorem r3_after_1 (c : Dev nD) (t : Fin cfg3.N) : (r3_dat V c).after 1 t = r3_iblk V c 1 t := by dsimp only [r3_dat]
theorem r3_after_2 (c : Dev nD) (t : Fin cfg3.N) :
    (r3_dat V c).after 2 t = r3_out (r3_iblk V c 0 t) (r3_iblk V c 1 t) := by dsimp only [r3_dat]

theorem r3_before_0 (c : Dev nD) (t : Fin cfg3.N) (d) : (r3_dat V c).before 0 t d = r3_iblk V c 0 t :=
  (r3_dat V c).before_in_eq_fetched 0 rfl (fun _ => rfl) (fun _ _ _ => rfl) (fun _ => rfl) t d
theorem r3_before_1 (c : Dev nD) (t : Fin cfg3.N) (d) : (r3_dat V c).before 1 t d = r3_iblk V c 1 t :=
  (r3_dat V c).before_in_eq_fetched 1 rfl (fun _ => rfl) (fun _ _ _ => rfl) (fun _ => rfl) t d

def r3_bodyPre (c : Dev nD) (t : Fin cfg3.N) : sProp 𝕄 :=
  iprop((r3_dat V c).Φ t.castSucc ∗ (r3_dat V c).owesAt () t.castSucc
    ∗ (∃ d, owns (c : Thread nD τ) (st3_0 t) fullShare ((r3_dat V c).before 0 t d))
    ∗ (∃ d, owns (c : Thread nD τ) (st3_1 t) fullShare ((r3_dat V c).before 1 t d))
    ∗ (∃ d, owns (c : Thread nD τ) (st3_2 t) fullShare ((r3_dat V c).before 2 t d)))

def r3_bodyPost (c : Dev nD) (t : Fin cfg3.N) : sProp 𝕄 :=
  iprop((r3_dat V c).Φ t.succ ∗ (r3_dat V c).owesAt () t.succ
    ∗ owns (c : Thread nD τ) (st3_0 t) fullShare ((r3_dat V c).after 0 t)
    ∗ owns (c : Thread nD τ) (st3_1 t) fullShare ((r3_dat V c).after 1 t)
    ∗ owns (c : Thread nD τ) (st3_2 t) fullShare ((r3_dat V c).after 2 t))

theorem r3_sound_body (c : Dev nD) (t : Fin cfg3.N) :
    r3_bodyPre V c t ⊢ wp frame (wpE (defs₀ (F := F)) Variants.none c none) Set.univ (bodyAt3 t) (fun _ => r3_bodyPost V c t) := by
  unfold r3_bodyPre r3_bodyPost bodyAt3
  simp only [r3_before_0, r3_before_1]
  rw [show (r3_dat V c).Φ t.succ = (r3_dat V c).Φ t.castSucc from rfl,
    show (r3_dat V c).owesAt () t.succ = (r3_dat V c).owesAt () t.castSucc from rfl,
    r3_after_0, r3_after_1, r3_after_2]
  iintro ⟨HΦ, Ho, ⟨%d0, H0⟩, ⟨%d1, H1⟩, ⟨%d2, H2⟩⟩
  iapply (r3_sound_kernel c Set.univ _ _ _ _ _ _ _ (r3_iblk V c 0 t) (r3_iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem r3_body_obligation (c : Dev nD) : BodyObligation (r3_dat (F := F) V c) (defs₀ (F := F)) Variants.none () Set.univ := fun t => by
  rw [bigSep_W3, bigSep_W3]
  exact r3_sound_body V c t

end

def region3 (V : (c : Dev nD) → (b : Ref sig .tc) → Buf (Elt F) ((c : Thread nD τ).loc b)) : Region (F := F) cfg3 V where
  dat := r3_dat V
  A_eq := r3_A_eq V
  body := r3_body_obligation V
  q_full _ _ := rfl
  owed_zero _ _ := rfl
  recorded_univ _ := rfl
  phi_in _ := .rfl
  phi_out _ := .rfl

end Cert.KernelIdeal.Hand

end
-- ==== Proof.Hand.R4a.lean ====
import proofs.«108687_j68341519613982_1_alg».proof.Proof.Hand.Iface
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def r4_iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

end

theorem r4_hz : (![0, 0] : Fin 2 → Nat) = fun _ => 0 := funext fun a => by fin_cases a <;> rfl

abbrev r4_cond0 (i : grid4.Coords) : Prop := (Scalar.cmpi .ne (Scalar.extui (Scalar.cmpi .eq (BitVec.ofNat 32 (i 1).val) 0#32)) 0#32) = 1#1

theorem r4_hcond0 : ∀ t : Fin cfg4.N, r4_cond0 (grid4.coords t) ↔ t.val % 4 = 0 :=
  (by decide +kernel : ∀ t : Fin grid4.N, r4_cond0 (grid4.coords t) ↔ t.val % 4 = 0)

abbrev r4_cond1 (i : grid4.Coords) : Prop := k4_cond2 i = 1#1

theorem r4_hcond1 : ∀ t : Fin cfg4.N, r4_cond1 (grid4.coords t) ↔ t.val % 4 = 3 :=
  (by decide +kernel : ∀ t : Fin grid4.N, r4_cond1 (grid4.coords t) ↔ t.val % 4 = 3)

theorem r4_liveAt_0 : ∀ t : Fin cfg4.N, cfg4.idle 0 (grid4.coords t) = false := fun _ => rfl
theorem r4_liveAt_1 : ∀ t : Fin cfg4.N, cfg4.idle 1 (grid4.coords t) = false := fun _ => rfl
theorem r4_liveAt_2 : ∀ t : Fin cfg4.N, cfg4.idle 2 (grid4.coords t) = false := fun _ => rfl

theorem r4_idleAt_3 : ∀ t : Fin cfg4.N, ¬r4_cond1 (grid4.coords t) → cfg4.idle 3 (grid4.coords t) = true := by decide +kernel

theorem r4_noFlush_3 : ∀ t : Fin cfg4.N, ¬r4_cond1 (grid4.coords t) → (cfg4.win 3).flush t = false := by decide +kernel

theorem r4_liveAt_3 : ∀ t : Fin cfg4.N, r4_cond1 (grid4.coords t) → cfg4.idle 3 (grid4.coords t) = false := by decide +kernel

abbrev r4_VO : View sig .tc .vmem S1024x64 .f32 := (Memref.whole cc4_stg3_0 : Memref sig .tc .vmem S1024x64 .f32).view
abbrev r4_ms0 (t : Fin cfg4.N) : Memref sig .tc .vmem S1024x2048 .f32 := win4_0.stage (cfg4.slots t 0)
abbrev r4_hs0 (t : Fin cfg4.N) : (r4_ms0 t).IsWhole := hstage4_0 ((cfg4.slots t 0).cast nbuf4_0)
abbrev r4_ms1 (t : Fin cfg4.N) : Memref sig .tc .vmem S2048x64 .f32 := win4_1.stage (cfg4.slots t 1)
abbrev r4_hs1 (t : Fin cfg4.N) : (r4_ms1 t).IsWhole := hstage4_1 ((cfg4.slots t 1).cast nbuf4_1)
abbrev r4_ms2 (t : Fin cfg4.N) : Memref sig .tc .vmem S1024x1 .f32 := win4_2.stage (cfg4.slots t 2)
abbrev r4_hs2 (t : Fin cfg4.N) : (r4_ms2 t).IsWhole := hstage4_2 ((cfg4.slots t 2).cast nbuf4_2)
abbrev r4_ms3 (t : Fin cfg4.N) : Memref sig .tc .vmem S1024x64 .f32 := win4_3.stage (cfg4.slots t 3)
abbrev r4_hs3 (t : Fin cfg4.N) : (r4_ms3 t).IsWhole := hstage4_3 ((cfg4.slots t 3).cast nbuf4_3)

abbrev r4_scM : Memref sig .tc .vmem S1024x64 .f32 := Memref.whole cc4_scratch0

abbrev r4_VS : View sig .tc .vmem S1024x64 .f32 := r4_scM.view

theorem r4_PhiA_eq (c : Dev nD) :
    (Pipeline.ΦA spec4 c : sProp 𝕄)
      = iprop(iprop(iprop((∃ d, owns (c : Thread nD τ) r4_scM fullShare d)) ∗ Pipeline.scopedRestBut spec4 c [cc4_scratch0]) ∗ (∃ r, prngReg c r)) := by
  unfold Pipeline.ΦA; rw [scopedRest4_split]; simp only [r4_scM, owns_whole]; try rfl

end Cert.KernelIdeal.Hand

end
-- ==== Proof.Hand.R4b.lean ====
import proofs.«108687_j68341519613982_1_alg».proof.Proof.Hand.R4a

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 0 the body zeroes the accumulator and adds the first stretch's product of the two blocks to it. -/
theorem r4_run_A (c : Dev nD) (i : grid4.Coords)
    (arg2 : Memref sig .tc .vmem S1024x2048 .f32) (harg2 : arg2.IsWhole)
    (arg3 : Memref sig .tc .vmem S2048x64 .f32) (harg3 : arg3.IsWhole)
    (arg4 : Memref sig .tc .vmem S1024x1 .f32) (harg4 : arg4.IsWhole)
    (arg5 : Memref sig .tc .vmem S1024x64 .f32) (harg5 : arg5.IsWhole)
    (arg6 : Memref sig .tc .vmem S1024x64 .f32) (harg6 : arg6.IsWhole)
    (hc0 : r4_cond0 i) (hc1 : ¬r4_cond1 i)
    (x0 : Vec F S1024x2048 .f32) (x1 : Vec F S2048x64 .f32) (x2 : Vec F S1024x1 .f32) (xi3 : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k4_pay2 x0 x1 k4_pay1)) -∗ K ⟨⟩))
      ⊢ wp frame (wpE (defs₀ (F := F)) Variants.none c none) E (cc4__bigmatmul_filt_kernel i arg2 harg2 arg3 harg3 arg4 harg4 arg5 harg5 arg6 harg6) K := by
  simp only [cc4__bigmatmul_filt_kernel_eq_skeleton]; unfold cc4__bigmatmul_filt_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x64.size (by sl_kernel_rfl) y)]
  try sl_unfold_words
  rw [View.canon_cons_unit_zero (S := S1024x64) r4_hz, View.readCov_unit_zero (S := S1024x64) _ r4_hz]
  simp only [View.readAt_eq_ld, harg2.read_unread, harg3.read_unread, View.ld_unit_zero (S := S1024x2048) r4_hz, View.ld_unit_zero (S := S2048x64) r4_hz, View.ld_unit_zero (S := S1024x64) r4_hz]

end Cert.KernelIdeal.Hand

end
-- ==== Proof.Hand.R4c.lean ====
import proofs.«108687_j68341519613982_1_alg».proof.Proof.Hand.R4b

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 1 or 2 the body adds one more stretch's product to the accumulator. -/
theorem r4_run_B (c : Dev nD) (i : grid4.Coords)
    (arg2 : Memref sig .tc .vmem S1024x2048 .f32) (harg2 : arg2.IsWhole)
    (arg3 : Memref sig .tc .vmem S2048x64 .f32) (harg3 : arg3.IsWhole)
    (arg4 : Memref sig .tc .vmem S1024x1 .f32) (harg4 : arg4.IsWhole)
    (arg5 : Memref sig .tc .vmem S1024x64 .f32) (harg5 : arg5.IsWhole)
    (arg6 : Memref sig .tc .vmem S1024x64 .f32) (harg6 : arg6.IsWhole)
    (hc0 : ¬r4_cond0 i) (hc1 : ¬r4_cond1 i)
    (x0 : Vec F S1024x2048 .f32) (x1 : Vec F S2048x64 .f32) (x2 : Vec F S1024x1 .f32) (xs xi3 : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k4_pay2 x0 x1 xs)) -∗ K ⟨⟩))
      ⊢ wp frame (wpE (defs₀ (F := F)) Variants.none c none) E (cc4__bigmatmul_filt_kernel i arg2 harg2 arg3 harg3 arg4 harg4 arg5 harg5 arg6 harg6) K := by
  simp only [cc4__bigmatmul_filt_kernel_eq_skeleton]; unfold cc4__bigmatmul_filt_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => View.cover_of_tiledL _ S1024x64.size (by sl_kernel_rfl) y), View.canon_unit_zero (S := S1024x64) r4_hz]
  simp only [View.readAt_eq_ld, harg2.read_unread, harg3.read_unread, harg6.read_unread, View.ld_unit_zero (S := S1024x2048) r4_hz, View.ld_unit_zero (S := S2048x64) r4_hz, View.ld_unit_zero (S := S1024x64) r4_hz]

end Cert.KernelIdeal.Hand

end
-- ==== Proof.Hand.R4d.lean ====
import proofs.«108687_j68341519613982_1_alg».proof.Proof.Hand.R4c

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where k = 3 the body adds the last stretch's product to the accumulator and stores it, each row scaled by its filter entry, into the output block. -/
theorem r4_run_C (c : Dev nD) (i : grid4.Coords)
    (arg2 : Memref sig .tc .vmem S1024x2048 .f32) (harg2 : arg2.IsWhole)
    (arg3 : Memref sig .tc .vmem S2048x64 .f32) (harg3 : arg3.IsWhole)
    (arg4 : Memref sig .tc .vmem S1024x1 .f32) (harg4 : arg4.IsWhole)
    (arg5 : Memref sig .tc .vmem S1024x64 .f32) (harg5 : arg5.IsWhole)
    (arg6 : Memref sig .tc .vmem S1024x64 .f32) (harg6 : arg6.IsWhole)
    (hc0 : ¬r4_cond0 i) (hc1 : r4_cond1 i)
    (x0 : Vec F S1024x2048 .f32) (x1 : Vec F S2048x64 .f32) (x2 : Vec F S1024x1 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k4_pay3 (k4_pay2 x0 x1 xs) x2) ∗ owns (c : Thread nD τ) arg6 fullShare (k4_pay2 x0 x1 xs)) -∗ K ⟨⟩))
      ⊢ wp frame (wpE (defs₀ (F := F)) Variants.none c none) E (cc4__bigmatmul_filt_kernel i arg2 harg2 arg3 harg3 arg4 harg4 arg5 harg5 arg6 harg6) K := by
  simp only [cc4__bigmatmul_filt_kernel_eq_skeleton]; unfold cc4__bigmatmul_filt_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S1024x64.size (by sl_kernel_rfl) y)]
    try sl_unfold_words
    rw [View.canon_unit_zero (S := S1024x64) r4_hz, View.readCov_unit_zero (S := S1024x64) _ r4_hz]
    simp only [View.readAt_eq_ld, harg2.read_unread, harg3.read_unread, harg4.read_unread, harg6.read_unread, View.ld_unit_zero (S := S1024x1) r4_hz, View.ld_unit_zero (S := S1024x2048) r4_hz, View.ld_unit_zero (S := S2048x64) r4_hz, View.ld_unit_zero (S := S1024x64) r4_hz]
  iexists _; isplitr
  swap; · iexact HS
  ipureintro
  rw [View.read_writes_eq_canon _ _ _ (fun y => View.cover_of_tiledL _ S1024x64.size (by sl_kernel_rfl) y)]
  try sl_unfold_words
  rw [View.canon_unit_zero (S := S1024x64) r4_hz]
  simp only [View.readAt_eq_ld, harg2.read_unread, harg3.read_unread, harg6.read_unread, View.ld_unit_zero (S := S1024x2048) r4_hz, View.ld_unit_zero (S := S2048x64) r4_hz, View.ld_unit_zero (S := S1024x64) r4_hz]

end Cert.KernelIdeal.Hand

end
-- ==== Proof.Hand.R4.lean ====
import proofs.«108687_j68341519613982_1_alg».proof.Proof.Hand.R4d

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev r4_blkA (c : Dev nD) (t : Fin cfg4.N) : Vec F S1024x2048 .f32 := r4_iblk V c 0 t
abbrev r4_blkT (c : Dev nD) (t : Fin cfg4.N) : Vec F S2048x64 .f32 := r4_iblk V c 1 t
abbrev r4_blkF (c : Dev nD) (t : Fin cfg4.N) : Vec F S1024x1 .f32 := r4_iblk V c 2 t

/-- The accumulator after position n = 4 i + k: zero plus the stretches 0 … k of row block i, added one after the other. -/
def r4_accAt (c : Dev nD) : (n : ℕ) → n < cfg4.N → Vec F S1024x64 .f32
  | 0, hn => k4_pay2 (r4_blkA V c ⟨0, hn⟩) (r4_blkT V c ⟨0, hn⟩) k4_pay1
  | n + 1, hn => k4_pay2 (r4_blkA V c ⟨n + 1, hn⟩) (r4_blkT V c ⟨n + 1, hn⟩)
      (if (n + 1) % 4 = 0 then k4_pay1 else r4_accAt c n (Nat.lt_of_succ_lt hn))

theorem r4_accAt_first_eq (c : Dev nD) (t : Fin cfg4.N) (h0 : t.val % 4 = 0) :
    r4_accAt V c t.val t.isLt = k4_pay2 (r4_blkA V c t) (r4_blkT V c t) (k4_pay1 (F := F)) := by
  obtain ⟨n, hn⟩ := t
  cases n with
  | zero => rfl
  | succ n => exact congrArg _ (if_pos h0)

theorem r4_accAt_next_eq (c : Dev nD) (t : Fin cfg4.N) (h0 : ¬t.val % 4 = 0) :
    r4_accAt V c t.val t.isLt
      = k4_pay2 (r4_blkA V c t) (r4_blkT V c t) (r4_accAt V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The output block after position n: where k = 3 the accumulator with each row scaled by its filter entry (elsewhere not used). -/
def r4_outAt (c : Dev nD) (n : ℕ) (hn : n < cfg4.N) : Vec F S1024x64 .f32 :=
  if n % 4 = 3 then k4_pay3 (r4_accAt V c n hn) (r4_blkF V c ⟨n, hn⟩) else r4_accAt V c n hn

theorem r4_outAt_last_eq (c : Dev nD) (t : Fin cfg4.N) (h1 : t.val % 4 = 3) :
    r4_outAt V c t.val t.isLt = k4_pay3 (r4_accAt V c t.val t.isLt) (r4_blkF V c t) := if_pos h1

/-- Before position n: the plain invariant before the first; afterwards the accumulator owned at what the position before left. -/
def r4_Phi (c : Dev nD) : (n : ℕ) → n ≤ cfg4.N → sProp 𝕄
  | 0, _ => Pipeline.ΦA spec4 c
  | n + 1, hn => iprop(iprop(owns (c : Thread nD τ) r4_scM fullShare (r4_accAt V c n hn) ∗ Pipeline.scopedRestBut spec4 c [cc4_scratch0]) ∗ (∃ r, prngReg c r))

theorem r4_Phi_pos (c : Dev nD) (n : ℕ) (h : n ≤ cfg4.N) (hz : n ≠ 0) :
    r4_Phi V c n h = iprop(iprop(owns (c : Thread nD τ) r4_scM fullShare (r4_accAt V c (n - 1) (by omega)) ∗ Pipeline.scopedRestBut spec4 c [cc4_scratch0]) ∗ (∃ r, prngReg c r)) := by
  cases n with
  | zero => exact absurd rfl hz
  | succ n => rfl

/-- At any position the invariant owns the accumulator at something. -/
theorem r4_Phi_any (c : Dev nD) (n : ℕ) (h : n ≤ cfg4.N) :
    r4_Phi V c n h ⊢ iprop(iprop((∃ d, owns (c : Thread nD τ) r4_scM fullShare d) ∗ Pipeline.scopedRestBut spec4 c [cc4_scratch0]) ∗ (∃ r, prngReg c r)) := by
  cases n with
  | zero => rw [show r4_Phi V c 0 h = Pipeline.ΦA spec4 c from rfl, r4_PhiA_eq]; try exact Idealize.SL.BI.Entails.refl _
  | succ n =>
    rw [show r4_Phi V c (n + 1) h = iprop(iprop(owns (c : Thread nD τ) r4_scM fullShare (r4_accAt V c n h) ∗ Pipeline.scopedRestBut spec4 c [cc4_scratch0]) ∗ (∃ r, prngReg c r)) from rfl]
    iintro ⟨⟨HS, HR⟩, Hg⟩
    isplitl [HS HR]
    · isplitl [HS]
      · iexists _; iexact HS
      iexact HR
    iexact Hg

def r4_dat (c : Dev nD) : Dat τ (Elt F) Unit ℕ (UR sig nD τ) ℕ cfg4 c where
  A w := V c (Pipeline.arrRef spec4 w)
  after w t := match w with
    | ⟨0, _⟩ => r4_iblk V c 0 t
    | ⟨1, _⟩ => r4_iblk V c 1 t
    | ⟨2, _⟩ => r4_iblk V c 2 t
    | ⟨3, _⟩ => r4_outAt V c t.val t.isLt
  Φ t := r4_Phi V c t.val (Nat.le_of_lt_succ t.isLt)
  q _ := fullShare
  owed _ := 0

theorem r4_A_eq (c : Dev nD) (w : Fin cfg4.W) : (r4_dat V c).A w = V c (Pipeline.arrRef spec4 w) := by
  dsimp only [r4_dat]

theorem r4_Phi_castSucc (c : Dev nD) (t : Fin cfg4.N) :
    (r4_dat V c).Φ t.castSucc = r4_Phi V c t.val (Nat.le_of_lt t.isLt) := by
  dsimp only [r4_dat]; simp only [Fin.coe_castSucc]

theorem r4_after_0 (c : Dev nD) (t : Fin cfg4.N) : (r4_dat V c).after 0 t = r4_iblk V c 0 t := by dsimp only [r4_dat]
theorem r4_after_1 (c : Dev nD) (t : Fin cfg4.N) : (r4_dat V c).after 1 t = r4_iblk V c 1 t := by dsimp only [r4_dat]
theorem r4_after_2 (c : Dev nD) (t : Fin cfg4.N) : (r4_dat V c).after 2 t = r4_iblk V c 2 t := by dsimp only [r4_dat]
theorem r4_after_3 (c : Dev nD) (t : Fin cfg4.N) : (r4_dat V c).after 3 t = r4_outAt V c t.val t.isLt := by dsimp only [r4_dat]

theorem r4_before_0 (c : Dev nD) (t : Fin cfg4.N) (d) : (r4_dat V c).before 0 t d = r4_iblk V c 0 t :=
  (r4_dat V c).before_in_eq_fetched 0 rfl (fun _ => rfl) (fun _ _ _ => rfl) (fun _ => rfl) t d
theorem r4_before_1 (c : Dev nD) (t : Fin cfg4.N) (d) : (r4_dat V c).before 1 t d = r4_iblk V c 1 t :=
  (r4_dat V c).before_in_eq_fetched 1 rfl (fun _ => rfl) (fun _ _ _ => rfl) (fun _ => rfl) t d
theorem r4_before_2 (c : Dev nD) (t : Fin cfg4.N) (d) : (r4_dat V c).before 2 t d = r4_iblk V c 2 t :=
  (r4_dat V c).before_in_eq_fetched 2 rfl (fun _ => rfl) (fun _ _ _ => rfl) (fun _ => rfl) t d

def r4_bodyPre (c : Dev nD) (t : Fin cfg4.N) : sProp 𝕄 :=
  iprop((r4_dat V c).Φ t.castSucc ∗ (r4_dat V c).owesAt () t.castSucc
    ∗ (∃ d, owns (c : Thread nD τ) (r4_ms0 t) fullShare ((r4_dat V c).before 0 t d))
    ∗ (∃ d, owns (c : Thread nD τ) (r4_ms1 t) fullShare ((r4_dat V c).before 1 t d))
    ∗ (∃ d, owns (c : Thread nD τ) (r4_ms2 t) fullShare ((r4_dat V c).before 2 t d))
    ∗ (∃ d, owns (c : Thread nD τ) (r4_ms3 t) fullShare ((r4_dat V c).before 3 t d)))

def r4_bodyPost (c : Dev nD) (t : Fin cfg4.N) : sProp 𝕄 :=
  iprop((r4_dat V c).Φ t.succ ∗ (r4_dat V c).owesAt () t.succ
    ∗ (r4_dat V c).leavesExact 0 t
    ∗ (r4_dat V c).leavesExact 1 t
    ∗ (r4_dat V c).leavesExact 2 t
    ∗ (r4_dat V c).leavesExact 3 t)

set_option maxHeartbeats 4800000 in
/-- The body at any position, by the position's k: the invariant lends the accumulator and takes it back at this position's contents. -/
theorem r4_sound_body (c : Dev nD) (t : Fin cfg4.N) :
    r4_bodyPre V c t ⊢ wp frame (wpE (defs₀ (F := F)) Variants.none c none) Set.univ (bodyAt4 t) (fun _ => r4_bodyPost V c t) := by
  unfold r4_bodyPre r4_bodyPost bodyAt4
  simp only [r4_before_0, r4_before_1, r4_before_2]
  rw [show (r4_dat V c).owesAt () t.succ = (r4_dat V c).owesAt () t.castSucc from rfl]
  rw [show (r4_dat V c).Φ t.succ = iprop(iprop(owns (c : Thread nD τ) r4_scM fullShare (r4_accAt V c t.val t.isLt) ∗ Pipeline.scopedRestBut spec4 c [cc4_scratch0]) ∗ (∃ r, prngReg c r)) from rfl]
  rw [show (r4_dat V c).leavesExact 0 t = owns (c : Thread nD τ) (r4_ms0 t) fullShare ((r4_dat V c).after 0 t) from by
    unfold Dat.leavesExact; rw [r4_liveAt_0 t], r4_after_0]
  rw [show (r4_dat V c).leavesExact 1 t = owns (c : Thread nD τ) (r4_ms1 t) fullShare ((r4_dat V c).after 1 t) from by
    unfold Dat.leavesExact; rw [r4_liveAt_1 t], r4_after_1]
  rw [show (r4_dat V c).leavesExact 2 t = owns (c : Thread nD τ) (r4_ms2 t) fullShare ((r4_dat V c).after 2 t) from by
    unfold Dat.leavesExact; rw [r4_liveAt_2 t], r4_after_2]
  rw [r4_Phi_castSucc V c t]
  by_cases h0 : t.val % 4 = 0
  · have h1 : ¬t.val % 4 = 3 := by omega
    rw [Dat.leavesExact_idle (r4_dat V c) 3 t (r4_idleAt_3 t (fun h => h1 ((r4_hcond1 t).mp h))) (r4_noFlush_3 t (fun h => h1 ((r4_hcond1 t).mp h))), r4_accAt_first_eq V c t h0]
    iintro ⟨HP, Ho, ⟨%d0, H0⟩, ⟨%d1, H1⟩, ⟨%d2, H2⟩, ⟨%d3, H3⟩⟩
    ihave ⟨⟨HS, HR⟩, Hg⟩ := (r4_Phi_any V c _ _) $$ HP
    iapply (r4_run_A c (grid4.coords t) _ _ _ _ _ _ _ _ _ _ ((r4_hcond0 t).mpr h0) (fun h => h1 ((r4_hcond1 t).mp h)) (r4_blkA V c t) (r4_blkT V c t) (r4_blkF V c t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [r4_Phi_pos V c _ _ (fun e => h0 (by rw [e])), r4_accAt_next_eq V c t h0]
    by_cases h1 : t.val % 4 = 3
    · rw [show (r4_dat V c).leavesExact 3 t = owns (c : Thread nD τ) (r4_ms3 t) fullShare ((r4_dat V c).after 3 t) from by
        unfold Dat.leavesExact; rw [r4_liveAt_3 t ((r4_hcond1 t).mpr h1)], r4_after_3, r4_outAt_last_eq V c t h1, r4_accAt_next_eq V c t h0]
      iintro ⟨⟨⟨HS, HR⟩, Hg⟩, Ho, ⟨%d0, H0⟩, ⟨%d1, H1⟩, ⟨%d2, H2⟩, ⟨%d3, H3⟩⟩
      iapply (r4_run_C c (grid4.coords t) _ _ _ _ _ _ _ _ _ _ (fun h => h0 ((r4_hcond0 t).mp h)) ((r4_hcond1 t).mpr h1) (r4_blkA V c t) (r4_blkT V c t) (r4_blkF V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (r4_dat V c) 3 t (r4_idleAt_3 t (fun h => h1 ((r4_hcond1 t).mp h))) (r4_noFlush_3 t (fun h => h1 ((r4_hcond1 t).mp h)))]
      iintro ⟨⟨⟨HS, HR⟩, Hg⟩, Ho, ⟨%d0, H0⟩, ⟨%d1, H1⟩, ⟨%d2, H2⟩, ⟨%d3, H3⟩⟩
      iapply (r4_run_B c (grid4.coords t) _ _ _ _ _ _ _ _ _ _ (fun h => h0 ((r4_hcond0 t).mp h)) (fun h => h1 ((r4_hcond1 t).mp h)) (r4_blkA V c t) (r4_blkT V c t) (r4_blkF V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem r4_body_obligation (c : Dev nD) : BodyObligation (r4_dat (F := F) V c) (defs₀ (F := F)) Variants.none () Set.univ := fun t => by
  rw [bigSep_W4, bigSep_W4]
  exact r4_sound_body V c t

theorem r4_hout (c : Dev nD) : (r4_dat V c).Φ (Fin.last cfg4.N) ⊢ (Pipeline.ΦA spec4 c : sProp 𝕄) := by
  rw [show (r4_dat V c).Φ (Fin.last cfg4.N) = r4_Phi V c (Fin.last cfg4.N).val (Nat.le_of_lt_succ (Fin.last cfg4.N).isLt) from rfl, r4_PhiA_eq]
  exact r4_Phi_any V c _ _

def region4 : Region (F := F) cfg4 V where
  dat := r4_dat V
  A_eq := r4_A_eq V
  body := r4_body_obligation V
  q_full := fun _ _ => rfl
  owed_zero := fun _ _ => rfl
  recorded_univ := fun _ => rfl
  phi_in := fun _ => .rfl
  phi_out := r4_hout V

end

end Cert.KernelIdeal.Hand

end
-- ==== Proof.Hand.R5a.lean ====
import proofs.«108687_j68341519613982_1_alg».proof.Proof.Hand.Iface
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem r5_hz : (![0, 0] : Fin 2 → Nat) = fun _ => 0 := funext fun a => by fin_cases a <;> rfl

local notation "𝕄" => MT nD τ sig Unit (Elt F) ℕ (UR sig nD τ) ℕ

section Shared
variable (V : (c : Dev nD) → (b : Ref sig .tc) → Buf (Elt F) ((c : Thread nD τ).loc b))

def r5_iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Shared

abbrev r5_cond0 (i : grid5.Coords) : Prop := (Scalar.cmpi .ne (Scalar.extui (Scalar.cmpi .eq (BitVec.ofNat 32 (i 1).val) 0#32)) 0#32) = 1#1

theorem r5_hcond0 : ∀ t : Fin cfg5.N, r5_cond0 (grid5.coords t) ↔ t.val % 4 = 0 :=
  (by decide +kernel : ∀ t : Fin grid5.N, r5_cond0 (grid5.coords t) ↔ t.val % 4 = 0)

abbrev r5_cond1 (i : grid5.Coords) : Prop := k5_cond2 i = 1#1

theorem r5_hcond1 : ∀ t : Fin cfg5.N, r5_cond1 (grid5.coords t) ↔ t.val % 4 = 3 :=
  (by decide +kernel : ∀ t : Fin grid5.N, r5_cond1 (grid5.coords t) ↔ t.val % 4 = 3)

theorem r5_liveAt0 : ∀ t : Fin cfg5.N, cfg5.idle 0 (grid5.coords t) = false := by decide +kernel
theorem r5_liveAt1 : ∀ t : Fin cfg5.N, cfg5.idle 1 (grid5.coords t) = false := by decide +kernel

theorem r5_idleAt2 : ∀ t : Fin cfg5.N, ¬r5_cond1 (grid5.coords t) → cfg5.idle 2 (grid5.coords t) = true := by decide +kernel

theorem r5_noFlush2 : ∀ t : Fin cfg5.N, ¬r5_cond1 (grid5.coords t) → (cfg5.win 2).flush t = false := by decide +kernel

theorem r5_liveAt2 : ∀ t : Fin cfg5.N, r5_cond1 (grid5.coords t) → cfg5.idle 2 (grid5.coords t) = false := by decide +kernel

abbrev r5_VO : View sig .tc .vmem S1024x64 .f32 := (Memref.whole cc5_stg2_0 : Memref sig .tc .vmem S1024x64 .f32).view
abbrev r5_ms0 (t : Fin cfg5.N) : Memref sig .tc .vmem S1024x2048 .f32 := win5_0.stage (cfg5.slots t 0)
abbrev r5_hs0 (t : Fin cfg5.N) : (r5_ms0 t).IsWhole := hstage5_0 ((cfg5.slots t 0).cast nbuf5_0)
abbrev r5_ms1 (t : Fin cfg5.N) : Memref sig .tc .vmem S2048x64 .f32 := win5_1.stage (cfg5.slots t 1)
abbrev r5_hs1 (t : Fin cfg5.N) : (r5_ms1 t).IsWhole := hstage5_1 ((cfg5.slots t 1).cast nbuf5_1)
abbrev r5_ms2 (t : Fin cfg5.N) : Memref sig .tc .vmem S1024x64 .f32 := win5_2.stage (cfg5.slots t 2)
abbrev r5_hs2 (t : Fin cfg5.N) : (r5_ms2 t).IsWhole := hstage5_2 ((cfg5.slots t 2).cast nbuf5_2)

abbrev r5_scM : Memref sig .tc .vmem S1024x64 .f32 := Memref.whole cc5_scratch0
abbrev r5_VS : View sig .tc .vmem S1024x64 .f32 := r5_scM.view

theorem r5_PhiA_eq (c : Dev nD) :
    (Pipeline.ΦA spec5 c : sProp 𝕄)
      = iprop(iprop((∃ d, owns (c : Thread nD τ) r5_scM fullShare d) ∗ Pipeline.scopedRestBut spec5 c [cc5_scratch0]) ∗ (∃ r, prngReg c r)) := by
  unfold Pipeline.ΦA; rw [scopedRest5_split]; simp only [r5_scM, owns_whole]; try rfl

end Cert.KernelIdeal.Hand

end
-- ==== Proof.Hand.R5b.lean ====
import proofs.«108687_j68341519613982_1_alg».proof.Proof.Hand.R5a

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first step of a row block: the accumulator is zeroed and takes the first stretch's product of the two blocks. -/
theorem r5_run_A (c : Dev nD) (i : grid5.Coords) (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x2048 .f32) (x1 : Vec F S2048x64 .f32) (E : Set ℕ) (K : PUnit → sProp 𝕄)
    (hc0 : r5_cond0 i) (hc1 : ¬r5_cond1 i) (xi2 : Vec F S1024x64 .f32) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 x0 x1 k5_pay1)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x64.size (by sl_kernel_rfl) y)]
  try sl_unfold_words
  rw [View.canon_cons_unit_zero (S := S1024x64) r5_hz, View.readCov_unit_zero (S := S1024x64) _ r5_hz]
  simp only [View.readAt_eq_ld, harg2.read_unread, harg3.read_unread, harg5.read_unread, View.ld_unit_zero (S := S1024x2048) r5_hz, View.ld_unit_zero (S := S2048x64) r5_hz, View.ld_unit_zero (S := S1024x64) r5_hz]

set_option maxHeartbeats 4000000 in
/-- A middle step: the accumulator takes one more stretch's product. -/
theorem r5_run_B (c : Dev nD) (i : grid5.Coords) (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x2048 .f32) (x1 : Vec F S2048x64 .f32) (E : Set ℕ) (K : PUnit → sProp 𝕄)
    (hc0 : ¬r5_cond0 i) (hc1 : ¬r5_cond1 i) (xs0 xi2 : Vec F S1024x64 .f32) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 x0 x1 xs0)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => View.cover_of_tiledL _ S1024x64.size (by sl_kernel_rfl) y)]
  try sl_unfold_words
  rw [View.canon_unit_zero r5_hz]
  simp only [View.readAt_eq_ld, harg2.read_unread, harg3.read_unread, harg5.read_unread, View.ld_unit_zero (S := S1024x2048) r5_hz, View.ld_unit_zero (S := S2048x64) r5_hz, View.ld_unit_zero (S := S1024x64) r5_hz]

set_option maxHeartbeats 4000000 in
/-- A last step: the accumulator takes the last stretch's product and its closing value is stored into the result block. -/
theorem r5_run_C (c : Dev nD) (i : grid5.Coords) (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x2048 .f32) (x1 : Vec F S2048x64 .f32) (E : Set ℕ) (K : PUnit → sProp 𝕄)
    (hc0 : ¬r5_cond0 i) (hc1 : r5_cond1 i) (xs0 : Vec F S1024x64 .f32) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k5_pay3 (k5_pay2 x0 x1 xs0)) ∗ owns (c : Thread nD τ) arg5 fullShare (k5_pay2 x0 x1 xs0)) -∗ K ⟨⟩))
      ⊢ wp frame (wpE (defs₀ (F := F)) Variants.none c none) E (cc5_kernel i arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => View.cover_of_tiledL _ S1024x64.size (by sl_kernel_rfl) y)]
    try sl_unfold_words
    rw [View.canon_unit_zero r5_hz, View.readCov_unit_zero (S := S1024x64) _ r5_hz]
    simp only [View.readAt_eq_ld, harg2.read_unread, harg3.read_unread, harg5.read_unread, View.ld_unit_zero (S := S1024x2048) r5_hz, View.ld_unit_zero (S := S2048x64) r5_hz, View.ld_unit_zero (S := S1024x64) r5_hz]
  iexists _; isplitr
  swap; · iexact HS0
  ipureintro
  rw [View.read_writes_eq_canon _ _ _ (fun y => View.cover_of_tiledL _ S1024x64.size (by sl_kernel_rfl) y)]
  try sl_unfold_words
  rw [View.canon_unit_zero r5_hz]
  simp only [View.readAt_eq_ld, harg2.read_unread, harg3.read_unread, harg5.read_unread, View.ld_unit_zero (S := S1024x2048) r5_hz, View.ld_unit_zero (S := S2048x64) r5_hz, View.ld_unit_zero (S := S1024x64) r5_hz]

end Cert.KernelIdeal.Hand

end
-- ==== Proof.Hand.R5.lean ====
import proofs.«108687_j68341519613982_1_alg».proof.Proof.Hand.R5b

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

abbrev r5_blk0 (c : Dev nD) (t : Fin cfg5.N) : Vec F S1024x2048 .f32 := r5_iblk V c 0 t
abbrev r5_blk1 (c : Dev nD) (t : Fin cfg5.N) : Vec F S2048x64 .f32 := r5_iblk V c 1 t

/-- The accumulator after step n = 4 i + k: zero plus the stretches 0 … k of row block i, added one after the other. -/
def r5_accAt (c : Dev nD) : (n : ℕ) → n < cfg5.N → Vec F S1024x64 .f32
  | 0, hn => k5_pay2 (r5_blk0 V c ⟨0, hn⟩) (r5_blk1 V c ⟨0, hn⟩) k5_pay1
  | n + 1, hn => k5_pay2 (r5_blk0 V c ⟨n + 1, hn⟩) (r5_blk1 V c ⟨n + 1, hn⟩)
      (if (n + 1) % 4 = 0 then k5_pay1 else r5_accAt c n (Nat.lt_of_succ_lt hn))

/-- The result block (where k = 3 the accumulator's closing value; elsewhere not used) and the accumulator, after step n. -/
def r5_outsAt (c : Dev nD) (n : ℕ) (hn : n < cfg5.N) : Vec F S1024x64 .f32 × Vec F S1024x64 .f32 :=
  (if n % 4 = 3 then k5_pay3 (r5_accAt V c n hn) else r5_accAt V c n hn, r5_accAt V c n hn)

theorem r5_acc_first (c : Dev nD) (t : Fin cfg5.N) (h0 : t.val % 4 = 0) :
    (r5_outsAt V c t.val t.isLt).2 = k5_pay2 (r5_blk0 V c t) (r5_blk1 V c t) (k5_pay1 (F := F)) := by
  obtain ⟨n, hn⟩ := t
  cases n with
  | zero => rfl
  | succ n => show r5_accAt V c (n + 1) hn = _; exact congrArg _ (if_pos h0)

theorem r5_acc_next (c : Dev nD) (t : Fin cfg5.N) (h0 : ¬t.val % 4 = 0) :
    (r5_outsAt V c t.val t.isLt).2 = k5_pay2 (r5_blk0 V c t) (r5_blk1 V c t) (r5_outsAt V c (t.val - 1) (Nat.lt_of_le_of_lt (Nat.sub_le _ _) t.isLt)).2 := by
  obtain ⟨n, hn⟩ := t
  cases n with
  | zero => exact absurd (Nat.zero_mod _) h0
  | succ n => show r5_accAt V c (n + 1) hn = _; exact congrArg _ (if_neg h0)

theorem r5_out_last (c : Dev nD) (t : Fin cfg5.N) (h0 : ¬t.val % 4 = 0) (h1 : t.val % 4 = 3) :
    (r5_outsAt V c t.val t.isLt).1 = k5_pay3 (r5_outsAt V c t.val t.isLt).2 := if_pos h1

/-- Before step n: the plain invariant before the first; afterwards the accumulator owned at what the step before left. -/
def r5_PhiS (c : Dev nD) : (n : ℕ) → n ≤ cfg5.N → sProp 𝕄
  | 0, _ => Pipeline.ΦA spec5 c
  | n + 1, hn => iprop(iprop(owns (c : Thread nD τ) r5_scM fullShare ((r5_outsAt V c n hn).2) ∗ Pipeline.scopedRestBut spec5 c [cc5_scratch0]) ∗ (∃ r, prngReg c r))

theorem r5_PhiS_pos (c : Dev nD) (n : ℕ) (h : n ≤ cfg5.N) (hz : n ≠ 0) :
    r5_PhiS V c n h = iprop(iprop(owns (c : Thread nD τ) r5_scM fullShare ((r5_outsAt V c (n - 1) (by omega)).2) ∗ Pipeline.scopedRestBut spec5 c [cc5_scratch0]) ∗ (∃ r, prngReg c r)) := by
  cases n with
  | zero => exact absurd rfl hz
  | succ n => rfl

/-- At any step the invariant owns the accumulator at something. -/
theorem r5_PhiS_any (c : Dev nD) (n : ℕ) (h : n ≤ cfg5.N) :
    r5_PhiS V c n h ⊢ iprop(iprop((∃ d, owns (c : Thread nD τ) r5_scM fullShare d) ∗ Pipeline.scopedRestBut spec5 c [cc5_scratch0]) ∗ (∃ r, prngReg c r)) := by
  cases n with
  | zero => rw [show r5_PhiS V c 0 h = Pipeline.ΦA spec5 c from rfl, r5_PhiA_eq]; try exact Idealize.SL.BI.Entails.refl _
  | succ n =>
    rw [show r5_PhiS V c (n + 1) h = iprop(iprop(owns (c : Thread nD τ) r5_scM fullShare ((r5_outsAt V c n h).2) ∗ Pipeline.scopedRestBut spec5 c [cc5_scratch0]) ∗ (∃ r, prngReg c r)) from rfl]
    iintro ⟨⟨HS, HR⟩, Hg⟩
    isplitl [HS HR]
    · isplitl [HS]
      · iexists _; iexact HS
      iexact HR
    iexact Hg

def r5_dat (c : Dev nD) : Dat τ (Elt F) Unit ℕ (UR sig nD τ) ℕ cfg5 c where
  A w := V c (Pipeline.arrRef spec5 w)
  after w t := match w with
    | ⟨0, _⟩ => r5_iblk V c 0 t
    | ⟨1, _⟩ => r5_iblk V c 1 t
    | ⟨2, _⟩ => (r5_outsAt V c t.val t.isLt).1
  Φ t := r5_PhiS V c t.val (Nat.le_of_lt_succ t.isLt)
  q _ := fullShare
  owed _ := 0

theorem r5_A_eq (c : Dev nD) (w : Fin cfg5.W) : (r5_dat V c).A w = V c (Pipeline.arrRef spec5 w) := by
  dsimp only [r5_dat]

theorem r5_PhiS_castSucc (c : Dev nD) (t : Fin cfg5.N) :
    (r5_dat V c).Φ t.castSucc = r5_PhiS V c t.val (Nat.le_of_lt t.isLt) := by
  dsimp only [r5_dat]; simp only [Fin.coe_castSucc]

theorem r5_after0 (c : Dev nD) (t : Fin cfg5.N) : (r5_dat V c).after 0 t = r5_iblk V c 0 t := by dsimp only [r5_dat]
theorem r5_after1 (c : Dev nD) (t : Fin cfg5.N) : (r5_dat V c).after 1 t = r5_iblk V c 1 t := by dsimp only [r5_dat]
theorem r5_after2 (c : Dev nD) (t : Fin cfg5.N) : (r5_dat V c).after 2 t = (r5_outsAt V c t.val t.isLt).1 := by dsimp only [r5_dat]

theorem r5_before0 (c : Dev nD) (t : Fin cfg5.N) (d) : (r5_dat V c).before 0 t d = r5_iblk V c 0 t :=
  (r5_dat V c).before_in_eq_fetched 0 rfl (fun _ => rfl) (fun _ _ _ => rfl) (fun _ => rfl) t d
theorem r5_before1 (c : Dev nD) (t : Fin cfg5.N) (d) : (r5_dat V c).before 1 t d = r5_iblk V c 1 t :=
  (r5_dat V c).before_in_eq_fetched 1 rfl (fun _ => rfl) (fun _ _ _ => rfl) (fun _ => rfl) t d

def r5_bodyPre (c : Dev nD) (t : Fin cfg5.N) : sProp 𝕄 :=
  iprop((r5_dat V c).Φ t.castSucc ∗ (r5_dat V c).owesAt () t.castSucc
    ∗ (∃ d, owns (c : Thread nD τ) (r5_ms0 t) fullShare ((r5_dat V c).before 0 t d))
    ∗ (∃ d, owns (c : Thread nD τ) (r5_ms1 t) fullShare ((r5_dat V c).before 1 t d))
    ∗ (∃ d, owns (c : Thread nD τ) (r5_ms2 t) fullShare ((r5_dat V c).before 2 t d)))

def r5_bodyPost (c : Dev nD) (t : Fin cfg5.N) : sProp 𝕄 :=
  iprop((r5_dat V c).Φ t.succ ∗ (r5_dat V c).owesAt () t.succ
    ∗ (r5_dat V c).leavesExact 0 t
    ∗ (r5_dat V c).leavesExact 1 t
    ∗ (r5_dat V c).leavesExact 2 t)

set_option maxHeartbeats 4800000 in
/-- The body at any step, by the step's k: the invariant lends the accumulator and takes it back at this step's contents. -/
theorem r5_sound_body (c : Dev nD) (t : Fin cfg5.N) :
    r5_bodyPre V c t ⊢ wp frame (wpE (defs₀ (F := F)) Variants.none c none) Set.univ (bodyAt5 t) (fun _ => r5_bodyPost V c t) := by
  unfold r5_bodyPre r5_bodyPost bodyAt5
  simp only [r5_before0, r5_before1]
  rw [show (r5_dat V c).owesAt () t.succ = (r5_dat V c).owesAt () t.castSucc from rfl]
  rw [show (r5_dat V c).Φ t.succ = iprop(iprop(owns (c : Thread nD τ) r5_scM fullShare ((r5_outsAt V c t.val t.isLt).2) ∗ Pipeline.scopedRestBut spec5 c [cc5_scratch0]) ∗ (∃ r, prngReg c r)) from rfl]
  rw [show (r5_dat V c).leavesExact 0 t = owns (c : Thread nD τ) (r5_ms0 t) fullShare ((r5_dat V c).after 0 t) from by
    unfold Dat.leavesExact; rw [r5_liveAt0 t], r5_after0]
  rw [show (r5_dat V c).leavesExact 1 t = owns (c : Thread nD τ) (r5_ms1 t) fullShare ((r5_dat V c).after 1 t) from by
    unfold Dat.leavesExact; rw [r5_liveAt1 t], r5_after1]
  rw [r5_PhiS_castSucc V c t]
  by_cases h0 : t.val % 4 = 0
  · have h1 : ¬t.val % 4 = 3 := by omega
    rw [Dat.leavesExact_idle (r5_dat V c) 2 t (r5_idleAt2 t (fun h => h1 ((r5_hcond1 t).mp h))) (r5_noFlush2 t (fun h => h1 ((r5_hcond1 t).mp h))), r5_acc_first V c t h0]
    iintro ⟨HP, Ho, ⟨%d0, H0⟩, ⟨%d1, H1⟩, ⟨%d2, H2⟩⟩
    ihave ⟨⟨HS, HR⟩, Hg⟩ := (r5_PhiS_any V c _ _) $$ HP
    iapply (r5_run_A c (grid5.coords t) _ _ _ _ _ _ _ _ (r5_blk0 V c t) (r5_blk1 V c t) Set.univ _ ((r5_hcond0 t).mpr h0) (fun h => h1 ((r5_hcond1 t).mp h)) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · rw [r5_PhiS_pos V c _ _ (fun e => h0 (by rw [e]))]
    by_cases h1 : t.val % 4 = 3
    · rw [show (r5_dat V c).leavesExact 2 t = owns (c : Thread nD τ) (r5_ms2 t) fullShare ((r5_dat V c).after 2 t) from by
        unfold Dat.leavesExact; rw [r5_liveAt2 t ((r5_hcond1 t).mpr h1)], r5_after2, r5_out_last V c t h0 h1, r5_acc_next V c t h0]
      iintro ⟨⟨⟨HS, HR⟩, Hg⟩, Ho, ⟨%d0, H0⟩, ⟨%d1, H1⟩, ⟨%d2, H2⟩⟩
      iapply (r5_run_C c (grid5.coords t) _ _ _ _ _ _ _ _ (r5_blk0 V c t) (r5_blk1 V c t) Set.univ _ (fun h => h0 ((r5_hcond0 t).mp h)) ((r5_hcond1 t).mpr h1) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (r5_dat V c) 2 t (r5_idleAt2 t (fun h => h1 ((r5_hcond1 t).mp h))) (r5_noFlush2 t (fun h => h1 ((r5_hcond1 t).mp h))), r5_acc_next V c t h0]
      iintro ⟨⟨⟨HS, HR⟩, Hg⟩, Ho, ⟨%d0, H0⟩, ⟨%d1, H1⟩, ⟨%d2, H2⟩⟩
      iapply (r5_run_B c (grid5.coords t) _ _ _ _ _ _ _ _ (r5_blk0 V c t) (r5_blk1 V c t) Set.univ _ (fun h => h0 ((r5_hcond0 t).mp h)) (fun h => h1 ((r5_hcond1 t).mp h)) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem r5_body_obligation (c : Dev nD) : BodyObligation (r5_dat (F := F) V c) (defs₀ (F := F)) Variants.none () Set.univ := fun t => by
  rw [bigSep_W5, bigSep_W5]
  exact r5_sound_body V c t

theorem r5_hout (c : Dev nD) : (r5_dat V c).Φ (Fin.last cfg5.N) ⊢ (Pipeline.ΦA spec5 c : sProp 𝕄) := by
  rw [show (r5_dat V c).Φ (Fin.last cfg5.N) = r5_PhiS V c (Fin.last cfg5.N).val (Nat.le_of_lt_succ (Fin.last cfg5.N).isLt) from rfl, r5_PhiA_eq]
  exact r5_PhiS_any V c _ _

def region5 : Region (F := F) cfg5 V where
  dat := r5_dat V
  A_eq := r5_A_eq V
  body := r5_body_obligation V
  q_full := fun _ _ => rfl
  owed_zero := fun _ _ => rfl
  recorded_univ := fun _ => rfl
  phi_in := fun _ => .rfl
  phi_out := r5_hout V

end Frame

end Cert.KernelIdeal.Hand

end
-- ==== Proof.Hand.RunA.lean ====
import proofs.«108687_j68341519613982_1_alg».proof.Proof.Hand.Iface

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {cfg : Cfg sig Λ₀} (r : ∀ V, Region (F := F) cfg V) (W : Dev nD → Valuation τ sig (Elt F)) (c : Dev nD)

/-- A core's buffers read at the TensorCore's references. -/
abbrev Vof (W : Dev nD → Valuation τ sig (Elt F)) : (c : Dev nD) → (b : Ref sig .tc) → Buf (Elt F) ((c : Thread nD τ).loc b) := fun c b => W c b

/-- The buffers after a launch entered at `W`: its arrays at what its pipeline leaves, every other buffer as before. -/
def step : Valuation τ sig (Elt F) :=
  Pipeline.withArrays cfg.spec c (W c) fun w => ((r (Vof W)).dat c).arrAt w cfg.N

theorem step_arr (hw : Pipeline.WinFacts cfg.spec) (w : Fin cfg.W) :
    step r W c (Proc.devRef .tc (Pipeline.arrRef cfg.spec w)) = ((r (Vof W)).dat c).arrAt w cfg.N :=
  Pipeline.withArrays_arr cfg.spec hw.arr_inj c _ _ w

theorem step_of_ne (b : Ref sig .tc) (hb : ∀ w, Pipeline.arrRef cfg.spec w ≠ b) :
    step r W c (Proc.devRef .tc b) = W c (Proc.devRef .tc b) :=
  Pipeline.withArrays_of_ne cfg.spec c _ _ b hb

/-- `b` is no output window's array of the launch. -/
abbrev Keeps (cfg : Cfg sig Λ₀) (b : Ref sig .tc) : Prop := ∀ w, Pipeline.arrRef cfg.spec w = b → (cfg.win w).isOut = false

/-- A launch changes no array but those of its output windows. -/
theorem step_same (hw : Pipeline.WinFacts cfg.spec) (b : Ref sig .tc) (hb : Keeps cfg b) :
    step r W c (Proc.devRef .tc b) = W c (Proc.devRef .tc b) := by
  by_cases h : ∃ w, Pipeline.arrRef cfg.spec w = b
  · obtain ⟨w, rfl⟩ := h
    exact (step_arr r W c hw w).trans ((((r _).dat c).arrAt_in w (hb w rfl) _).trans ((r _).A_eq c w))
  · exact step_of_ne r W c b fun w e => h ⟨w, e⟩

end

variable (r0 : ∀ V, Region (F := F) cfg0 V) (r1 : ∀ V, Region (F := F) cfg1 V) (r2 : ∀ V, Region (F := F) cfg2 V)
  (r3 : ∀ V, Region (F := F) cfg3 V) (r4 : ∀ V, Region (F := F) cfg4 V) (r5 : ∀ V, Region (F := F) cfg5 V)
variable (m : (ℓ : Loc nD τ sig) → Buf (Elt F) ℓ)

/-- The buffers between the program's items, from the launch memory: launch 0, a reshape, launches 1 to 3, a reshape, launches 4 and 5. -/
abbrev W0 : Dev nD → Valuation τ sig (Elt F) := fun c b => m ((c : Dev nD), b)
abbrev W1 := step r0 (W0 m)
abbrev W2 : Dev nD → Valuation τ sig (Elt F) := fun c => StableHlo.after hostOps1 (W1 r0 m c)
abbrev W3 := step r1 (W2 r0 m)
abbrev W4 := step r2 (W3 r0 r1 m)
abbrev W5 := step r3 (W4 r0 r1 r2 m)
abbrev W6 : Dev nD → Valuation τ sig (Elt F) := fun c => StableHlo.after hostOps4 (W5 r0 r1 r2 r3 m c)
abbrev W7 := step r4 (W6 r0 r1 r2 r3 m)
abbrev W8 := step r5 (W7 r0 r1 r2 r3 r4 m)

theorem W1_arr (c : Dev nD) (w : Fin cfg0.W) :
    W1 r0 m c (Proc.devRef .tc (Pipeline.arrRef cfg0.spec w)) = ((r0 (Vof (W0 m))).dat c).arrAt w cfg0.N :=
  step_arr r0 _ c winFacts0 w
theorem W1_same (c : Dev nD) (b : Ref sig .tc) (hb : Keeps cfg0 b) :
    W1 r0 m c (Proc.devRef .tc b) = W0 m c (Proc.devRef .tc b) :=
  step_same r0 _ c winFacts0 b hb
theorem W3_arr (c : Dev nD) (w : Fin cfg1.W) :
    W3 r0 r1 m c (Proc.devRef .tc (Pipeline.arrRef cfg1.spec w)) = ((r1 (Vof (W2 r0 m))).dat c).arrAt w cfg1.N :=
  step_arr r1 _ c winFacts1 w
theorem W3_same (c : Dev nD) (b : Ref sig .tc) (hb : Keeps cfg1 b) :
    W3 r0 r1 m c (Proc.devRef .tc b) = W2 r0 m c (Proc.devRef .tc b) :=
  step_same r1 _ c winFacts1 b hb
theorem W4_arr (c : Dev nD) (w : Fin cfg2.W) :
    W4 r0 r1 r2 m c (Proc.devRef .tc (Pipeline.arrRef cfg2.spec w)) = ((r2 (Vof (W3 r0 r1 m))).dat c).arrAt w cfg2.N :=
  step_arr r2 _ c winFacts2 w
theorem W4_same (c : Dev nD) (b : Ref sig .tc) (hb : Keeps cfg2 b) :
    W4 r0 r1 r2 m c (Proc.devRef .tc b) = W3 r0 r1 m c (Proc.devRef .tc b) :=
  step_same r2 _ c winFacts2 b hb
theorem W5_arr (c : Dev nD) (w : Fin cfg3.W) :
    W5 r0 r1 r2 r3 m c (Proc.devRef .tc (Pipeline.arrRef cfg3.spec w)) = ((r3 (Vof (W4 r0 r1 r2 m))).dat c).arrAt w cfg3.N :=
  step_arr r3 _ c winFacts3 w
theorem W5_same (c : Dev nD) (b : Ref sig .tc) (hb : Keeps cfg3 b) :
    W5 r0 r1 r2 r3 m c (Proc.devRef .tc b) = W4 r0 r1 r2 m c (Proc.devRef .tc b) :=
  step_same r3 _ c winFacts3 b hb
theorem W7_arr (c : Dev nD) (w : Fin cfg4.W) :
    W7 r0 r1 r2 r3 r4 m c (Proc.devRef .tc (Pipeline.arrRef cfg4.spec w)) = ((r4 (Vof (W6 r0 r1 r2 r3 m))).dat c).arrAt w cfg4.N :=
  step_arr r4 _ c winFacts4 w
theorem W7_same (c : Dev nD) (b : Ref sig .tc) (hb : Keeps cfg4 b) :
    W7 r0 r1 r2 r3 r4 m c (Proc.devRef .tc b) = W6 r0 r1 r2 r3 m c (Proc.devRef .tc b) :=
  step_same r4 _ c winFacts4 b hb
theorem W8_arr (c : Dev nD) (w : Fin cfg5.W) :
    W8 r0 r1 r2 r3 r4 r5 m c (Proc.devRef .tc (Pipeline.arrRef cfg5.spec w)) = ((r5 (Vof (W7 r0 r1 r2 r3 r4 m))).dat c).arrAt w cfg5.N :=
  step_arr r5 _ c winFacts5 w
theorem W8_same (c : Dev nD) (b : Ref sig .tc) (hb : Keeps cfg5 b) :
    W8 r0 r1 r2 r3 r4 r5 m c (Proc.devRef .tc b) = W7 r0 r1 r2 r3 r4 m c (Proc.devRef .tc b) :=
  step_same r5 _ c winFacts5 b hb

theorem W2_of_ne (c : Dev nD) (b : Ref sig .tc) (hb : b ≠ main_v1) :
    W2 r0 m c (Proc.devRef .tc b) = W1 r0 m c (Proc.devRef .tc b) :=
  StableHlo.reshape_result_ne main_arg4 main_v1 rfl shapeCasts_S8192_S8192x1 _ _ (W1 r0 m c) hb
theorem W2_main_v1 (c : Dev nD) :
    W2 r0 m c (Proc.devRef .tc main_v1)
      = fun i => shapeCast main_v1.ty.shape (W1 r0 m c (Proc.devRef .tc main_arg4)) shapeCasts_S8192_S8192x1 i :=
  by dsimp only [W2, hostOps1]; after_results

theorem W6_of_ne (c : Dev nD) (b : Ref sig .tc) (hb : b ≠ main_v5) :
    W6 r0 r1 r2 r3 m c (Proc.devRef .tc b) = W5 r0 r1 r2 r3 m c (Proc.devRef .tc b) :=
  StableHlo.reshape_result_ne main_arg6 main_v5 rfl shapeCasts_S8192_S8192x1 _ _ (W5 r0 r1 r2 r3 m c) hb
theorem W6_main_v5 (c : Dev nD) :
    W6 r0 r1 r2 r3 m c (Proc.devRef .tc main_v5)
      = fun i => shapeCast main_v5.ty.shape (W5 r0 r1 r2 r3 m c (Proc.devRef .tc main_arg6)) shapeCasts_S8192_S8192x1 i :=
  by dsimp only [W6, hostOps4]; after_results

end Cert.KernelIdeal.Hand

end
-- ==== Proof.Hand.RunB.lean ====
import proofs.«108687_j68341519613982_1_alg».proof.Proof.Hand.RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev admNone : (p : Fin 6) → (pcfgs (F := F) p).Adm := fun p => (cfgs p).toPCfg_adm
abbrev 𝒱n : Variants := Variants.none

abbrev Ln : GSem nD τ sig → Finset Unit := fun _ => ∅
abbrev lvn : GSem nD τ sig → Unit → ℕ := fun _ _ => 0

abbrev Rest (c : Dev nD) : sProp 𝕄 :=
  iprop((∃ r, prngReg c r) ∗ ∃ W, owes (c : Thread nD τ) (0 : CellTallies nD τ sig Unit) W)

theorem rest_regroup (A : sProp 𝕄) (c : Dev nD) :
    iprop(A ∗ Rest c) ⊢ iprop(iprop(A ∗ ∃ r, prngReg c r) ∗ ∃ W, owes (c : Thread nD τ) (0 : CellTallies nD τ sig Unit) W) := by
  iintro ⟨HA, Hreg, Howes⟩
  isplitr [Howes]
  · isplitl [HA]; · iexact HA
    iexact Hreg
  iexact Howes

section OneLaunch

variable (pd : (p : Fin 6) → (c : Dev nD) → Dat τ (Elt F) Unit ℕ (UR sig nD τ) ℕ (Pipeline.pin (pcfgs (F := F)) admNone p) c)

set_option backward.isDefEq.respectTransparency.types false in

def regOf (p : Fin 6) (lf : Pipeline.LaunchFacts (nD := nD) (τ := τ) cfgs p)
    (Win Wout : Dev nD → Valuation τ sig (Elt F))
    (hA : ∀ c w, (pd p c).A w = Win c (Proc.devRef .tc (Pipeline.arrRef (Pipeline.pin (pcfgs (F := F)) admNone p).spec w)))
    (hq : ∀ c w, (pd p c).q w = fullShare)
    (howed : ∀ c t, (pd p c).owed t = 0)
    (hrec : ∀ c, (pd p c).recorded 0 = Set.univ)
    (hbody : ∀ c, BodyObligation (pd p c) (defs₀ (F := F)) Variants.none () Set.univ)
    (hphi_in : ∀ c, (Pipeline.ΦA (Pipeline.pin (pcfgs (F := F)) admNone p).spec c : sProp 𝕄) ⊢ (pd p c).Φ 0)
    (hphi_out : ∀ c, (pd p c).Φ (Fin.last (Pipeline.pin (pcfgs (F := F)) admNone p).N) ⊢ (Pipeline.ΦA (Pipeline.pin (pcfgs (F := F)) admNone p).spec c : sProp 𝕄))
    (hF : ∀ c w, (pd p c).arrAt w (Pipeline.pin (pcfgs (F := F)) admNone p).N = Wout c (Proc.devRef .tc (Pipeline.arrRef (Pipeline.pin (pcfgs (F := F)) admNone p).spec w)))
    (hrest : ∀ c (b : Ref sig .tc), (∀ w, Pipeline.arrRef (Pipeline.pin (pcfgs (F := F)) admNone p).spec w ≠ b) → Wout c (Proc.devRef .tc b) = Win c (Proc.devRef .tc b)) :
    Pipeline.RegionSeg (pcfgs (F := F)) admNone pd () defs₀ 𝒱n Ln lvn p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Ln lvn p howed
  pre c := iprop(StableHlo.held (c : Thread nD τ) (Pipeline.ucRefs τ sig) (Win c) ∗ Rest c)
  post c := iprop(StableHlo.held (c : Thread nD τ) (Pipeline.ucRefs τ sig) (Wout c) ∗ Rest c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admNone p).spec c (fun b => Win c b)
  hentry c := by
    rw [Pipeline.ownSems0_none]
    have hsplit := Pipeline.arrays_of_unscopedBufs (p := p) (pcfgs (F := F)) admNone pd lf.win lf.arr_whole c
      ((pd p c).share_full (hq c)) (fun b => Win c b) (hA c)
    rw [Pipeline.unscopedBufs_held] at hsplit
    iintro ⟨⟨Hbufs, Hreg, Howes⟩, -, -⟩
    ihave H := hsplit $$ Hbufs
    icases H with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      rw [howed c 0]
      icases Howes with ⟨%W, Howes⟩; iexists W
      isplitr; · ipureintro; exact fun x _ => Or.inl (show x ∈ (pd p c).recorded 0 from (hrec c) ▸ Set.mem_univ x)
      iexact Howes
    isplitl [Hreg]; · iexact Hreg
    iexact Hother
  hin c := by
    refine BIBase.Entails.trans ?_ (hphi_in c)
    unfold Pipeline.ΦA
    iintro ⟨Hreg, -, Hscoped⟩
    isplitl [Hscoped]; · iexact Hscoped
    iexact Hreg
  hout c := by
    refine BIBase.Entails.trans (hphi_out c) ?_
    rw [Pipeline.ownSems0_none]; unfold Pipeline.ΦA
    iintro ⟨Hscoped, Hreg⟩
    isplitl [Hreg]; · iexact Hreg
    isplitr; · iempintro
    iexact Hscoped
  hexit c := by
    have hjoin := Pipeline.unscopedBufs_of_arrays (p := p) (pcfgs (F := F)) admNone (Ix := Unit) (Name := ℕ) (U := UR sig nD τ) (Lvl := ℕ)
      lf.win lf.arr_whole c pd ((pd p c).share_full (hq c))
      (fun b => Win c b) (fun b => Wout c b) ((pd p c).arrAt · (Pipeline.pin (pcfgs (F := F)) admNone p).N) (hF c)
      (fun b hb => hrest c b fun w e => hb (Finset.mem_image.mpr ⟨w, Finset.mem_univ _, e⟩))
    rw [Pipeline.unscopedBufs_held] at hjoin
    iintro ⟨Harr, Howes, Hreg, Hother⟩
    imodintro
    isplitl [Harr Hother]
    · iapply hjoin; isplitl [Harr] <;> iassumption
    isplitl [Hreg]; · iexact Hreg
    unfold Pipeline.Dat.owesAt Pipeline.owesWithin
    rw [howed c (Fin.last _)]
    icases Howes with ⟨%W, -, Howes⟩; iexists W; iexact Howes

end OneLaunch

variable (r0 : ∀ V, Region (F := F) cfg0 V) (r1 : ∀ V, Region (F := F) cfg1 V) (r2 : ∀ V, Region (F := F) cfg2 V)
  (r3 : ∀ V, Region (F := F) cfg3 V) (r4 : ∀ V, Region (F := F) cfg4 V) (r5 : ∀ V, Region (F := F) cfg5 V)
variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) admNone p) c
  | ⟨0, _⟩ => (r0 (Vof (W0 m))).dat
  | ⟨1, _⟩ => (r1 (Vof (W2 r0 m))).dat
  | ⟨2, _⟩ => (r2 (Vof (W3 r0 r1 m))).dat
  | ⟨3, _⟩ => (r3 (Vof (W4 r0 r1 r2 m))).dat
  | ⟨4, _⟩ => (r4 (Vof (W6 r0 r1 r2 r3 m))).dat
  | ⟨5, _⟩ => (r5 (Vof (W7 r0 r1 r2 r3 r4 m))).dat

def reg0 := regOf (pdats r0 r1 r2 r3 r4 r5 m) 0 launch0 (W0 m) (W1 r0 m) (r0 (Vof (W0 m))).A_eq (r0 (Vof (W0 m))).q_full (r0 (Vof (W0 m))).owed_zero
  (r0 (Vof (W0 m))).recorded_univ (r0 (Vof (W0 m))).body (r0 (Vof (W0 m))).phi_in (r0 (Vof (W0 m))).phi_out
  (fun c w => (step_arr r0 (W0 m) c winFacts0 w).symm) (step_of_ne r0 (W0 m))

def reg1 := regOf (pdats r0 r1 r2 r3 r4 r5 m) 1 launch1 (W2 r0 m) (W3 r0 r1 m) (r1 (Vof (W2 r0 m))).A_eq (r1 (Vof (W2 r0 m))).q_full (r1 (Vof (W2 r0 m))).owed_zero
  (r1 (Vof (W2 r0 m))).recorded_univ (r1 (Vof (W2 r0 m))).body (r1 (Vof (W2 r0 m))).phi_in (r1 (Vof (W2 r0 m))).phi_out
  (fun c w => (step_arr r1 (W2 r0 m) c winFacts1 w).symm) (step_of_ne r1 (W2 r0 m))

def reg2 := regOf (pdats r0 r1 r2 r3 r4 r5 m) 2 launch2 (W3 r0 r1 m) (W4 r0 r1 r2 m) (r2 (Vof (W3 r0 r1 m))).A_eq (r2 (Vof (W3 r0 r1 m))).q_full (r2 (Vof (W3 r0 r1 m))).owed_zero
  (r2 (Vof (W3 r0 r1 m))).recorded_univ (r2 (Vof (W3 r0 r1 m))).body (r2 (Vof (W3 r0 r1 m))).phi_in (r2 (Vof (W3 r0 r1 m))).phi_out
  (fun c w => (step_arr r2 (W3 r0 r1 m) c winFacts2 w).symm) (step_of_ne r2 (W3 r0 r1 m))

def reg3 := regOf (pdats r0 r1 r2 r3 r4 r5 m) 3 launch3 (W4 r0 r1 r2 m) (W5 r0 r1 r2 r3 m) (r3 (Vof (W4 r0 r1 r2 m))).A_eq (r3 (Vof (W4 r0 r1 r2 m))).q_full (r3 (Vof (W4 r0 r1 r2 m))).owed_zero
  (r3 (Vof (W4 r0 r1 r2 m))).recorded_univ (r3 (Vof (W4 r0 r1 r2 m))).body (r3 (Vof (W4 r0 r1 r2 m))).phi_in (r3 (Vof (W4 r0 r1 r2 m))).phi_out
  (fun c w => (step_arr r3 (W4 r0 r1 r2 m) c winFacts3 w).symm) (step_of_ne r3 (W4 r0 r1 r2 m))

def reg4 := regOf (pdats r0 r1 r2 r3 r4 r5 m) 4 launch4 (W6 r0 r1 r2 r3 m) (W7 r0 r1 r2 r3 r4 m) (r4 (Vof (W6 r0 r1 r2 r3 m))).A_eq (r4 (Vof (W6 r0 r1 r2 r3 m))).q_full (r4 (Vof (W6 r0 r1 r2 r3 m))).owed_zero
  (r4 (Vof (W6 r0 r1 r2 r3 m))).recorded_univ (r4 (Vof (W6 r0 r1 r2 r3 m))).body (r4 (Vof (W6 r0 r1 r2 r3 m))).phi_in (r4 (Vof (W6 r0 r1 r2 r3 m))).phi_out
  (fun c w => (step_arr r4 (W6 r0 r1 r2 r3 m) c winFacts4 w).symm) (step_of_ne r4 (W6 r0 r1 r2 r3 m))

def reg5 := regOf (pdats r0 r1 r2 r3 r4 r5 m) 5 launch5 (W7 r0 r1 r2 r3 r4 m) (W8 r0 r1 r2 r3 r4 r5 m) (r5 (Vof (W7 r0 r1 r2 r3 r4 m))).A_eq (r5 (Vof (W7 r0 r1 r2 r3 r4 m))).q_full (r5 (Vof (W7 r0 r1 r2 r3 r4 m))).owed_zero
  (r5 (Vof (W7 r0 r1 r2 r3 r4 m))).recorded_univ (r5 (Vof (W7 r0 r1 r2 r3 r4 m))).body (r5 (Vof (W7 r0 r1 r2 r3 r4 m))).phi_in (r5 (Vof (W7 r0 r1 r2 r3 r4 m))).phi_out
  (fun c w => (step_arr r5 (W7 r0 r1 r2 r3 r4 m) c winFacts5 w).symm) (step_of_ne r5 (W7 r0 r1 r2 r3 r4 m))

theorem reshape1_allocates_nothing : (hostOps1 : List (HloOp τ sig (Elt F))).Forall fun op => op.fresh = ∅ := by
  simp only [List.Forall]; repeat' constructor
theorem reshape4_allocates_nothing : (hostOps4 : List (HloOp τ sig (Elt F))).Forall fun op => op.fresh = ∅ := by
  simp only [List.Forall]; repeat' constructor

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev items : List (Pipeline.Seg (pcfgs (F := F)) admNone (pdats r0 r1 r2 r3 r4 r5 m) () defs₀ 𝒱n Ln lvn) :=
  [ .region (reg0 r0 r1 r2 r3 r4 r5 m),
    .host (hostItem hostOps1 hostOps1_sub reshape1_allocates_nothing (W1 r0 m)),
    .region (reg1 r0 r1 r2 r3 r4 r5 m),
    .region (reg2 r0 r1 r2 r3 r4 r5 m),
    .region (reg3 r0 r1 r2 r3 r4 r5 m),
    .host (hostItem hostOps4 hostOps4_sub reshape4_allocates_nothing (W5 r0 r1 r2 r3 m)),
    .region (reg4 r0 r1 r2 r3 r4 r5 m),
    .region (reg5 r0 r1 r2 r3 r4 r5 m) ]

theorem main_items (c : Dev nD) : main (F := F) c = Pipeline.Seg.run (items r0 r1 r2 r3 r4 r5 m) :=
  main_segs admNone (pdats r0 r1 r2 r3 r4 r5 m) () 𝒱n Ln lvn _ _ _ _ _ _ _ _ rfl rfl c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 :=
  iprop(StableHlo.held (c : Thread nD τ) (Pipeline.ucRefs τ sig) (W8 r0 r1 r2 r3 r4 r5 m c) ∗ ∃ r, prngReg c r)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W8 r0 r1 r2 r3 r4 r5 m c b) :=
  Pipeline.θ_run_regions_kit (pcfgs (F := F)) admNone (pdats r0 r1 r2 r3 r4 r5 m) () cellOf_inj emb₁ defs₀ 𝒱n Ln lvn m ρ main (items r0 r1 r2 r3 r4 r5 m)
    (fun c Q => by rw [main_items r0 r1 r2 r3 r4 r5 m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend r0 r1 r2 r3 r4 r5 m)
    (hch := ⟨fun _ => .rfl, fun _ => .rfl, fun _ => .rfl, fun _ => .rfl, fun _ => .rfl, fun _ => .rfl, fun _ => .rfl, fun _ => .rfl,
      fun c => rest_regroup _ c⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W8 r0 r1 r2 r3 r4 r5 m c b)
    (hfin := fun c s' => by
      iintro ⟨⟨Hbufs, -⟩, HSI⟩
      unfold StableHlo.held
      imodintro
      iapply (pointsTo_read_all (Pipeline.ucRefs τ sig) (fun b => (((c : Thread nD τ)).1, b)) (W8 r0 r1 r2 r3 r4 r5 m c) s')
      isplitl [Hbufs] <;> iassumption)
    (hQ := fun s h => h)

end Cert.KernelIdeal.Hand

end
-- ==== Proof.Hand.Kept.lean ====
import proofs.«108687_j68341519613982_1_alg».proof.Proof.Hand.RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (r0 : ∀ V, Region (F := F) cfg0 V) (r1 : ∀ V, Region (F := F) cfg1 V) (r2 : ∀ V, Region (F := F) cfg2 V)
  (r3 : ∀ V, Region (F := F) cfg3 V) (r4 : ∀ V, Region (F := F) cfg4 V) (r5 : ∀ V, Region (F := F) cfg5 V)
variable (m : (ℓ : Loc nD τ sig) → Buf (Elt F) ℓ)

/-- A buffer that is no launch's output and no reshape's result ends as launched. -/
theorem W8_kept (c : Dev nD) (b : Ref sig .tc)
    (h : Keeps cfg0 b ∧ b ≠ main_v1 ∧ Keeps cfg1 b ∧ Keeps cfg2 b ∧ Keeps cfg3 b ∧ b ≠ main_v5 ∧ Keeps cfg4 b ∧ Keeps cfg5 b) :
    W8 r0 r1 r2 r3 r4 r5 m c (Proc.devRef .tc b) = m ((c : Thread nD τ).loc b) :=
  (W8_same r0 r1 r2 r3 r4 r5 m c b h.2.2.2.2.2.2.2).trans <| (W7_same r0 r1 r2 r3 r4 m c b h.2.2.2.2.2.2.1).trans <|
    (W6_of_ne r0 r1 r2 r3 m c b h.2.2.2.2.2.1).trans <| (W5_same r0 r1 r2 r3 m c b h.2.2.2.2.1).trans <|
    (W4_same r0 r1 r2 m c b h.2.2.2.1).trans <| (W3_same r0 r1 m c b h.2.2.1).trans <|
    (W2_of_ne r0 m c b h.2.1).trans <| (W1_same r0 m c b h.1).trans rfl

end Cert.KernelIdeal.Hand

end
-- ==== Proof.Hand.Whole.lean ====
import proofs.«108687_j68341519613982_1_alg».proof.Proof.Hand.R0
import proofs.«108687_j68341519613982_1_alg».proof.Proof.Hand.R1
import proofs.«108687_j68341519613982_1_alg».proof.Proof.Hand.R2
import proofs.«108687_j68341519613982_1_alg».proof.Proof.Hand.R3
import proofs.«108687_j68341519613982_1_alg».proof.Proof.Hand.R4
import proofs.«108687_j68341519613982_1_alg».proof.Proof.Hand.R5
import proofs.«108687_j68341519613982_1_alg».proof.Proof.Hand.RunB
import proofs.«108687_j68341519613982_1_alg».proof.Proof.Hand.Kept

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution of the program ends with the result array at what the sixth launch leaves and the arguments as launched. -/
theorem whole_value : θ_run defs (onTc (τ := τ) (main (F := F))) ⟨m, fun _ => 0, ρ⟩ (fun r => ∀ c : Dev nD,
      r.2.mem ((c.tc : Thread nD τ).loc main_v7) = W8 region0 region1 region2 region3 region4 region5 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c =>
    have k (b : Ref sig .tc) (hu : ¬(Proc.devRef .tc b : DevRef τ sig).isScoped)
        (h : Keeps cfg0 b ∧ b ≠ main_v1 ∧ Keeps cfg1 b ∧ Keeps cfg2 b ∧ Keeps cfg3 b ∧ b ≠ main_v5 ∧ Keeps cfg4 b ∧ Keeps cfg5 b) :
        r.2.mem ((c.tc : Thread nD τ).loc b) = m ((c.tc : Thread nD τ).loc b) :=
      (hr c _ (mem_uc b hu)).trans (W8_kept region0 region1 region2 region3 region4 region5 m c b h)
    ⟨hr c _ (mem_uc main_v7 (by decide)), k main_arg0 (by decide) (by decide), k main_arg1 (by decide) (by decide),
      k main_arg2 (by decide) (by decide), k main_arg3 (by decide) (by decide), k main_arg4 (by decide) (by decide),
      k main_arg5 (by decide) (by decide), k main_arg6 (by decide) (by decide)⟩)
    (run_all region0 region1 region2 region3 region4 region5 m ρ)

theorem whole_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => (hr c).2) (whole_value m ρ)

end Cert.KernelIdeal.Hand

end
-- ==== Proof.Hand.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Mat (a b : Nat) : Type := (⟨2, ![a, b]⟩ : Shape).Idx → EReal

abbrev Vect (a : Nat) : Type := (⟨1, ![a]⟩ : Shape).Idx → EReal

def col {M : Nat} (f : Vect M) : Mat M 1 := fun j => f (ix1 (j 0))

theorem col_apply {M : Nat} (f : Vect M) (p : Fin M) (z : Fin 1) : col f (ix2 p z) = f (ix1 p) := rfl

def mm {M K N : Nat} (A : Mat M K) (B : Mat K N) : Mat M N :=
  fun j => ∑ k : Fin K, A (ix2 (j 0) k) * B (ix2 k (j 1))

theorem mm_apply {M K N : Nat} (A : Mat M K) (B : Mat K N) (p : Fin M) (q : Fin N) :
    mm A B (ix2 p q) = ∑ k : Fin K, A (ix2 p k) * B (ix2 k q) := rfl

def rowScale {M N : Nat} (T : Mat M N) (f : Mat M 1) : Mat M N :=
  fun j => T j * f (ix2 (j 0) (0 : Fin 1))

theorem rowScale_apply {M N : Nat} (T : Mat M N) (f : Mat M 1) (p : Fin M) (q : Fin N) :
    rowScale T f (ix2 p q) = T (ix2 p q) * f (ix2 p (0 : Fin 1)) := rfl

def posPart {M N : Nat} (T : Mat M N) : Mat M N :=
  fun j => max (T j) (Ideal.ofBits .f32 0x00000000#32)

theorem posPart_apply {M N : Nat} (T : Mat M N) (j : (⟨2, ![M, N]⟩ : Shape).Idx) :
    posPart T j = max (T j) (Ideal.ofBits .f32 0x00000000#32) := rfl

def rowMax (r : Fin 64 → EReal) : EReal :=
  max (Ideal.ofBits .f32 0xFF800000#32) ((Finset.univ : Finset (Fin 64)).fold max (Ideal.ofBits .f32 0xFF800000#32) r)

def lsmRow (r : Fin 64 → EReal) (q : Fin 64) : EReal :=
  (r q - rowMax r) - Ideal.log (∑ k : Fin 64, Ideal.exp (r k - rowMax r))

def logSoftmax {M : Nat} (T : Mat M 64) : Mat M 64 :=
  fun j => lsmRow (fun k => T (ix2 (j 0) k)) (j 1)

theorem logSoftmax_apply {M : Nat} (T : Mat M 64) (p : Fin M) (q : Fin 64) :
    logSoftmax T (ix2 p q) = lsmRow (fun k => T (ix2 p k)) q := rfl

theorem sum_four_stretches {α : Type} [AddCommMonoid α] (f : Fin 8192 → α) :
    ∑ k : Fin 8192, f k
      = ∑ b : Fin 4, ∑ k : Fin 2048, f ⟨2048 * b.val + k.val, by have := b.isLt; have := k.isLt; omega⟩ := by
  rw [← Fintype.sum_prod_type' (f := fun (b : Fin 4) (k : Fin 2048) => f ⟨2048 * b.val + k.val, by have := b.isLt; have := k.isLt; omega⟩)]
  refine (Fintype.sum_equiv (finProdFinEquiv (m := 4) (n := 2048)) _ _ (fun x => ?_)).symm
  refine congrArg f (Fin.ext ?_)
  show 2048 * x.1.val + x.2.val = x.2.val + 2048 * x.1.val
  omega

theorem sum_four_steps {α : Type} [AddCommMonoid α] (f : Fin 8192 → α) :
    ∑ k : Fin 8192, f k
      = (((0 + ∑ k : Fin 2048, f ⟨2048 * 0 + k.val, by have := k.isLt; omega⟩)
            + ∑ k : Fin 2048, f ⟨2048 * 1 + k.val, by have := k.isLt; omega⟩)
          + ∑ k : Fin 2048, f ⟨2048 * 2 + k.val, by have := k.isLt; omega⟩)
        + ∑ k : Fin 2048, f ⟨2048 * 3 + k.val, by have := k.isLt; omega⟩ := by
  rw [sum_four_stretches, Fin.sum_univ_four, zero_add]
  rfl

end Cert.Spec

end
-- ==== Proof.Hand.Glue.lean ====
import Idealize.ShloMosaic.Lib.ValueLayout
import Idealize.ShloMosaic.Lib.Pipeline.Value
import proofs.«108687_j68341519613982_1_alg».proof.Proof.Hand.Spec

noncomputable section

namespace Cert.Spec

open Idealize.ShloMosaic Idealize.ShloMosaic.ValueIdx

theorem shapeCast_col (x : Vect 8192) (h : (⟨1, ![8192]⟩ : Shape).ShapeCasts ⟨2, ![8192, 1]⟩) :
    (shapeCast ⟨2, ![8192, 1]⟩ x h : Mat 8192 1) = col x := by
  funext j
  obtain ⟨p, z, rfl⟩ : ∃ (p : Fin 8192) (z : Fin 1), j = ix2 p z := ⟨j 0, j 1, eq_ix2 j⟩
  refine (shapeCast_apply x h _ (ix1 p) ?_).trans rfl
  rw [Shape.rowMajor_val_one, Shape.rowMajor_val_two]
  show p.val = p.val * 1 + z.val
  have : z.val = 0 := by omega
  omega

end Cert.Spec

end
-- ==== Proof.Hand.Chain.lean ====
import proofs.«108687_j68341519613982_1_alg».proof.Proof.Hand.Kept
import proofs.«108687_j68341519613982_1_alg».proof.Proof.Hand.Glue

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

variable (r0 : ∀ V, Region (F := Ideal) cfg0 V) (r1 : ∀ V, Region (F := Ideal) cfg1 V) (r2 : ∀ V, Region (F := Ideal) cfg2 V)
  (r3 : ∀ V, Region (F := Ideal) cfg3 V) (r4 : ∀ V, Region (F := Ideal) cfg4 V) (r5 : ∀ V, Region (F := Ideal) cfg5 V)
variable (m : (ℓ : Loc nD τ sig) → Buf (Elt Ideal) ℓ)

def network (X : Mat 8192 512) (A1 A2 : Mat 8192 8192) (W1 : Mat 512 256) (f1 : Vect 8192) (W2 : Mat 256 64) (f2 : Vect 8192) : Mat 8192 64 :=
  logSoftmax (mm A1 (rowScale (mm A2 (mm (Spec.posPart (mm A1 (rowScale (mm A2 (mm X W1)) (col f1)))) W2)) (col f2)))

theorem result_eq
    (h0 : ∀ V c, ((r0 V).dat c).arrAt 2 cfg0.N = mm (V c main_arg0) (V c main_arg3))
    (h1 : ∀ V c, ((r1 V).dat c).arrAt 3 cfg1.N = rowScale (mm (V c main_arg2) (V c main_v0)) (V c main_v1))
    (h2 : ∀ V c, ((r2 V).dat c).arrAt 2 cfg2.N = Spec.posPart (mm (V c main_arg1) (V c main_v2)))
    (h3 : ∀ V c, ((r3 V).dat c).arrAt 2 cfg3.N = mm (V c main_v3) (V c main_arg5))
    (h4 : ∀ V c, ((r4 V).dat c).arrAt 3 cfg4.N = rowScale (mm (V c main_arg2) (V c main_v4)) (V c main_v5))
    (h5 : ∀ V c, ((r5 V).dat c).arrAt 2 cfg5.N = logSoftmax (mm (V c main_arg1) (V c main_v6)))
    (c : Dev nD) :
    (W8 r0 r1 r2 r3 r4 r5 m c (Proc.devRef .tc main_v7) : Mat 8192 64)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by

  have e0 : (W1 r0 m c (Proc.devRef .tc main_v0) : Mat 8192 256)
      = mm (m ((c : Thread nD τ).loc main_arg0)) (m ((c : Thread nD τ).loc main_arg3)) :=
    (W1_arr r0 m c 2).trans (h0 _ c)
  have ef1 : (W2 r0 m c (Proc.devRef .tc main_v1) : Mat 8192 1) = col (m ((c : Thread nD τ).loc main_arg4)) := by
    rw [W2_main_v1, W1_same r0 m c main_arg4 (by decide)]
    exact shapeCast_col _ _
  have e1 : (W3 r0 r1 m c (Proc.devRef .tc main_v2) : Mat 8192 256)
      = rowScale (mm (m ((c : Thread nD τ).loc main_arg2)) (mm (m ((c : Thread nD τ).loc main_arg0)) (m ((c : Thread nD τ).loc main_arg3))))
          (col (m ((c : Thread nD τ).loc main_arg4))) := by
    refine (W3_arr r0 r1 m c 3).trans ((h1 _ c).trans ?_)
    show rowScale (mm (W2 r0 m c (Proc.devRef .tc main_arg2)) (W2 r0 m c (Proc.devRef .tc main_v0))) (W2 r0 m c (Proc.devRef .tc main_v1)) = _
    rw [ef1, W2_of_ne r0 m c main_v0 (by decide), e0, W2_of_ne r0 m c main_arg2 (by decide), W1_same r0 m c main_arg2 (by decide)]
  have e2 : (W4 r0 r1 r2 m c (Proc.devRef .tc main_v3) : Mat 8192 256)
      = Spec.posPart (mm (m ((c : Thread nD τ).loc main_arg1)) (W3 r0 r1 m c (Proc.devRef .tc main_v2))) := by
    refine (W4_arr r0 r1 r2 m c 2).trans ((h2 _ c).trans ?_)
    show Spec.posPart (mm (W3 r0 r1 m c (Proc.devRef .tc main_arg1)) (W3 r0 r1 m c (Proc.devRef .tc main_v2))) = _
    rw [W3_same r0 r1 m c main_arg1 (by decide), W2_of_ne r0 m c main_arg1 (by decide), W1_same r0 m c main_arg1 (by decide)]

  have e3 : (W5 r0 r1 r2 r3 m c (Proc.devRef .tc main_v4) : Mat 8192 64)
      = mm (W4 r0 r1 r2 m c (Proc.devRef .tc main_v3)) (m ((c : Thread nD τ).loc main_arg5)) := by
    refine (W5_arr r0 r1 r2 r3 m c 2).trans ((h3 _ c).trans ?_)
    show mm (W4 r0 r1 r2 m c (Proc.devRef .tc main_v3)) (W4 r0 r1 r2 m c (Proc.devRef .tc main_arg5)) = _
    rw [W4_same r0 r1 r2 m c main_arg5 (by decide), W3_same r0 r1 m c main_arg5 (by decide), W2_of_ne r0 m c main_arg5 (by decide),
      W1_same r0 m c main_arg5 (by decide)]
  have ef2 : (W6 r0 r1 r2 r3 m c (Proc.devRef .tc main_v5) : Mat 8192 1) = col (m ((c : Thread nD τ).loc main_arg6)) := by
    rw [W6_main_v5, W5_same r0 r1 r2 r3 m c main_arg6 (by decide), W4_same r0 r1 r2 m c main_arg6 (by decide),
      W3_same r0 r1 m c main_arg6 (by decide), W2_of_ne r0 m c main_arg6 (by decide), W1_same r0 m c main_arg6 (by decide)]
    exact shapeCast_col _ _
  have e4 : (W7 r0 r1 r2 r3 r4 m c (Proc.devRef .tc main_v6) : Mat 8192 64)
      = rowScale (mm (m ((c : Thread nD τ).loc main_arg2)) (W5 r0 r1 r2 r3 m c (Proc.devRef .tc main_v4))) (col (m ((c : Thread nD τ).loc main_arg6))) := by
    refine (W7_arr r0 r1 r2 r3 r4 m c 3).trans ((h4 _ c).trans ?_)
    show rowScale (mm (W6 r0 r1 r2 r3 m c (Proc.devRef .tc main_arg2)) (W6 r0 r1 r2 r3 m c (Proc.devRef .tc main_v4))) (W6 r0 r1 r2 r3 m c (Proc.devRef .tc main_v5)) = _
    rw [ef2, W6_of_ne r0 r1 r2 r3 m c main_v4 (by decide), W6_of_ne r0 r1 r2 r3 m c main_arg2 (by decide),
      W5_same r0 r1 r2 r3 m c main_arg2 (by decide), W4_same r0 r1 r2 m c main_arg2 (by decide), W3_same r0 r1 m c main_arg2 (by decide),
      W2_of_ne r0 m c main_arg2 (by decide), W1_same r0 m c main_arg2 (by decide)]
  refine (W8_arr r0 r1 r2 r3 r4 r5 m c 2).trans ((h5 _ c).trans ?_)
  show logSoftmax (mm (W7 r0 r1 r2 r3 r4 m c (Proc.devRef .tc main_arg1)) (W7 r0 r1 r2 r3 r4 m c (Proc.devRef .tc main_v6))) = _
  rw [e4, e3, e2, e1, W7_same r0 r1 r2 r3 r4 m c main_arg1 (by decide), W6_of_ne r0 r1 r2 r3 m c main_arg1 (by decide),
    W5_same r0 r1 r2 r3 m c main_arg1 (by decide), W4_same r0 r1 r2 m c main_arg1 (by decide), W3_same r0 r1 m c main_arg1 (by decide),
    W2_of_ne r0 m c main_arg1 (by decide), W1_same r0 m c main_arg1 (by decide)]
  rfl

end Cert.KernelIdeal.Hand

end
-- ==== Proof.Hand.R0Value.lean ====
import proofs.«108687_j68341519613982_1_alg».proof.Proof.Hand.R0
import proofs.«108687_j68341519613982_1_alg».proof.Proof.Hand.Spec
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem r0_hz : (![0, 0] : Fin 2 → Nat) = fun _ => 0 := funext fun a => by fin_cases a <;> rfl

theorem r0_lhs_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl

theorem r0_lhs_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q

theorem r0_rhs_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q

theorem r0_rhs_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem r0_pay_apply (x : FVec Ideal S1024x512 .f32) (w : FVec Ideal S512x256 .f32) (p : Fin 1024) (q : Fin 256) :
    k0_pay1 (F := Ideal) x w (ix2 p q) = ∑ k : Fin 512, x (ix2 p k) * w (ix2 k q) := by
  unfold k0_pay1
  simp only [matmul, shapeCast_self]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
    match a with
    | ⟨0, _⟩ => exact r0_lhs_0 _ _
    | ⟨1, _⟩ => exact (r0_lhs_1 _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
    match a with
    | ⟨0, _⟩ => exact (r0_rhs_0 _ _).trans hk
    | ⟨1, _⟩ => exact r0_rhs_1 _ _)
  rw [el, er]
  rfl

section Region
variable (V : (c : Dev nD) → (b : Ref sig .tc) → Buf (Elt Ideal) ((c : Thread nD τ).loc b))

theorem r0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem r0_iblk0_apply (c : Dev nD) (t : Fin cfg0.N) (p : Fin 1024) (k : Fin 512) (r : Fin 8192)
    (hr : r.val = 1024 * t.val + p.val) :
    (r0_iblk V c 0 t : Vec Ideal S1024x512 .f32) (ix2 p k) = (V c main_arg0 : S8192x512.Idx → EReal) (ix2 r k) := by
  obtain ⟨e0, e1, -⟩ := r0_idx_facts t
  unfold r0_iblk
  rw [View.read_apply]
  show V c main_arg0 _ = V c main_arg0 _
  congr 1
  funext a
  apply Fin.ext
  match a with
  | ⟨0, _⟩ => show win0_0.index t 0 * 1024 + 1 * p.val = r.val; rw [e0, hr]; omega
  | ⟨1, _⟩ => show win0_0.index t 1 * 512 + 1 * k.val = k.val; rw [e1]; omega

theorem r0_iblk1_apply (c : Dev nD) (t : Fin cfg0.N) (k : Fin 512) (q : Fin 256) :
    (r0_iblk V c 1 t : Vec Ideal S512x256 .f32) (ix2 k q) = (V c main_arg3 : S512x256.Idx → EReal) (ix2 k q) := by
  obtain ⟨-, -, e2, e3, -⟩ := r0_idx_facts t
  unfold r0_iblk
  rw [View.read_apply]
  show V c main_arg3 _ = V c main_arg3 _
  congr 1
  funext a
  apply Fin.ext
  match a with
  | ⟨0, _⟩ => show win0_1.index t 0 * 512 + 1 * k.val = k.val; rw [e2]; omega
  | ⟨1, _⟩ => show win0_1.index t 1 * 256 + 1 * q.val = q.val; rw [e3]; omega

theorem r0_block_apply (c : Dev nD) (t : Fin cfg0.N) (p : Fin 1024) (q : Fin 256) (r : Fin 8192)
    (hr : r.val = 1024 * t.val + p.val) :
    k0_pay1 (F := Ideal) (r0_iblk V c 0 t) (r0_iblk V c 1 t) (ix2 p q)
      = Cert.Spec.mm (V c main_arg0) (V c main_arg3) (ix2 r q) := by
  refine (r0_pay_apply (r0_iblk V c 0 t) (r0_iblk V c 1 t) p q).trans ?_
  rw [Cert.Spec.mm_apply]
  refine Finset.sum_congr rfl fun k _ => ?_
  rw [r0_iblk0_apply V c t p k r hr, r0_iblk1_apply V c t k q]

theorem r0_flushed_eq (c : Dev nD) (t : Fin cfg0.N) :
    (r0_dat V c).flushed 2 t
      = ((cfg0.win 2).blk t).view.read (Elt Ideal) (Cert.Spec.mm (V c main_arg0) (V c main_arg3)) := by
  show (cfg0.win 2).cut (grid0.coords t) ((r0_dat V c).after 2 t) = _
  rw [r0_after_2]
  unfold r0_out
  rw [View.canon_unit_zero r0_hz]
  simp only [View.ld_unit_zero (S := S1024x512) r0_hz, View.ld_unit_zero (S := S512x256) r0_hz]
  funext j
  obtain ⟨-, -, -, -, e4, e5⟩ := r0_idx_facts t
  have hN : cfg0.N = 8 := N_0
  have ht : t.val < 8 := hN ▸ t.isLt
  have hj0 : (j 0).val < 1024 := (j 0).isLt
  have hj1 : (j 1).val < 256 := (j 1).isLt
  show k0_pay1 (F := Ideal) (r0_iblk V c 0 t) (r0_iblk V c 1 t) j
    = Cert.Spec.mm (V c main_arg0) (V c main_arg3) (((cfg0.win 2).blk t).view.emb j)
  have hjl : j = ix2 (⟨(j 0).val, hj0⟩ : Fin 1024) (⟨(j 1).val, hj1⟩ : Fin 256) := by
    funext a
    match a with
    | ⟨0, _⟩ => rfl
    | ⟨1, _⟩ => rfl
  have hjr : ((cfg0.win 2).blk t).view.emb j
      = ix2 (⟨1024 * t.val + (j 0).val, by omega⟩ : Fin 8192) (⟨(j 1).val, hj1⟩ : Fin 256) := by
    funext a
    apply Fin.ext
    match a with
    | ⟨0, _⟩ => show win0_2.index t 0 * 1024 + 1 * (j 0).val = 1024 * t.val + (j 0).val; rw [e4]; omega
    | ⟨1, _⟩ => show win0_2.index t 1 * 256 + 1 * (j 1).val = (j 1).val; rw [e5]; omega
  exact (congrArg (k0_pay1 (F := Ideal) (r0_iblk V c 0 t) (r0_iblk V c 1 t)) hjl).trans
    ((r0_block_apply V c t _ _ _ rfl).trans (congrArg (Cert.Spec.mm (V c main_arg0) (V c main_arg3)) hjr.symm))

theorem r0_mem_blk (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

theorem r0_blocks_cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  have hlt : (i 0).val / 1024 < cfg0.N := by rw [hN]; omega
  obtain ⟨-, -, -, -, e4, e5⟩ := r0_idx_facts ⟨(i 0).val / 1024, hlt⟩
  refine ⟨⟨(i 0).val / 1024, hlt⟩, flush0_2 _, ?_⟩
  rw [r0_mem_blk]
  intro a
  match a with
  | ⟨0, _⟩ =>
    show win0_2.index ⟨(i 0).val / 1024, hlt⟩ (0 : Fin 2) * 1024 ≤ (i 0).val
      ∧ (i 0).val < win0_2.index ⟨(i 0).val / 1024, hlt⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, hlt⟩ (1 : Fin 2) * 256 ≤ (i 1).val
      ∧ (i 1).val < win0_2.index ⟨(i 0).val / 1024, hlt⟩ (1 : Fin 2) * 256 + 256
    rw [e5]; omega

end Region

theorem final0 (V : (c : Dev nD) → (b : Ref sig .tc) → Buf (Elt Ideal) ((c : Thread nD τ).loc b)) (c : Dev nD) :
    ((region0 (F := Ideal) V).dat c).arrAt 2 cfg0.N = Cert.Spec.mm (V c main_arg0) (V c main_arg3) :=
  (r0_dat V c).arrAt_eq_of_cover 2 (Cert.Spec.mm (V c main_arg0) (V c main_arg3))
    (fun t _ => r0_flushed_eq V c t) r0_blocks_cover

end Cert.KernelIdeal.Hand

end
-- ==== Proof.Hand.Lsm.lean ====
import proofs.«108687_j68341519613982_1_alg».proof.Proof.Gen.KernelIdeal.Skeleton
import proofs.«108687_j68341519613982_1_alg».proof.Proof.Hand.Spec
import Idealize.ShloMosaic.Lib.ValueLayout

noncomputable section

open scoped BigOperators

namespace Cert.KernelIdeal.Hand

open Cert.KernelIdeal Cert.KernelIdeal.Gen
open Idealize.ShloMosaic Idealize.ShloMosaic.ValueIdx

section Layout

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

variable [Facts₀]

theorem rowFoldMax_apply (x : FVec Ideal S1024x64 .f32) (h : S1024x64.Reduces [1] S1024) (hφ : FKind.Formats .f32)
    (hacc : (0xFF800000#32 : BitVec 32) = 0xFF800000#32) (p : Fin 1024) :
    multiReduction (F := Ideal) .maximumf [1] S1024 x 0xFF800000#32 h hφ hacc (ix1 p)
      = (Finset.univ : Finset (Fin 64)).fold max (Ideal.ofBits .f32 0xFF800000#32) (fun k => x (ix2 p k)) := by
  refine (Ideal.multiReduction_maximumf_single x 0xFF800000#32 h hφ hacc (ix1 p)).trans ?_
  refine congrArg (fun g => (Finset.univ : Finset (Fin 64)).fold max (Ideal.ofBits .f32 0xFF800000#32) g) ?_
  funext k
  refine congrArg x ?_
  exact Shape.idx_ext₂ rfl rfl

theorem rowSum_apply (x : FVec Ideal S1024x64 .f32) (h : S1024x64.Reduces [1] S1024) (hφ : FKind.Formats .f32)
    (hacc : (0x00000000#32 : BitVec 32) = 0x00000000#32) (p : Fin 1024) :
    multiReduction (F := Ideal) .add [1] S1024 x 0x00000000#32 h hφ hacc (ix1 p) = ∑ k : Fin 64, x (ix2 p k) := by
  refine (Ideal.multiReduction_add_single x 0x00000000#32 h hφ hacc (ix1 p)).trans ?_
  refine Finset.sum_congr rfl fun k _ => congrArg x ?_
  exact Shape.idx_ext₂ rfl rfl

theorem k5_pay3_apply (x : Vec Ideal S1024x64 .f32) (p : Fin 1024) (q : Fin 64) :
    Cert.KernelIdeal.Gen.k5_pay3 (F := Ideal) x (ix2 p q) = Cert.Spec.lsmRow (fun k => x (ix2 p k)) q := by
  unfold Cert.KernelIdeal.Gen.k5_pay3 Cert.Spec.lsmRow Cert.Spec.rowMax
  rw [subf_apply, subf_apply, broadcastTo_a1_ab_apply, broadcastTo_a1_ab_apply, shapeCast_a_a1_apply,
    log_apply, shapeCast_a_a1_apply, maximumf_apply, broadcast_apply, rowFoldMax_apply, rowSum_apply]
  refine congrArg₂ (· - ·) rfl (congrArg Ideal.log (Finset.sum_congr rfl fun k _ => ?_))
  rw [exp_apply, subf_apply, broadcastTo_a1_ab_apply, shapeCast_a_a1_apply, maximumf_apply, broadcast_apply,
    rowFoldMax_apply]
  rfl

end Cert.KernelIdeal.Hand

end
-- ==== Proof.Hand.Pay.lean ====
import proofs.«108687_j68341519613982_1_alg».proof.Proof.Hand.Lsm

noncomputable section

namespace Cert.KernelIdeal.Hand

open Cert.KernelIdeal Cert.KernelIdeal.Gen
open Idealize.ShloMosaic Idealize.ShloMosaic.ValueIdx

variable [Facts₀]

theorem k1_pay3_apply (x : Vec Ideal S1024x256 .f32) (f : Vec Ideal S1024x1 .f32) (p : Fin 1024) (q : Fin 256) :
    Cert.KernelIdeal.Gen.k1_pay3 (F := Ideal) x f (ix2 p q) = x (ix2 p q) * f (ix2 p (0 : Fin 1)) := by
  unfold Cert.KernelIdeal.Gen.k1_pay3
  rw [mulf_apply, broadcastTo_a1_ab_apply, shapeCast_self]

theorem k4_pay3_apply (x : Vec Ideal S1024x64 .f32) (f : Vec Ideal S1024x1 .f32) (p : Fin 1024) (q : Fin 64) :
    Cert.KernelIdeal.Gen.k4_pay3 (F := Ideal) x f (ix2 p q) = x (ix2 p q) * f (ix2 p (0 : Fin 1)) := by
  unfold Cert.KernelIdeal.Gen.k4_pay3
  rw [mulf_apply, broadcastTo_a1_ab_apply, shapeCast_self]

theorem k2_pay3_apply (x : Vec Ideal S1024x256 .f32) (j : S1024x256.Idx) :
    Cert.KernelIdeal.Gen.k2_pay3 (F := Ideal) x j = max (x j) (Ideal.ofBits .f32 0x00000000#32) := rfl

end Cert.KernelIdeal.Hand

end
-- ==== Proof.Hand.Pay2.lean ====
import proofs.«108687_j68341519613982_1_alg».proof.Proof.Hand.Pay

noncomputable section

open scoped BigOperators

namespace Cert.KernelIdeal.Hand

open Cert.KernelIdeal Cert.KernelIdeal.Gen
open Idealize.ShloMosaic Idealize.ShloMosaic.ValueIdx

theorem matmul_zero_ix2 {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (k : D.contr.Idx), (D.lhsIdx i k 0).val = (i 0).val)
    (l1 : ∀ (i : (⟨2, ![M, N]⟩ : Shape).Idx) (k : D.contr.Idx), (D.lhsIdx i k 1).val = (k ⟨0, by omega⟩).val)
    (r0 : ∀ (i : (⟨2, ![M, N]⟩ : Shape).Idx) (k : D.contr.Idx), (D.rhsIdx i k 0).val = (k ⟨0, by omega⟩).val)
    (r1 : ∀ (i : (⟨2, ![M, N]⟩ : Shape).Idx) (k : D.contr.Idx), (D.rhsIdx i k 1).val = (i 1).val)
    (x : FVec Ideal ⟨2, ![M, K]⟩ φ₁) (y : FVec Ideal ⟨2, ![K, N]⟩ φ₂) (p : Fin M) (q : Fin N) :
    FloatOps.matmul D none x y (constant (F := Ideal) ⟨2, ![M, N]⟩ .f32 0x00000000#32) (ix2 p q)
      = ∑ k : Fin K, x (ix2 p k) * y (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    Shape.idx_ext₂ (l0 _ _) ((l1 _ _).trans hk)
  have er : D.rhsIdx (ix2 p q) ((contrEquiv1 D K hr hs).symm k) = ix2 k q :=
    Shape.idx_ext₂ ((r0 _ _).trans hk) (r1 _ _)
  rw [el, er]

theorem dot512x256_lhs_0 (i : S1024x256.Idx) (k : dot_S1024x512_S512x256_S1024x256_1_0_0_1_n_n.contr.Idx) :
    (dot_S1024x512_S512x256_S1024x256_1_0_0_1_n_n.lhsIdx i k 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem dot512x256_lhs_1 (i : S1024x256.Idx) (k : dot_S1024x512_S512x256_S1024x256_1_0_0_1_n_n.contr.Idx) :
    (dot_S1024x512_S512x256_S1024x256_1_0_0_1_n_n.lhsIdx i k 1).val = (k ⟨0, by decide⟩).val :=
  dot_S1024x512_S512x256_S1024x256_1_0_0_1_n_n.lhsIdx_val_of_single rfl i k
theorem dot512x256_rhs_0 (i : S1024x256.Idx) (k : dot_S1024x512_S512x256_S1024x256_1_0_0_1_n_n.contr.Idx) :
    (dot_S1024x512_S512x256_S1024x256_1_0_0_1_n_n.rhsIdx i k 0).val = (k ⟨0, by decide⟩).val :=
  dot_S1024x512_S512x256_S1024x256_1_0_0_1_n_n.rhsIdx_val_of_single rfl i k
theorem dot512x256_rhs_1 (i : S1024x256.Idx) (k : dot_S1024x512_S512x256_S1024x256_1_0_0_1_n_n.contr.Idx) :
    (dot_S1024x512_S512x256_S1024x256_1_0_0_1_n_n.rhsIdx i k 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

theorem k0_pay1_apply (x : Vec Ideal S1024x512 .f32) (w : Vec Ideal S512x256 .f32) (p : Fin 1024) (q : Fin 256) :
    Cert.KernelIdeal.Gen.k0_pay1 (F := Ideal) x w (ix2 p q) = ∑ k : Fin 512, x (ix2 p k) * w (ix2 k q) := by
  unfold Cert.KernelIdeal.Gen.k0_pay1
  simp only [matmul]
  exact matmul_zero_ix2 dot_S1024x512_S512x256_S1024x256_1_0_0_1_n_n rfl rfl dot512x256_lhs_0 dot512x256_lhs_1
    dot512x256_rhs_0 dot512x256_rhs_1 _ _ p q

theorem dot256x64_lhs_0 (i : S1024x64.Idx) (k : dot_S1024x256_S256x64_S1024x64_1_0_0_1_n_n.contr.Idx) :
    (dot_S1024x256_S256x64_S1024x64_1_0_0_1_n_n.lhsIdx i k 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem dot256x64_lhs_1 (i : S1024x64.Idx) (k : dot_S1024x256_S256x64_S1024x64_1_0_0_1_n_n.contr.Idx) :
    (dot_S1024x256_S256x64_S1024x64_1_0_0_1_n_n.lhsIdx i k 1).val = (k ⟨0, by decide⟩).val :=
  dot_S1024x256_S256x64_S1024x64_1_0_0_1_n_n.lhsIdx_val_of_single rfl i k
theorem dot256x64_rhs_0 (i : S1024x64.Idx) (k : dot_S1024x256_S256x64_S1024x64_1_0_0_1_n_n.contr.Idx) :
    (dot_S1024x256_S256x64_S1024x64_1_0_0_1_n_n.rhsIdx i k 0).val = (k ⟨0, by decide⟩).val :=
  dot_S1024x256_S256x64_S1024x64_1_0_0_1_n_n.rhsIdx_val_of_single rfl i k
theorem dot256x64_rhs_1 (i : S1024x64.Idx) (k : dot_S1024x256_S256x64_S1024x64_1_0_0_1_n_n.contr.Idx) :
    (dot_S1024x256_S256x64_S1024x64_1_0_0_1_n_n.rhsIdx i k 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

theorem k3_pay1_apply (x : Vec Ideal S1024x256 .f32) (w : Vec Ideal S256x64 .f32) (p : Fin 1024) (q : Fin 64) :
    Cert.KernelIdeal.Gen.k3_pay1 (F := Ideal) x w (ix2 p q) = ∑ k : Fin 256, x (ix2 p k) * w (ix2 k q) := by
  unfold Cert.KernelIdeal.Gen.k3_pay1
  simp only [matmul]
  rw [shapeCast_self]
  exact matmul_zero_ix2 dot_S1024x256_S256x64_S1024x64_1_0_0_1_n_n rfl rfl dot256x64_lhs_0 dot256x64_lhs_1
    dot256x64_rhs_0 dot256x64_rhs_1 _ _ p q

theorem dot2048x256_lhs_0 (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem dot2048x256_lhs_1 (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k
theorem dot2048x256_rhs_0 (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k
theorem dot2048x256_rhs_1 (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

theorem k1_pay2_apply (x : Vec Ideal S1024x2048 .f32) (y : Vec Ideal S2048x256 .f32) (acc : Vec Ideal S1024x256 .f32)
    (p : Fin 1024) (q : Fin 256) :
    Cert.KernelIdeal.Gen.k1_pay2 (F := Ideal) x y acc (ix2 p q)
      = acc (ix2 p q) + ∑ k : Fin 2048, x (ix2 p k) * y (ix2 k q) := by
  unfold Cert.KernelIdeal.Gen.k1_pay2
  simp only [matmul]
  rw [shapeCast_self, shapeCast_self, addf_apply]
  exact congrArg (acc (ix2 p q) + ·) (matmul_zero_ix2 dot_S1024x2048_S2048x256_S1024x256_1_0_0_1_n_n rfl rfl
    dot2048x256_lhs_0 dot2048x256_lhs_1 dot2048x256_rhs_0 dot2048x256_rhs_1 _ _ p q)

theorem k2_pay2_apply (x : Vec Ideal S1024x2048 .f32) (y : Vec Ideal S2048x256 .f32) (acc : Vec Ideal S1024x256 .f32)
    (p : Fin 1024) (q : Fin 256) :
    Cert.KernelIdeal.Gen.k2_pay2 (F := Ideal) x y acc (ix2 p q)
      = acc (ix2 p q) + ∑ k : Fin 2048, x (ix2 p k) * y (ix2 k q) := by
  unfold Cert.KernelIdeal.Gen.k2_pay2
  simp only [matmul]
  rw [shapeCast_self, shapeCast_self, addf_apply]
  exact congrArg (acc (ix2 p q) + ·) (matmul_zero_ix2 dot_S1024x2048_S2048x256_S1024x256_1_0_0_1_n_n rfl rfl
    dot2048x256_lhs_0 dot2048x256_lhs_1 dot2048x256_rhs_0 dot2048x256_rhs_1 _ _ p q)

theorem dot2048x64_lhs_0 (i : S1024x64.Idx) (k : dot_S1024x2048_S2048x64_S1024x64_1_0_0_1_n_n.contr.Idx) :
    (dot_S1024x2048_S2048x64_S1024x64_1_0_0_1_n_n.lhsIdx i k 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem dot2048x64_lhs_1 (i : S1024x64.Idx) (k : dot_S1024x2048_S2048x64_S1024x64_1_0_0_1_n_n.contr.Idx) :
    (dot_S1024x2048_S2048x64_S1024x64_1_0_0_1_n_n.lhsIdx i k 1).val = (k ⟨0, by decide⟩).val :=
  dot_S1024x2048_S2048x64_S1024x64_1_0_0_1_n_n.lhsIdx_val_of_single rfl i k
theorem dot2048x64_rhs_0 (i : S1024x64.Idx) (k : dot_S1024x2048_S2048x64_S1024x64_1_0_0_1_n_n.contr.Idx) :
    (dot_S1024x2048_S2048x64_S1024x64_1_0_0_1_n_n.rhsIdx i k 0).val = (k ⟨0, by decide⟩).val :=
  dot_S1024x2048_S2048x64_S1024x64_1_0_0_1_n_n.rhsIdx_val_of_single rfl i k
theorem dot2048x64_rhs_1 (i : S1024x64.Idx) (k : dot_S1024x2048_S2048x64_S1024x64_1_0_0_1_n_n.contr.Idx) :
    (dot_S1024x2048_S2048x64_S1024x64_1_0_0_1_n_n.rhsIdx i k 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

theorem k4_pay2_apply (x : Vec Ideal S1024x2048 .f32) (y : Vec Ideal S2048x64 .f32) (acc : Vec Ideal S1024x64 .f32)
    (p : Fin 1024) (q : Fin 64) :
    Cert.KernelIdeal.Gen.k4_pay2 (F := Ideal) x y acc (ix2 p q)
      = acc (ix2 p q) + ∑ k : Fin 2048, x (ix2 p k) * y (ix2 k q) := by
  unfold Cert.KernelIdeal.Gen.k4_pay2
  simp only [matmul]
  rw [shapeCast_self, shapeCast_self, addf_apply]
  exact congrArg (acc (ix2 p q) + ·) (matmul_zero_ix2 dot_S1024x2048_S2048x64_S1024x64_1_0_0_1_n_n rfl rfl
    dot2048x64_lhs_0 dot2048x64_lhs_1 dot2048x64_rhs_0 dot2048x64_rhs_1 _ _ p q)

theorem k5_pay2_apply (x : Vec Ideal S1024x2048 .f32) (y : Vec Ideal S2048x64 .f32) (acc : Vec Ideal S1024x64 .f32)
    (p : Fin 1024) (q : Fin 64) :
    Cert.KernelIdeal.Gen.k5_pay2 (F := Ideal) x y acc (ix2 p q)
      = acc (ix2 p q) + ∑ k : Fin 2048, x (ix2 p k) * y (ix2 k q) := by
  unfold Cert.KernelIdeal.Gen.k5_pay2
  simp only [matmul]
  rw [shapeCast_self, shapeCast_self, addf_apply]
  exact congrArg (acc (ix2 p q) + ·) (matmul_zero_ix2 dot_S1024x2048_S2048x64_S1024x64_1_0_0_1_n_n rfl rfl
    dot2048x64_lhs_0 dot2048x64_lhs_1 dot2048x64_rhs_0 dot2048x64_rhs_1 _ _ p q)

theorem k1_pay1_apply (j : S1024x256.Idx) :
    (Cert.KernelIdeal.Gen.k1_pay1 (F := Ideal)) j = Ideal.ofBits .f32 0x00000000#32 := rfl

theorem k2_pay1_apply (j : S1024x256.Idx) :
    (Cert.KernelIdeal.Gen.k2_pay1 (F := Ideal)) j = Ideal.ofBits .f32 0x00000000#32 := rfl

theorem k4_pay1_apply (j : S1024x64.Idx) :
    (Cert.KernelIdeal.Gen.k4_pay1 (F := Ideal)) j = Ideal.ofBits .f32 0x00000000#32 := rfl

theorem k5_pay1_apply (j : S1024x64.Idx) :
    (Cert.KernelIdeal.Gen.k5_pay1 (F := Ideal)) j = Ideal.ofBits .f32 0x00000000#32 := rfl

end Cert.KernelIdeal.Hand

end
-- ==== Proof.Hand.R1Value.lean ====
import proofs.«108687_j68341519613982_1_alg».proof.Proof.Hand.R1
import proofs.«108687_j68341519613982_1_alg».proof.Proof.Hand.Pay2
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]

theorem r1_idx_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem r1_idx_1 : ∀ t : Fin cfg1.N, win1_1.index t 0 = t.val % 4 ∧ win1_1.index t 1 = 0 :=
  (by decide +kernel : ∀ t : Fin grid1.N, win1_1.index t 0 = t.val % 4 ∧ win1_1.index t 1 = 0)
theorem r1_idx_2 : ∀ t : Fin cfg1.N, win1_2.index t 0 = t.val / 4 ∧ win1_2.index t 1 = 0 :=
  (by decide +kernel : ∀ t : Fin grid1.N, win1_2.index t 0 = t.val / 4 ∧ win1_2.index t 1 = 0)
theorem r1_idx_3 : ∀ t : Fin cfg1.N, win1_3.index t 0 = t.val / 4 ∧ win1_3.index t 1 = 0 :=
  (by decide +kernel : ∀ t : Fin grid1.N, win1_3.index t 0 = t.val / 4 ∧ win1_3.index t 1 = 0)

section
variable {F : FTy → Type} [FloatOps F]
variable (V : (c : Dev nD) → (b : Ref sig .tc) → Buf (Elt F) ((c : Thread nD τ).loc b))

theorem r1_ablk_apply (c : Dev nD) (t : Fin cfg1.N) (x : S1024x2048.Idx) (k : S8192x8192.Idx)
    (hk0 : (k 0).val = 1024 * (t.val / 4) + (x 0).val) (hk1 : (k 1).val = 2048 * (t.val % 4) + (x 1).val) :
    r1_blkA V c t x = (V c main_arg2 : S8192x8192.Idx → Elt F .f32) k := by
  have hi := r1_idx_0 t
  unfold r1_blkA r1_iblk
  rw [View.read_apply]
  show V c main_arg2 _ = V c main_arg2 _
  congr 1
  funext a
  apply Fin.ext
  match a with
  | ⟨0, _⟩ => show win1_0.index t 0 * S1024x2048.size 0 + 1 * (x 0).val = (k 0).val; rw [hi.1, hk0]; show t.val / 4 * 1024 + 1 * (x 0).val = _; omega
  | ⟨1, _⟩ => show win1_0.index t 1 * S1024x2048.size 1 + 1 * (x 1).val = (k 1).val; rw [hi.2, hk1]; show t.val % 4 * 2048 + 1 * (x 1).val = _; omega

theorem r1_tblk_apply (c : Dev nD) (t : Fin cfg1.N) (x : S2048x256.Idx) (k : S8192x256.Idx)
    (hk0 : (k 0).val = 2048 * (t.val % 4) + (x 0).val) (hk1 : (k 1).val = (x 1).val) :
    r1_blkT V c t x = (V c main_v0 : S8192x256.Idx → Elt F .f32) k := by
  have hi := r1_idx_1 t
  unfold r1_blkT r1_iblk
  rw [View.read_apply]
  show V c main_v0 _ = V c main_v0 _
  congr 1
  funext a
  apply Fin.ext
  match a with
  | ⟨0, _⟩ => show win1_1.index t 0 * S2048x256.size 0 + 1 * (x 0).val = (k 0).val; rw [hi.1, hk0]; show t.val % 4 * 2048 + 1 * (x 0).val = _; omega
  | ⟨1, _⟩ => show win1_1.index t 1 * S2048x256.size 1 + 1 * (x 1).val = (k 1).val; rw [hi.2, hk1]; omega

theorem r1_fblk_apply (c : Dev nD) (t : Fin cfg1.N) (x : S1024x1.Idx) (k : S8192x1.Idx)
    (hk0 : (k 0).val = 1024 * (t.val / 4) + (x 0).val) (hk1 : (k 1).val = (x 1).val) :
    r1_blkF V c t x = (V c main_v1 : S8192x1.Idx → Elt F .f32) k := by
  have hi := r1_idx_2 t
  unfold r1_blkF r1_iblk
  rw [View.read_apply]
  show V c main_v1 _ = V c main_v1 _
  congr 1
  funext a
  apply Fin.ext
  match a with
  | ⟨0, _⟩ => show win1_2.index t 0 * S1024x1.size 0 + 1 * (x 0).val = (k 0).val; rw [hi.1, hk0]; show t.val / 4 * 1024 + 1 * (x 0).val = _; omega
  | ⟨1, _⟩ => show win1_2.index t 1 * S1024x1.size 1 + 1 * (x 1).val = (k 1).val; rw [hi.2, hk1]; omega

end

section
variable (V : (c : Dev nD) → (b : Ref sig .tc) → Buf (Elt Ideal) ((c : Thread nD τ).loc b))

abbrev r1_matA (c : Dev nD) : Cert.Spec.Mat 8192 8192 := V c main_arg2
abbrev r1_matT (c : Dev nD) : Cert.Spec.Mat 8192 256 := V c main_v0
abbrev r1_colF (c : Dev nD) : Cert.Spec.Mat 8192 1 := V c main_v1

def r1_stretch (c : Dev nD) (g : Fin 8192) (q : Fin 256) (b : ℕ) (hb : b < 4) : EReal :=
  ∑ kk : Fin 2048, r1_matA V c (ix2 g ⟨2048 * b + kk.val, by have := kk.isLt; omega⟩)
    * r1_matT V c (ix2 ⟨2048 * b + kk.val, by have := kk.isLt; omega⟩ q)

theorem r1_blocks_stretch (c : Dev nD) (t : Fin cfg1.N) (b : ℕ) (hb : b < 4) (hbt : t.val % 4 = b)
    (p : Fin 1024) (q : Fin 256) (g : Fin 8192) (hg : g.val = 1024 * (t.val / 4) + p.val) :
    ∑ kk : Fin 2048, (r1_blkA V c t) (ix2 p kk) * (r1_blkT V c t) (ix2 kk q) = r1_stretch V c g q b hb := by
  unfold r1_stretch
  refine Finset.sum_congr rfl fun kk _ => ?_
  have eA := r1_ablk_apply V c t (ix2 p kk) (ix2 g ⟨2048 * b + kk.val, by have := kk.isLt; omega⟩) hg
    (show 2048 * b + kk.val = 2048 * (t.val % 4) + kk.val by rw [hbt])
  have eT := r1_tblk_apply V c t (ix2 kk q) (ix2 ⟨2048 * b + kk.val, by have := kk.isLt; omega⟩ q)
    (show 2048 * b + kk.val = 2048 * (t.val % 4) + kk.val by rw [hbt]) rfl
  rw [eA, eT]

theorem r1_acc_first (c : Dev nD) (n : ℕ) (hn : n < cfg1.N) (h0 : n % 4 = 0)
    (p : Fin 1024) (q : Fin 256) (g : Fin 8192) (hg : g.val = 1024 * (n / 4) + p.val) :
    r1_accAt V c n hn (ix2 p q) = 0 + r1_stretch V c g q 0 (by decide) := by
  have e : r1_accAt V c n hn = k1_pay2 (r1_blkA V c ⟨n, hn⟩) (r1_blkT V c ⟨n, hn⟩) (k1_pay1 (F := Ideal)) :=
    r1_accAt_first_eq V c ⟨n, hn⟩ h0
  rw [e]
  refine (k1_pay2_apply (r1_blkA V c ⟨n, hn⟩) (r1_blkT V c ⟨n, hn⟩) (k1_pay1 (F := Ideal)) p q).trans ?_
  rw [k1_pay1_apply, Ideal.ofBits_zero_f32, r1_blocks_stretch V c ⟨n, hn⟩ 0 (by decide) h0 p q g hg]

theorem r1_acc_next (c : Dev nD) (n : ℕ) (hn : n + 1 < cfg1.N) (b : ℕ) (hb : b < 4) (hbt : (n + 1) % 4 = b) (hb0 : b ≠ 0)
    (p : Fin 1024) (q : Fin 256) (g : Fin 8192) (hg : g.val = 1024 * ((n + 1) / 4) + p.val) :
    r1_accAt V c (n + 1) hn (ix2 p q) = r1_accAt V c n (Nat.lt_of_succ_lt hn) (ix2 p q) + r1_stretch V c g q b hb := by
  have e : r1_accAt V c (n + 1) hn
      = k1_pay2 (r1_blkA V c ⟨n + 1, hn⟩) (r1_blkT V c ⟨n + 1, hn⟩) (r1_accAt V c n (Nat.lt_of_succ_lt hn)) :=
    r1_accAt_next_eq V c ⟨n + 1, hn⟩ (by dsimp only; omega)
  rw [e]
  refine (k1_pay2_apply (r1_blkA V c ⟨n + 1, hn⟩) (r1_blkT V c ⟨n + 1, hn⟩) (r1_accAt V c n (Nat.lt_of_succ_lt hn)) p q).trans ?_
  rw [r1_blocks_stretch V c ⟨n + 1, hn⟩ b hb hbt p q g hg]

theorem r1_acc_last (c : Dev nD) (t : Fin cfg1.N) (h3 : t.val % 4 = 3)
    (p : Fin 1024) (q : Fin 256) (g : Fin 8192) (hg : g.val = 1024 * (t.val / 4) + p.val) :
    r1_accAt V c t.val t.isLt (ix2 p q) = ∑ k : Fin 8192, r1_matA V c (ix2 g k) * r1_matT V c (ix2 k q) := by
  obtain ⟨tv, ht⟩ := t
  obtain ⟨n, rfl⟩ : ∃ n, tv = n + 3 := ⟨tv - 3, by dsimp only at h3; omega⟩
  dsimp only at h3 hg
  show r1_accAt V c (n + 3) ht (ix2 p q) = _
  have e3 : r1_accAt V c (n + 3) ht (ix2 p q) = r1_accAt V c (n + 2) (by omega) (ix2 p q) + r1_stretch V c g q 3 (by decide) :=
    r1_acc_next V c (n + 2) ht 3 (by decide) (by omega) (by decide) p q g (by omega)
  have e2 : r1_accAt V c (n + 2) (by omega) (ix2 p q) = r1_accAt V c (n + 1) (by omega) (ix2 p q) + r1_stretch V c g q 2 (by decide) :=
    r1_acc_next V c (n + 1) (by omega) 2 (by decide) (by omega) (by decide) p q g (by omega)
  have e1 : r1_accAt V c (n + 1) (by omega) (ix2 p q) = r1_accAt V c n (by omega) (ix2 p q) + r1_stretch V c g q 1 (by decide) :=
    r1_acc_next V c n (by omega) 1 (by decide) (by omega) (by decide) p q g (by omega)
  have e0 : r1_accAt V c n (by omega) (ix2 p q) = 0 + r1_stretch V c g q 0 (by decide) :=
    r1_acc_first V c n (by omega) (by omega) p q g (by omega)
  rw [e3, e2, e1, e0]
  exact (Cert.Spec.sum_four_steps (fun k : Fin 8192 => r1_matA V c (ix2 g k) * r1_matT V c (ix2 k q))).symm

abbrev r1_G (c : Dev nD) : Cert.Spec.Mat 8192 256 :=
  Cert.Spec.rowScale (Cert.Spec.mm (r1_matA V c) (r1_matT V c)) (r1_colF V c)

theorem r1_mem_blk (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v2).slice (win1_3.rect t)).set ↔ _
  rw [View.set_slice_whole, Rect.mem_set_unit]
  exact Iff.rfl

theorem r1_flushed_eq (c : Dev nD) (t : Fin cfg1.N) (hf : (cfg1.win 3).flush t = true) :
    (r1_dat V c).flushed 3 t = ((cfg1.win 3).blk t).view.read (Elt Ideal) (r1_G V c) := by
  have h3 : t.val % 4 = 3 := (flush1_3 t).mp hf
  have hN : t.val < 32 := lt_of_lt_of_eq t.isLt (show cfg1.N = 32 from N_1)
  have hi := r1_idx_3 t
  show (cfg1.win 3).cut (grid1.coords t) ((r1_dat V c).after 3 t) = _
  rw [r1_after_3]
  refine funext fun (j : S1024x256.Idx) => ?_
  obtain ⟨p, q, rfl⟩ : ∃ (p : Fin 1024) (q : Fin 256), j = ix2 p q := ⟨j 0, j 1, eq_ix2 j⟩
  show r1_outAt V c t.val t.isLt (ix2 p q) = r1_G V c (((cfg1.win 3).blk t).view.emb (ix2 p q))
  have hg : 1024 * (t.val / 4) + p.val < 8192 := by have := p.isLt; omega
  have ei : ((cfg1.win 3).blk t).view.emb (ix2 p q) = (ix2 ⟨1024 * (t.val / 4) + p.val, hg⟩ q : S8192x256.Idx) := by
    funext a; apply Fin.ext
    match a with
    | ⟨0, _⟩ => show win1_3.index t 0 * S1024x256.size 0 + 1 * p.val = 1024 * (t.val / 4) + p.val; rw [hi.1]; show t.val / 4 * 1024 + 1 * p.val = _; omega
    | ⟨1, _⟩ => show win1_3.index t 1 * S1024x256.size 1 + 1 * q.val = q.val; rw [hi.2]; omega
  rw [ei, r1_outAt_last_eq V c t h3]
  refine (k1_pay3_apply (r1_accAt V c t.val t.isLt) (r1_blkF V c t) p q).trans ?_
  rw [r1_acc_last V c t h3 p q ⟨1024 * (t.val / 4) + p.val, hg⟩ rfl,
    r1_fblk_apply V c t (ix2 p (0 : Fin 1)) (ix2 ⟨1024 * (t.val / 4) + p.val, hg⟩ (0 : Fin 1)) rfl rfl]
  rfl

theorem r1_cover (i : S8192x256.Idx) : ∃ t : Fin cfg1.N, (cfg1.win 3).flush t = true ∧ i ∈ ((cfg1.win 3).blk t).view.set := by
  have h0 : (i 0).val < 8192 := idx2_lt0 i
  have h1 : (i 1).val < 256 := idx2_lt1 i
  have hN : cfg1.N = 32 := N_1
  refine ⟨⟨4 * ((i 0).val / 1024) + 3, by omega⟩, (flush1_3 _).mpr (by dsimp only; omega), ?_⟩
  rw [r1_mem_blk]
  have hi := r1_idx_3 ⟨4 * ((i 0).val / 1024) + 3, by omega⟩
  intro a
  match a with
  | ⟨0, _⟩ =>
    show win1_3.index _ 0 * S1024x256.size 0 ≤ (i 0).val ∧ (i 0).val < win1_3.index _ 0 * S1024x256.size 0 + S1024x256.size 0
    rw [hi.1]
    show (4 * ((i 0).val / 1024) + 3) / 4 * 1024 ≤ (i 0).val ∧ (i 0).val < (4 * ((i 0).val / 1024) + 3) / 4 * 1024 + 1024
    omega
  | ⟨1, _⟩ =>
    show win1_3.index _ 1 * S1024x256.size 1 ≤ (i 1).val ∧ (i 1).val < win1_3.index _ 1 * S1024x256.size 1 + S1024x256.size 1
    rw [hi.2]
    show 0 * 256 ≤ (i 1).val ∧ (i 1).val < 0 * 256 + 256
    omega

theorem final1 (c : Dev nD) :
    ((region1 (F := Ideal) V).dat c).arrAt 3 cfg1.N
      = Cert.Spec.rowScale (Cert.Spec.mm (V c main_arg2) (V c main_v0)) (V c main_v1) :=
  (r1_dat V c).arrAt_eq_of_cover 3 (r1_G V c) (r1_flushed_eq V c) r1_cover

end

end Cert.KernelIdeal.Hand

end
-- ==== Proof.Hand.R2s.lean ====
import proofs.«108687_j68341519613982_1_alg».proof.Proof.Hand.R2
import proofs.«108687_j68341519613982_1_alg».proof.Proof.Hand.Pay2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem r2_idx0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem r2_idx1 : ∀ t : Fin cfg2.N, win2_1.index t 0 = t.val % 4 ∧ win2_1.index t 1 = 0 :=
  (by decide +kernel : ∀ t : Fin grid2.N, win2_1.index t 0 = t.val % 4 ∧ win2_1.index t 1 = 0)
theorem r2_idx2 : ∀ t : Fin cfg2.N, win2_2.index t 0 = t.val / 4 ∧ win2_2.index t 1 = 0 :=
  (by decide +kernel : ∀ t : Fin grid2.N, win2_2.index t 0 = t.val / 4 ∧ win2_2.index t 1 = 0)

section Blocks
variable (V : (c : Dev nD) → (b : Ref sig .tc) → Buf (Elt F) ((c : Thread nD τ).loc b))

abbrev r2_arrL (c : Dev nD) : Vec F S8192x8192 .f32 := V c main_arg1
abbrev r2_arrR (c : Dev nD) : Vec F S8192x256 .f32 := V c main_v2

theorem r2_blk0_at (c : Dev nD) (t : Fin cfg2.N) (p : Fin 1024) (kk : Fin 2048) (r k : Fin 8192)
    (hr : r.val = 1024 * (t.val / 4) + p.val) (hk : k.val = 2048 * (t.val % 4) + kk.val) :
    r2_blk0 V c t (ix2 p kk) = r2_arrL V c (ix2 r k) := by
  have hi := r2_idx0 t
  unfold r2_blk0 r2_iblk
  rw [View.read_apply]
  show V c main_arg1 _ = V c main_arg1 _
  congr 1
  funext a
  apply Fin.ext
  match a with
  | ⟨0, _⟩ => show win2_0.index t 0 * 1024 + 1 * p.val = r.val; rw [hi.1, hr]; omega
  | ⟨1, _⟩ => show win2_0.index t 1 * 2048 + 1 * kk.val = k.val; rw [hi.2, hk]; omega

theorem r2_blk1_at (c : Dev nD) (t : Fin cfg2.N) (kk : Fin 2048) (q : Fin 256) (k : Fin 8192)
    (hk : k.val = 2048 * (t.val % 4) + kk.val) :
    r2_blk1 V c t (ix2 kk q) = r2_arrR V c (ix2 k q) := by
  have hi := r2_idx1 t
  unfold r2_blk1 r2_iblk
  rw [View.read_apply]
  show V c main_v2 _ = V c main_v2 _
  congr 1
  funext a
  apply Fin.ext
  match a with
  | ⟨0, _⟩ => show win2_1.index t 0 * 2048 + 1 * kk.val = k.val; rw [hi.1, hk]; omega
  | ⟨1, _⟩ => show win2_1.index t 1 * S2048x256.size 1 + 1 * q.val = q.val; rw [hi.2]; omega

end Blocks

section Sums
variable (V : (c : Dev nD) → (b : Ref sig .tc) → Buf (Elt Ideal) ((c : Thread nD τ).loc b))

def r2_stretch (A : Vec Ideal S8192x8192 .f32) (T : Vec Ideal S8192x256 .f32) (r : Fin 8192) (q : Fin 256) (b : ℕ) (hb : b < 4) : EReal :=
  ∑ kk : Fin 2048, A (ix2 r ⟨2048 * b + kk.val, by have := kk.isLt; omega⟩) * T (ix2 ⟨2048 * b + kk.val, by have := kk.isLt; omega⟩ q)

def r2_acc (A : Vec Ideal S8192x8192 .f32) (T : Vec Ideal S8192x256 .f32) (r : Fin 8192) (q : Fin 256) : (k : ℕ) → k < 4 → EReal
  | 0, h => Ideal.ofBits .f32 0x00000000#32 + r2_stretch A T r q 0 h
  | k + 1, h => r2_acc A T r q k (Nat.lt_of_succ_lt h) + r2_stretch A T r q (k + 1) h

theorem r2_update_at (c : Dev nD) (t : Fin cfg2.N) (acc : Vec Ideal S1024x256 .f32) (p : Fin 1024) (q : Fin 256) (r : Fin 8192)
    (hr : r.val = 1024 * (t.val / 4) + p.val) (b : ℕ) (hb : b < 4) (hbt : b = t.val % 4) :
    k2_pay2 (F := Ideal) (r2_blk0 V c t) (r2_blk1 V c t) acc (ix2 p q)
      = acc (ix2 p q) + r2_stretch (r2_arrL V c) (r2_arrR V c) r q b hb := by
  refine (k2_pay2_apply (r2_blk0 V c t) (r2_blk1 V c t) acc p q).trans ?_
  refine congrArg (acc (ix2 p q) + ·) ?_
  unfold r2_stretch
  refine Finset.sum_congr rfl fun kk _ => ?_
  rw [r2_blk0_at V c t p kk r ⟨2048 * b + kk.val, by have := kk.isLt; omega⟩ hr (by subst hbt; rfl),
    r2_blk1_at V c t kk q ⟨2048 * b + kk.val, by have := kk.isLt; omega⟩ (by subst hbt; rfl)]

theorem r2_acc_inv (c : Dev nD) : ∀ (n : ℕ) (hn : n < cfg2.N) (p : Fin 1024) (q : Fin 256) (r : Fin 8192)
    (hr : r.val = 1024 * (n / 4) + p.val) (k : ℕ) (hk : k < 4) (hkn : k = n % 4),
    ((r2_outsAt V c n hn).2 : Vec Ideal S1024x256 .f32) (ix2 p q) = r2_acc (r2_arrL V c) (r2_arrR V c) r q k hk := by
  intro n
  induction n with
  | zero =>
    intro hn p q r hr k hk hkn
    obtain rfl : k = 0 := by omega
    refine (congrFun (r2_acc_first V c ⟨0, hn⟩ rfl) (ix2 p q)).trans ?_
    refine (r2_update_at V c ⟨0, hn⟩ _ p q r hr 0 hk rfl).trans ?_
    rfl
  | succ n ih =>
    intro hn p q r hr k hk hkn
    by_cases h0 : (n + 1) % 4 = 0
    · obtain rfl : k = 0 := by omega
      refine (congrFun (r2_acc_first V c ⟨n + 1, hn⟩ h0) (ix2 p q)).trans ?_
      refine (r2_update_at V c ⟨n + 1, hn⟩ _ p q r hr 0 hk h0.symm).trans ?_
      rfl
    · obtain ⟨k', rfl⟩ : ∃ k', k = k' + 1 := ⟨k - 1, by omega⟩
      refine (congrFun (r2_acc_next V c ⟨n + 1, hn⟩ h0) (ix2 p q)).trans ?_
      refine (r2_update_at V c ⟨n + 1, hn⟩ _ p q r hr (k' + 1) hk hkn).trans ?_
      show ((r2_outsAt V c n _).2 : Vec Ideal S1024x256 .f32) (ix2 p q) + _ = r2_acc (r2_arrL V c) (r2_arrR V c) r q k' _ + _
      rw [ih (Nat.lt_of_succ_lt hn) p q r (by omega) k' (by omega) (by omega)]

theorem r2_whole_sum (A : Vec Ideal S8192x8192 .f32) (T : Vec Ideal S8192x256 .f32) (r : Fin 8192) (q : Fin 256) (h : 3 < 4) :
    r2_acc A T r q 3 h = ∑ k : Fin 8192, A (ix2 r k) * T (ix2 k q) := by
  show (((Ideal.ofBits .f32 0x00000000#32 + r2_stretch A T r q 0 _) + r2_stretch A T r q 1 _) + r2_stretch A T r q 2 _) + r2_stretch A T r q 3 _ = _
  rw [Ideal.ofBits_zero_f32]
  exact (Cert.Spec.sum_four_steps (fun k : Fin 8192 => A (ix2 r k) * T (ix2 k q))).symm

def r2_sums (A : Vec Ideal S8192x8192 .f32) (T : Vec Ideal S8192x256 .f32) (i : ℕ) (hi : i < 8) : Vec Ideal S1024x256 .f32 :=
  fun y => ∑ k : Fin 8192, A (ix2 ⟨1024 * i + (y 0).val, by have := idx2_lt0 y; omega⟩ k) * T (ix2 k (y 1))

theorem r2_final_pay (c : Dev nD) (t : Fin cfg2.N) (h3 : t.val % 4 = 3) :
    (r2_dat V c).after 2 t = k2_pay3 (F := Ideal) (r2_sums (r2_arrL V c) (r2_arrR V c) (t.val / 4) (by have := t.isLt; have : cfg2.N = 32 := N_2; omega)) := by
  rw [r2_after2, r2_out_last V c t (by omega) h3]
  refine congrArg (k2_pay3 (F := Ideal)) (funext fun y => ?_)
  obtain ⟨p, q, rfl⟩ : ∃ (p : Fin 1024) (q : Fin 256), y = ix2 p q := ⟨y 0, y 1, eq_ix2 y⟩
  refine (r2_acc_inv V c t.val t.isLt p q ⟨1024 * (t.val / 4) + p.val, by have := t.isLt; have : cfg2.N = 32 := N_2; omega⟩ rfl 3 (by omega) h3.symm).trans ?_
  exact r2_whole_sum _ _ _ _ _

theorem r2_cover (i : S8192x256.Idx) : ∃ t : Fin cfg2.N, (cfg2.win 2).flush t = true ∧ i ∈ ((cfg2.win 2).blk t).view.set := by
  have hi0 : (i 0).val < 8192 := idx2_lt0 i
  have hN : cfg2.N = 32 := N_2
  obtain ⟨t, ht⟩ : ∃ t : Fin cfg2.N, t.val = 4 * ((i 0).val / 1024) + 3 := ⟨⟨4 * ((i 0).val / 1024) + 3, by omega⟩, rfl⟩
  refine ⟨t, (flush2_2 t).mpr (by omega), ?_⟩
  show i ∈ ((View.whole main_v3).slice (win2_2.rect t)).set
  rw [View.set_slice_whole, Rect.mem_set_unit]
  intro a
  match a with
  | ⟨0, _⟩ =>
    show win2_2.index t 0 * 1024 ≤ (i 0).val ∧ (i 0).val < win2_2.index t 0 * 1024 + 1024
    rw [(r2_idx2 t).1]
    omega
  | ⟨1, _⟩ =>
    show win2_2.index t 1 * S1024x256.size 1 ≤ (i 1).val ∧ (i 1).val < win2_2.index t 1 * S1024x256.size 1 + S1024x256.size 1
    rw [(r2_idx2 t).2, Nat.zero_mul, Nat.zero_add]
    exact ⟨Nat.zero_le _, (i 1).isLt⟩

theorem r2_flushed_of (c : Dev nD) (G : Vec Ideal S8192x256 .f32)
    (hG : ∀ (i : ℕ) (hi : i < 8) (p : Fin 1024) (q : Fin 256) (r : Fin 8192) (hr : r.val = 1024 * i + p.val),
      k2_pay3 (F := Ideal) (r2_sums (r2_arrL V c) (r2_arrR V c) i hi) (ix2 p q) = G (ix2 r q))
    (t : Fin cfg2.N) (hf : (cfg2.win 2).flush t = true) :
    (r2_dat V c).flushed 2 t = ((cfg2.win 2).blk t).view.read (Elt Ideal) G := by
  have h3 := (flush2_2 t).mp hf
  have hN : cfg2.N = 32 := N_2
  have ht := t.isLt
  show (cfg2.win 2).cut (grid2.coords t) ((r2_dat V c).after 2 t) = _
  rw [r2_final_pay V c t h3]
  funext j
  obtain ⟨p, q, rfl⟩ : ∃ (p : Fin 1024) (q : Fin 256), j = ix2 p q := ⟨j 0, j 1, eq_ix2 j⟩
  show k2_pay3 (F := Ideal) (r2_sums (r2_arrL V c) (r2_arrR V c) (t.val / 4) _) (ix2 p q) = G (((cfg2.win 2).blk t).view.emb (ix2 p q))
  rw [hG (t.val / 4) (by omega) p q ⟨1024 * (t.val / 4) + p.val, by omega⟩ rfl]
  congr 1
  funext a
  apply Fin.ext
  match a with
  | ⟨0, _⟩ => show 1024 * (t.val / 4) + p.val = win2_2.index t 0 * 1024 + 1 * p.val; rw [(r2_idx2 t).1]; omega
  | ⟨1, _⟩ => show q.val = win2_2.index t 1 * S1024x256.size 1 + 1 * q.val; rw [(r2_idx2 t).2]; omega

theorem r2_arr_of (c : Dev nD) (G : Vec Ideal S8192x256 .f32)
    (hG : ∀ (i : ℕ) (hi : i < 8) (p : Fin 1024) (q : Fin 256) (r : Fin 8192) (hr : r.val = 1024 * i + p.val),
      k2_pay3 (F := Ideal) (r2_sums (r2_arrL V c) (r2_arrR V c) i hi) (ix2 p q) = G (ix2 r q)) :
    (r2_dat V c).arrAt 2 cfg2.N = G :=
  (r2_dat V c).arrAt_eq_of_cover 2 G (r2_flushed_of V c G hG) r2_cover

end Sums

end Cert.KernelIdeal.Hand

end
-- ==== Proof.Hand.R2Value.lean ====
import proofs.«108687_j68341519613982_1_alg».proof.Proof.Hand.R2s

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem final2 (V : (c : Dev nD) → (b : Ref sig .tc) → Buf (Elt Ideal) ((c : Thread nD τ).loc b)) (c : Dev nD) :
    ((region2 (F := Ideal) V).dat c).arrAt 2 cfg2.N = Cert.Spec.posPart (Cert.Spec.mm (V c main_arg1) (V c main_v2)) := by
  show (r2_dat V c).arrAt 2 cfg2.N = _
  refine r2_arr_of V c _ (fun i hi p q r hr => ?_)
  have hb : 1024 * i + p.val < 8192 := by have := p.isLt; clear hr; omega
  obtain rfl : r = ⟨1024 * i + p.val, hb⟩ := Fin.ext hr
  refine (k2_pay3_apply _ _).trans ?_
  refine (congrArg (max · (Ideal.ofBits .f32 0x00000000#32)) ?_).trans (Cert.Spec.posPart_apply _ _).symm
  exact (Cert.Spec.mm_apply _ _ _ _).symm

end Cert.KernelIdeal.Hand

end
-- ==== Proof.Hand.R3Value.lean ====
import proofs.«108687_j68341519613982_1_alg».proof.Proof.Hand.R3
import proofs.«108687_j68341519613982_1_alg».proof.Proof.Hand.Spec
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem r3_hz : (![0, 0] : Fin 2 → Nat) = fun _ => 0 := funext fun a => by fin_cases a <;> rfl

theorem r3_lhs_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl

theorem r3_lhs_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q

theorem r3_rhs_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q

theorem r3_rhs_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

theorem r3_pay_apply (x : FVec Ideal S1024x256 .f32) (w : FVec Ideal S256x64 .f32) (p : Fin 1024) (q : Fin 64) :
    k3_pay1 (F := Ideal) x w (ix2 p q) = ∑ k : Fin 256, x (ix2 p k) * w (ix2 k q) := by
  unfold k3_pay1
  simp only [matmul, shapeCast_self]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun a => Fin.ext (by
    match a with
    | ⟨0, _⟩ => exact r3_lhs_0 _ _
    | ⟨1, _⟩ => exact (r3_lhs_1 _ _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun a => Fin.ext (by
    match a with
    | ⟨0, _⟩ => exact (r3_rhs_0 _ _).trans hk
    | ⟨1, _⟩ => exact r3_rhs_1 _ _)
  rw [el, er]
  rfl

section Region
variable (V : (c : Dev nD) → (b : Ref sig .tc) → Buf (Elt Ideal) ((c : Thread nD τ).loc b))

theorem r3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem r3_iblk0_apply (c : Dev nD) (t : Fin cfg3.N) (p : Fin 1024) (k : Fin 256) (r : Fin 8192)
    (hr : r.val = 1024 * t.val + p.val) :
    (r3_iblk V c 0 t : Vec Ideal S1024x256 .f32) (ix2 p k) = (V c main_v3 : S8192x256.Idx → EReal) (ix2 r k) := by
  obtain ⟨e0, e1, -⟩ := r3_idx_facts t
  unfold r3_iblk
  rw [View.read_apply]
  show V c main_v3 _ = V c main_v3 _
  congr 1
  funext a
  apply Fin.ext
  match a with
  | ⟨0, _⟩ => show win3_0.index t 0 * 1024 + 1 * p.val = r.val; rw [e0, hr]; omega
  | ⟨1, _⟩ => show win3_0.index t 1 * 256 + 1 * k.val = k.val; rw [e1]; omega

theorem r3_iblk1_apply (c : Dev nD) (t : Fin cfg3.N) (k : Fin 256) (q : Fin 64) :
    (r3_iblk V c 1 t : Vec Ideal S256x64 .f32) (ix2 k q) = (V c main_arg5 : S256x64.Idx → EReal) (ix2 k q) := by
  obtain ⟨-, -, e2, e3, -⟩ := r3_idx_facts t
  unfold r3_iblk
  rw [View.read_apply]
  show V c main_arg5 _ = V c main_arg5 _
  congr 1
  funext a
  apply Fin.ext
  match a with
  | ⟨0, _⟩ => show win3_1.index t 0 * 256 + 1 * k.val = k.val; rw [e2]; omega
  | ⟨1, _⟩ => show win3_1.index t 1 * 64 + 1 * q.val = q.val; rw [e3]; omega

theorem r3_block_apply (c : Dev nD) (t : Fin cfg3.N) (p : Fin 1024) (q : Fin 64) (r : Fin 8192)
    (hr : r.val = 1024 * t.val + p.val) :
    k3_pay1 (F := Ideal) (r3_iblk V c 0 t) (r3_iblk V c 1 t) (ix2 p q)
      = Cert.Spec.mm (V c main_v3) (V c main_arg5) (ix2 r q) := by
  refine (r3_pay_apply (r3_iblk V c 0 t) (r3_iblk V c 1 t) p q).trans ?_
  rw [Cert.Spec.mm_apply]
  refine Finset.sum_congr rfl fun k _ => ?_
  rw [r3_iblk0_apply V c t p k r hr, r3_iblk1_apply V c t k q]

theorem r3_flushed_eq (c : Dev nD) (t : Fin cfg3.N) :
    (r3_dat V c).flushed 2 t
      = ((cfg3.win 2).blk t).view.read (Elt Ideal) (Cert.Spec.mm (V c main_v3) (V c main_arg5)) := by
  show (cfg3.win 2).cut (grid3.coords t) ((r3_dat V c).after 2 t) = _
  rw [r3_after_2]
  unfold r3_out
  rw [View.canon_unit_zero r3_hz]
  simp only [View.ld_unit_zero (S := S1024x256) r3_hz, View.ld_unit_zero (S := S256x64) r3_hz]
  funext j
  obtain ⟨-, -, -, -, e4, e5⟩ := r3_idx_facts t
  have hN : cfg3.N = 8 := N_3
  have ht : t.val < 8 := hN ▸ t.isLt
  have hj0 : (j 0).val < 1024 := (j 0).isLt
  have hj1 : (j 1).val < 64 := (j 1).isLt
  show k3_pay1 (F := Ideal) (r3_iblk V c 0 t) (r3_iblk V c 1 t) j
    = Cert.Spec.mm (V c main_v3) (V c main_arg5) (((cfg3.win 2).blk t).view.emb j)
  have hjl : j = ix2 (⟨(j 0).val, hj0⟩ : Fin 1024) (⟨(j 1).val, hj1⟩ : Fin 64) := by
    funext a
    match a with
    | ⟨0, _⟩ => rfl
    | ⟨1, _⟩ => rfl
  have hjr : ((cfg3.win 2).blk t).view.emb j
      = ix2 (⟨1024 * t.val + (j 0).val, by omega⟩ : Fin 8192) (⟨(j 1).val, hj1⟩ : Fin 64) := by
    funext a
    apply Fin.ext
    match a with
    | ⟨0, _⟩ => show win3_2.index t 0 * 1024 + 1 * (j 0).val = 1024 * t.val + (j 0).val; rw [e4]; omega
    | ⟨1, _⟩ => show win3_2.index t 1 * 64 + 1 * (j 1).val = (j 1).val; rw [e5]; omega
  exact (congrArg (k3_pay1 (F := Ideal) (r3_iblk V c 0 t) (r3_iblk V c 1 t)) hjl).trans
    ((r3_block_apply V c t _ _ _ rfl).trans (congrArg (Cert.Spec.mm (V c main_v3) (V c main_arg5)) hjr.symm))

theorem r3_mem_blk (t : Fin cfg3.N) (i : S8192x64.Idx) :
    i ∈ ((cfg3.win 2).blk t).view.set ↔ ∀ a : Fin 2, win3_2.index t a * S1024x64.size a ≤ (i a).val
      ∧ (i a).val < win3_2.index t a * S1024x64.size a + S1024x64.size a := by
  show i ∈ ((View.whole main_v4).slice (win3_2.rect t)).set ↔ _
  rw [View.set_slice_whole, Rect.mem_set_unit]
  exact Iff.rfl

theorem r3_blocks_cover (i : S8192x64.Idx) :
    ∃ t : Fin cfg3.N, (cfg3.win 2).flush t = true ∧ i ∈ ((cfg3.win 2).blk t).view.set := by
  have hi0 : (i 0).val < 8192 := (i 0).isLt
  have hi1 : (i 1).val < 64 := (i 1).isLt
  have hN : cfg3.N = 8 := N_3
  have hlt : (i 0).val / 1024 < cfg3.N := by rw [hN]; omega
  obtain ⟨-, -, -, -, e4, e5⟩ := r3_idx_facts ⟨(i 0).val / 1024, hlt⟩
  refine ⟨⟨(i 0).val / 1024, hlt⟩, flush3_2 _, ?_⟩
  rw [r3_mem_blk]
  intro a
  match a with
  | ⟨0, _⟩ =>
    show win3_2.index ⟨(i 0).val / 1024, hlt⟩ (0 : Fin 2) * 1024 ≤ (i 0).val
      ∧ (i 0).val < win3_2.index ⟨(i 0).val / 1024, hlt⟩ (0 : Fin 2) * 1024 + 1024
    rw [e4]; show (i 0).val / 1024 * 1024 ≤ (i 0).val ∧ (i 0).val < (i 0).val / 1024 * 1024 + 1024; omega
  | ⟨1, _⟩ =>
    show win3_2.index ⟨(i 0).val / 1024, hlt⟩ (1 : Fin 2) * 64 ≤ (i 1).val
      ∧ (i 1).val < win3_2.index ⟨(i 0).val / 1024, hlt⟩ (1 : Fin 2) * 64 + 64
    rw [e5]; omega

end Region

theorem final3 (V : (c : Dev nD) → (b : Ref sig .tc) → Buf (Elt Ideal) ((c : Thread nD τ).loc b)) (c : Dev nD) :
    ((region3 (F := Ideal) V).dat c).arrAt 2 cfg3.N = Cert.Spec.mm (V c main_v3) (V c main_arg5) :=
  (r3_dat V c).arrAt_eq_of_cover 2 (Cert.Spec.mm (V c main_v3) (V c main_arg5))
    (fun t _ => r3_flushed_eq V c t) r3_blocks_cover

end Cert.KernelIdeal.Hand

end
-- ==== Proof.Hand.R4Value.lean ====
import proofs.«108687_j68341519613982_1_alg».proof.Proof.Hand.R4
import proofs.«108687_j68341519613982_1_alg».proof.Proof.Hand.Pay2
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]

theorem r4_idx_0 : ∀ t : Fin cfg4.N, win4_0.index t 0 = t.val / 4 ∧ win4_0.index t 1 = t.val % 4 :=
  (by decide +kernel : ∀ t : Fin grid4.N, win4_0.index t 0 = t.val / 4 ∧ win4_0.index t 1 = t.val % 4)
theorem r4_idx_1 : ∀ t : Fin cfg4.N, win4_1.index t 0 = t.val % 4 ∧ win4_1.index t 1 = 0 :=
  (by decide +kernel : ∀ t : Fin grid4.N, win4_1.index t 0 = t.val % 4 ∧ win4_1.index t 1 = 0)
theorem r4_idx_2 : ∀ t : Fin cfg4.N, win4_2.index t 0 = t.val / 4 ∧ win4_2.index t 1 = 0 :=
  (by decide +kernel : ∀ t : Fin grid4.N, win4_2.index t 0 = t.val / 4 ∧ win4_2.index t 1 = 0)
theorem r4_idx_3 : ∀ t : Fin cfg4.N, win4_3.index t 0 = t.val / 4 ∧ win4_3.index t 1 = 0 :=
  (by decide +kernel : ∀ t : Fin grid4.N, win4_3.index t 0 = t.val / 4 ∧ win4_3.index t 1 = 0)

section
variable {F : FTy → Type} [FloatOps F]
variable (V : (c : Dev nD) → (b : Ref sig .tc) → Buf (Elt F) ((c : Thread nD τ).loc b))

theorem r4_ablk_apply (c : Dev nD) (t : Fin cfg4.N) (x : S1024x2048.Idx) (k : S8192x8192.Idx)
    (hk0 : (k 0).val = 1024 * (t.val / 4) + (x 0).val) (hk1 : (k 1).val = 2048 * (t.val % 4) + (x 1).val) :
    r4_blkA V c t x = (V c main_arg2 : S8192x8192.Idx → Elt F .f32) k := by
  have hi := r4_idx_0 t
  unfold r4_blkA r4_iblk
  rw [View.read_apply]
  show V c main_arg2 _ = V c main_arg2 _
  congr 1
  funext a
  apply Fin.ext
  match a with
  | ⟨0, _⟩ => show win4_0.index t 0 * S1024x2048.size 0 + 1 * (x 0).val = (k 0).val; rw [hi.1, hk0]; show t.val / 4 * 1024 + 1 * (x 0).val = _; omega
  | ⟨1, _⟩ => show win4_0.index t 1 * S1024x2048.size 1 + 1 * (x 1).val = (k 1).val; rw [hi.2, hk1]; show t.val % 4 * 2048 + 1 * (x 1).val = _; omega

theorem r4_tblk_apply (c : Dev nD) (t : Fin cfg4.N) (x : S2048x64.Idx) (k : S8192x64.Idx)
    (hk0 : (k 0).val = 2048 * (t.val % 4) + (x 0).val) (hk1 : (k 1).val = (x 1).val) :
    r4_blkT V c t x = (V c main_v4 : S8192x64.Idx → Elt F .f32) k := by
  have hi := r4_idx_1 t
  unfold r4_blkT r4_iblk
  rw [View.read_apply]
  show V c main_v4 _ = V c main_v4 _
  congr 1
  funext a
  apply Fin.ext
  match a with
  | ⟨0, _⟩ => show win4_1.index t 0 * S2048x64.size 0 + 1 * (x 0).val = (k 0).val; rw [hi.1, hk0]; show t.val % 4 * 2048 + 1 * (x 0).val = _; omega
  | ⟨1, _⟩ => show win4_1.index t 1 * S2048x64.size 1 + 1 * (x 1).val = (k 1).val; rw [hi.2, hk1]; omega

theorem r4_fblk_apply (c : Dev nD) (t : Fin cfg4.N) (x : S1024x1.Idx) (k : S8192x1.Idx)
    (hk0 : (k 0).val = 1024 * (t.val / 4) + (x 0).val) (hk1 : (k 1).val = (x 1).val) :
    r4_blkF V c t x = (V c main_v5 : S8192x1.Idx → Elt F .f32) k := by
  have hi := r4_idx_2 t
  unfold r4_blkF r4_iblk
  rw [View.read_apply]
  show V c main_v5 _ = V c main_v5 _
  congr 1
  funext a
  apply Fin.ext
  match a with
  | ⟨0, _⟩ => show win4_2.index t 0 * S1024x1.size 0 + 1 * (x 0).val = (k 0).val; rw [hi.1, hk0]; show t.val / 4 * 1024 + 1 * (x 0).val = _; omega
  | ⟨1, _⟩ => show win4_2.index t 1 * S1024x1.size 1 + 1 * (x 1).val = (k 1).val; rw [hi.2, hk1]; omega

end

section
variable (V : (c : Dev nD) → (b : Ref sig .tc) → Buf (Elt Ideal) ((c : Thread nD τ).loc b))

abbrev r4_matA (c : Dev nD) : Cert.Spec.Mat 8192 8192 := V c main_arg2
abbrev r4_matT (c : Dev nD) : Cert.Spec.Mat 8192 64 := V c main_v4
abbrev r4_colF (c : Dev nD) : Cert.Spec.Mat 8192 1 := V c main_v5

def r4_stretch (c : Dev nD) (g : Fin 8192) (q : Fin 64) (b : ℕ) (hb : b < 4) : EReal :=
  ∑ kk : Fin 2048, r4_matA V c (ix2 g ⟨2048 * b + kk.val, by have := kk.isLt; omega⟩)
    * r4_matT V c (ix2 ⟨2048 * b + kk.val, by have := kk.isLt; omega⟩ q)

theorem r4_blocks_stretch (c : Dev nD) (t : Fin cfg4.N) (b : ℕ) (hb : b < 4) (hbt : t.val % 4 = b)
    (p : Fin 1024) (q : Fin 64) (g : Fin 8192) (hg : g.val = 1024 * (t.val / 4) + p.val) :
    ∑ kk : Fin 2048, (r4_blkA V c t) (ix2 p kk) * (r4_blkT V c t) (ix2 kk q) = r4_stretch V c g q b hb := by
  unfold r4_stretch
  refine Finset.sum_congr rfl fun kk _ => ?_
  have eA := r4_ablk_apply V c t (ix2 p kk) (ix2 g ⟨2048 * b + kk.val, by have := kk.isLt; omega⟩) hg
    (show 2048 * b + kk.val = 2048 * (t.val % 4) + kk.val by rw [hbt])
  have eT := r4_tblk_apply V c t (ix2 kk q) (ix2 ⟨2048 * b + kk.val, by have := kk.isLt; omega⟩ q)
    (show 2048 * b + kk.val = 2048 * (t.val % 4) + kk.val by rw [hbt]) rfl
  rw [eA, eT]

theorem r4_acc_first (c : Dev nD) (n : ℕ) (hn : n < cfg4.N) (h0 : n % 4 = 0)
    (p : Fin 1024) (q : Fin 64) (g : Fin 8192) (hg : g.val = 1024 * (n / 4) + p.val) :
    r4_accAt V c n hn (ix2 p q) = 0 + r4_stretch V c g q 0 (by decide) := by
  have e : r4_accAt V c n hn = k4_pay2 (r4_blkA V c ⟨n, hn⟩) (r4_blkT V c ⟨n, hn⟩) (k4_pay1 (F := Ideal)) :=
    r4_accAt_first_eq V c ⟨n, hn⟩ h0
  rw [e]
  refine (k4_pay2_apply (r4_blkA V c ⟨n, hn⟩) (r4_blkT V c ⟨n, hn⟩) (k4_pay1 (F := Ideal)) p q).trans ?_
  rw [k4_pay1_apply, Ideal.ofBits_zero_f32, r4_blocks_stretch V c ⟨n, hn⟩ 0 (by decide) h0 p q g hg]

theorem r4_acc_next (c : Dev nD) (n : ℕ) (hn : n + 1 < cfg4.N) (b : ℕ) (hb : b < 4) (hbt : (n + 1) % 4 = b) (hb0 : b ≠ 0)
    (p : Fin 1024) (q : Fin 64) (g : Fin 8192) (hg : g.val = 1024 * ((n + 1) / 4) + p.val) :
    r4_accAt V c (n + 1) hn (ix2 p q) = r4_accAt V c n (Nat.lt_of_succ_lt hn) (ix2 p q) + r4_stretch V c g q b hb := by
  have e : r4_accAt V c (n + 1) hn
      = k4_pay2 (r4_blkA V c ⟨n + 1, hn⟩) (r4_blkT V c ⟨n + 1, hn⟩) (r4_accAt V c n (Nat.lt_of_succ_lt hn)) :=
    r4_accAt_next_eq V c ⟨n + 1, hn⟩ (by dsimp only; omega)
  rw [e]
  refine (k4_pay2_apply (r4_blkA V c ⟨n + 1, hn⟩) (r4_blkT V c ⟨n + 1, hn⟩) (r4_accAt V c n (Nat.lt_of_succ_lt hn)) p q).trans ?_
  rw [r4_blocks_stretch V c ⟨n + 1, hn⟩ b hb hbt p q g hg]

theorem r4_acc_last (c : Dev nD) (t : Fin cfg4.N) (h3 : t.val % 4 = 3)
    (p : Fin 1024) (q : Fin 64) (g : Fin 8192) (hg : g.val = 1024 * (t.val / 4) + p.val) :
    r4_accAt V c t.val t.isLt (ix2 p q) = ∑ k : Fin 8192, r4_matA V c (ix2 g k) * r4_matT V c (ix2 k q) := by
  obtain ⟨tv, ht⟩ := t
  obtain ⟨n, rfl⟩ : ∃ n, tv = n + 3 := ⟨tv - 3, by dsimp only at h3; omega⟩
  dsimp only at h3 hg
  show r4_accAt V c (n + 3) ht (ix2 p q) = _
  have e3 : r4_accAt V c (n + 3) ht (ix2 p q) = r4_accAt V c (n + 2) (by omega) (ix2 p q) + r4_stretch V c g q 3 (by decide) :=
    r4_acc_next V c (n + 2) ht 3 (by decide) (by omega) (by decide) p q g (by omega)
  have e2 : r4_accAt V c (n + 2) (by omega) (ix2 p q) = r4_accAt V c (n + 1) (by omega) (ix2 p q) + r4_stretch V c g q 2 (by decide) :=
    r4_acc_next V c (n + 1) (by omega) 2 (by decide) (by omega) (by decide) p q g (by omega)
  have e1 : r4_accAt V c (n + 1) (by omega) (ix2 p q) = r4_accAt V c n (by omega) (ix2 p q) + r4_stretch V c g q 1 (by decide) :=
    r4_acc_next V c n (by omega) 1 (by decide) (by omega) (by decide) p q g (by omega)
  have e0 : r4_accAt V c n (by omega) (ix2 p q) = 0 + r4_stretch V c g q 0 (by decide) :=
    r4_acc_first V c n (by omega) (by omega) p q g (by omega)
  rw [e3, e2, e1, e0]
  exact (Cert.Spec.sum_four_steps (fun k : Fin 8192 => r4_matA V c (ix2 g k) * r4_matT V c (ix2 k q))).symm

abbrev r4_G (c : Dev nD) : Cert.Spec.Mat 8192 64 :=
  Cert.Spec.rowScale (Cert.Spec.mm (r4_matA V c) (r4_matT V c)) (r4_colF V c)

theorem r4_mem_blk (t : Fin cfg4.N) (i : S8192x64.Idx) :
    i ∈ ((cfg4.win 3).blk t).view.set ↔ ∀ a : Fin 2, win4_3.index t a * S1024x64.size a ≤ (i a).val ∧ (i a).val < win4_3.index t a * S1024x64.size a + S1024x64.size a := by
  show i ∈ ((View.whole main_v6).slice (win4_3.rect t)).set ↔ _
  rw [View.set_slice_whole, Rect.mem_set_unit]
  exact Iff.rfl

theorem r4_flushed_eq (c : Dev nD) (t : Fin cfg4.N) (hf : (cfg4.win 3).flush t = true) :
    (r4_dat V c).flushed 3 t = ((cfg4.win 3).blk t).view.read (Elt Ideal) (r4_G V c) := by
  have h3 : t.val % 4 = 3 := (flush4_3 t).mp hf
  have hN : t.val < 32 := lt_of_lt_of_eq t.isLt (show cfg4.N = 32 from N_4)
  have hi := r4_idx_3 t
  show (cfg4.win 3).cut (grid4.coords t) ((r4_dat V c).after 3 t) = _
  rw [r4_after_3]
  refine funext fun (j : S1024x64.Idx) => ?_
  obtain ⟨p, q, rfl⟩ : ∃ (p : Fin 1024) (q : Fin 64), j = ix2 p q := ⟨j 0, j 1, eq_ix2 j⟩
  show r4_outAt V c t.val t.isLt (ix2 p q) = r4_G V c (((cfg4.win 3).blk t).view.emb (ix2 p q))
  have hg : 1024 * (t.val / 4) + p.val < 8192 := by have := p.isLt; omega
  have ei : ((cfg4.win 3).blk t).view.emb (ix2 p q) = (ix2 ⟨1024 * (t.val / 4) + p.val, hg⟩ q : S8192x64.Idx) := by
    funext a; apply Fin.ext
    match a with
    | ⟨0, _⟩ => show win4_3.index t 0 * S1024x64.size 0 + 1 * p.val = 1024 * (t.val / 4) + p.val; rw [hi.1]; show t.val / 4 * 1024 + 1 * p.val = _; omega
    | ⟨1, _⟩ => show win4_3.index t 1 * S1024x64.size 1 + 1 * q.val = q.val; rw [hi.2]; omega
  rw [ei, r4_outAt_last_eq V c t h3]
  refine (k4_pay3_apply (r4_accAt V c t.val t.isLt) (r4_blkF V c t) p q).trans ?_
  rw [r4_acc_last V c t h3 p q ⟨1024 * (t.val / 4) + p.val, hg⟩ rfl,
    r4_fblk_apply V c t (ix2 p (0 : Fin 1)) (ix2 ⟨1024 * (t.val / 4) + p.val, hg⟩ (0 : Fin 1)) rfl rfl]
  rfl

theorem r4_cover (i : S8192x64.Idx) : ∃ t : Fin cfg4.N, (cfg4.win 3).flush t = true ∧ i ∈ ((cfg4.win 3).blk t).view.set := by
  have h0 : (i 0).val < 8192 := idx2_lt0 i
  have h1 : (i 1).val < 64 := idx2_lt1 i
  have hN : cfg4.N = 32 := N_4
  refine ⟨⟨4 * ((i 0).val / 1024) + 3, by omega⟩, (flush4_3 _).mpr (by dsimp only; omega), ?_⟩
  rw [r4_mem_blk]
  have hi := r4_idx_3 ⟨4 * ((i 0).val / 1024) + 3, by omega⟩
  intro a
  match a with
  | ⟨0, _⟩ =>
    show win4_3.index _ 0 * S1024x64.size 0 ≤ (i 0).val ∧ (i 0).val < win4_3.index _ 0 * S1024x64.size 0 + S1024x64.size 0
    rw [hi.1]
    show (4 * ((i 0).val / 1024) + 3) / 4 * 1024 ≤ (i 0).val ∧ (i 0).val < (4 * ((i 0).val / 1024) + 3) / 4 * 1024 + 1024
    omega
  | ⟨1, _⟩ =>
    show win4_3.index _ 1 * S1024x64.size 1 ≤ (i 1).val ∧ (i 1).val < win4_3.index _ 1 * S1024x64.size 1 + S1024x64.size 1
    rw [hi.2]
    show 0 * 64 ≤ (i 1).val ∧ (i 1).val < 0 * 64 + 64
    omega

theorem final4 (c : Dev nD) :
    ((region4 (F := Ideal) V).dat c).arrAt 3 cfg4.N
      = Cert.Spec.rowScale (Cert.Spec.mm (V c main_arg2) (V c main_v4)) (V c main_v5) :=
  (r4_dat V c).arrAt_eq_of_cover 3 (r4_G V c) (r4_flushed_eq V c) r4_cover

end

end Cert.KernelIdeal.Hand

end
-- ==== Proof.Hand.R5s.lean ====
import proofs.«108687_j68341519613982_1_alg».proof.Proof.Hand.R5
import proofs.«108687_j68341519613982_1_alg».proof.Proof.Hand.Pay2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem r5_idx0 : ∀ t : Fin cfg5.N, win5_0.index t 0 = t.val / 4 ∧ win5_0.index t 1 = t.val % 4 :=
  (by decide +kernel : ∀ t : Fin grid5.N, win5_0.index t 0 = t.val / 4 ∧ win5_0.index t 1 = t.val % 4)
theorem r5_idx1 : ∀ t : Fin cfg5.N, win5_1.index t 0 = t.val % 4 ∧ win5_1.index t 1 = 0 :=
  (by decide +kernel : ∀ t : Fin grid5.N, win5_1.index t 0 = t.val % 4 ∧ win5_1.index t 1 = 0)
theorem r5_idx2 : ∀ t : Fin cfg5.N, win5_2.index t 0 = t.val / 4 ∧ win5_2.index t 1 = 0 :=
  (by decide +kernel : ∀ t : Fin grid5.N, win5_2.index t 0 = t.val / 4 ∧ win5_2.index t 1 = 0)

section Blocks
variable (V : (c : Dev nD) → (b : Ref sig .tc) → Buf (Elt F) ((c : Thread nD τ).loc b))

abbrev r5_arrL (c : Dev nD) : Vec F S8192x8192 .f32 := V c main_arg1
abbrev r5_arrR (c : Dev nD) : Vec F S8192x64 .f32 := V c main_v6

theorem r5_blk0_at (c : Dev nD) (t : Fin cfg5.N) (p : Fin 1024) (kk : Fin 2048) (r k : Fin 8192)
    (hr : r.val = 1024 * (t.val / 4) + p.val) (hk : k.val = 2048 * (t.val % 4) + kk.val) :
    r5_blk0 V c t (ix2 p kk) = r5_arrL V c (ix2 r k) := by
  have hi := r5_idx0 t
  unfold r5_blk0 r5_iblk
  rw [View.read_apply]
  show V c main_arg1 _ = V c main_arg1 _
  congr 1
  funext a
  apply Fin.ext
  match a with
  | ⟨0, _⟩ => show win5_0.index t 0 * 1024 + 1 * p.val = r.val; rw [hi.1, hr]; omega
  | ⟨1, _⟩ => show win5_0.index t 1 * 2048 + 1 * kk.val = k.val; rw [hi.2, hk]; omega

theorem r5_blk1_at (c : Dev nD) (t : Fin cfg5.N) (kk : Fin 2048) (q : Fin 64) (k : Fin 8192)
    (hk : k.val = 2048 * (t.val % 4) + kk.val) :
    r5_blk1 V c t (ix2 kk q) = r5_arrR V c (ix2 k q) := by
  have hi := r5_idx1 t
  unfold r5_blk1 r5_iblk
  rw [View.read_apply]
  show V c main_v6 _ = V c main_v6 _
  congr 1
  funext a
  apply Fin.ext
  match a with
  | ⟨0, _⟩ => show win5_1.index t 0 * 2048 + 1 * kk.val = k.val; rw [hi.1, hk]; omega
  | ⟨1, _⟩ => show win5_1.index t 1 * S2048x64.size 1 + 1 * q.val = q.val; rw [hi.2]; omega

end Blocks

section Sums
variable (V : (c : Dev nD) → (b : Ref sig .tc) → Buf (Elt Ideal) ((c : Thread nD τ).loc b))

def r5_stretch (A : Vec Ideal S8192x8192 .f32) (T : Vec Ideal S8192x64 .f32) (r : Fin 8192) (q : Fin 64) (b : ℕ) (hb : b < 4) : EReal :=
  ∑ kk : Fin 2048, A (ix2 r ⟨2048 * b + kk.val, by have := kk.isLt; omega⟩) * T (ix2 ⟨2048 * b + kk.val, by have := kk.isLt; omega⟩ q)

def r5_acc (A : Vec Ideal S8192x8192 .f32) (T : Vec Ideal S8192x64 .f32) (r : Fin 8192) (q : Fin 64) : (k : ℕ) → k < 4 → EReal
  | 0, h => Ideal.ofBits .f32 0x00000000#32 + r5_stretch A T r q 0 h
  | k + 1, h => r5_acc A T r q k (Nat.lt_of_succ_lt h) + r5_stretch A T r q (k + 1) h

theorem r5_update_at (c : Dev nD) (t : Fin cfg5.N) (acc : Vec Ideal S1024x64 .f32) (p : Fin 1024) (q : Fin 64) (r : Fin 8192)
    (hr : r.val = 1024 * (t.val / 4) + p.val) (b : ℕ) (hb : b < 4) (hbt : b = t.val % 4) :
    k5_pay2 (F := Ideal) (r5_blk0 V c t) (r5_blk1 V c t) acc (ix2 p q)
      = acc (ix2 p q) + r5_stretch (r5_arrL V c) (r5_arrR V c) r q b hb := by
  refine (k5_pay2_apply (r5_blk0 V c t) (r5_blk1 V c t) acc p q).trans ?_
  refine congrArg (acc (ix2 p q) + ·) ?_
  unfold r5_stretch
  refine Finset.sum_congr rfl fun kk _ => ?_
  rw [r5_blk0_at V c t p kk r ⟨2048 * b + kk.val, by have := kk.isLt; omega⟩ hr (by subst hbt; rfl),
    r5_blk1_at V c t kk q ⟨2048 * b + kk.val, by have := kk.isLt; omega⟩ (by subst hbt; rfl)]

theorem r5_acc_inv (c : Dev nD) : ∀ (n : ℕ) (hn : n < cfg5.N) (p : Fin 1024) (q : Fin 64) (r : Fin 8192)
    (hr : r.val = 1024 * (n / 4) + p.val) (k : ℕ) (hk : k < 4) (hkn : k = n % 4),
    ((r5_outsAt V c n hn).2 : Vec Ideal S1024x64 .f32) (ix2 p q) = r5_acc (r5_arrL V c) (r5_arrR V c) r q k hk := by
  intro n
  induction n with
  | zero =>
    intro hn p q r hr k hk hkn
    obtain rfl : k = 0 := by omega
    refine (congrFun (r5_acc_first V c ⟨0, hn⟩ rfl) (ix2 p q)).trans ?_
    refine (r5_update_at V c ⟨0, hn⟩ _ p q r hr 0 hk rfl).trans ?_
    rfl
  | succ n ih =>
    intro hn p q r hr k hk hkn
    by_cases h0 : (n + 1) % 4 = 0
    · obtain rfl : k = 0 := by omega
      refine (congrFun (r5_acc_first V c ⟨n + 1, hn⟩ h0) (ix2 p q)).trans ?_
      refine (r5_update_at V c ⟨n + 1, hn⟩ _ p q r hr 0 hk h0.symm).trans ?_
      rfl
    · obtain ⟨k', rfl⟩ : ∃ k', k = k' + 1 := ⟨k - 1, by omega⟩
      refine (congrFun (r5_acc_next V c ⟨n + 1, hn⟩ h0) (ix2 p q)).trans ?_
      refine (r5_update_at V c ⟨n + 1, hn⟩ _ p q r hr (k' + 1) hk hkn).trans ?_
      show ((r5_outsAt V c n _).2 : Vec Ideal S1024x64 .f32) (ix2 p q) + _ = r5_acc (r5_arrL V c) (r5_arrR V c) r q k' _ + _
      rw [ih (Nat.lt_of_succ_lt hn) p q r (by omega) k' (by omega) (by omega)]

theorem r5_whole_sum (A : Vec Ideal S8192x8192 .f32) (T : Vec Ideal S8192x64 .f32) (r : Fin 8192) (q : Fin 64) (h : 3 < 4) :
    r5_acc A T r q 3 h = ∑ k : Fin 8192, A (ix2 r k) * T (ix2 k q) := by
  show (((Ideal.ofBits .f32 0x00000000#32 + r5_stretch A T r q 0 _) + r5_stretch A T r q 1 _) + r5_stretch A T r q 2 _) + r5_stretch A T r q 3 _ = _
  rw [Ideal.ofBits_zero_f32]
  exact (Cert.Spec.sum_four_steps (fun k : Fin 8192 => A (ix2 r k) * T (ix2 k q))).symm

def r5_sums (A : Vec Ideal S8192x8192 .f32) (T : Vec Ideal S8192x64 .f32) (i : ℕ) (hi : i < 8) : Vec Ideal S1024x64 .f32 :=
  fun y => ∑ k : Fin 8192, A (ix2 ⟨1024 * i + (y 0).val, by have := idx2_lt0 y; omega⟩ k) * T (ix2 k (y 1))

theorem r5_final_pay (c : Dev nD) (t : Fin cfg5.N) (h3 : t.val % 4 = 3) :
    (r5_dat V c).after 2 t = k5_pay3 (F := Ideal) (r5_sums (r5_arrL V c) (r5_arrR V c) (t.val / 4) (by have := t.isLt; have : cfg5.N = 32 := N_5; omega)) := by
  rw [r5_after2, r5_out_last V c t (by omega) h3]
  refine congrArg (k5_pay3 (F := Ideal)) (funext fun y => ?_)
  obtain ⟨p, q, rfl⟩ : ∃ (p : Fin 1024) (q : Fin 64), y = ix2 p q := ⟨y 0, y 1, eq_ix2 y⟩
  refine (r5_acc_inv V c t.val t.isLt p q ⟨1024 * (t.val / 4) + p.val, by have := t.isLt; have : cfg5.N = 32 := N_5; omega⟩ rfl 3 (by omega) h3.symm).trans ?_
  exact r5_whole_sum _ _ _ _ _

theorem r5_cover (i : S8192x64.Idx) : ∃ t : Fin cfg5.N, (cfg5.win 2).flush t = true ∧ i ∈ ((cfg5.win 2).blk t).view.set := by
  have hi0 : (i 0).val < 8192 := idx2_lt0 i
  have hN : cfg5.N = 32 := N_5
  obtain ⟨t, ht⟩ : ∃ t : Fin cfg5.N, t.val = 4 * ((i 0).val / 1024) + 3 := ⟨⟨4 * ((i 0).val / 1024) + 3, by omega⟩, rfl⟩
  refine ⟨t, (flush5_2 t).mpr (by omega), ?_⟩
  show i ∈ ((View.whole main_v7).slice (win5_2.rect t)).set
  rw [View.set_slice_whole, Rect.mem_set_unit]
  intro a
  match a with
  | ⟨0, _⟩ =>
    show win5_2.index t 0 * 1024 ≤ (i 0).val ∧ (i 0).val < win5_2.index t 0 * 1024 + 1024
    rw [(r5_idx2 t).1]
    omega
  | ⟨1, _⟩ =>
    show win5_2.index t 1 * S1024x64.size 1 ≤ (i 1).val ∧ (i 1).val < win5_2.index t 1 * S1024x64.size 1 + S1024x64.size 1
    rw [(r5_idx2 t).2, Nat.zero_mul, Nat.zero_add]
    exact ⟨Nat.zero_le _, (i 1).isLt⟩

theorem r5_flushed_of (c : Dev nD) (G : Vec Ideal S8192x64 .f32)
    (hG : ∀ (i : ℕ) (hi : i < 8) (p : Fin 1024) (q : Fin 64) (r : Fin 8192) (hr : r.val = 1024 * i + p.val),
      k5_pay3 (F := Ideal) (r5_sums (r5_arrL V c) (r5_arrR V c) i hi) (ix2 p q) = G (ix2 r q))
    (t : Fin cfg5.N) (hf : (cfg5.win 2).flush t = true) :
    (r5_dat V c).flushed 2 t = ((cfg5.win 2).blk t).view.read (Elt Ideal) G := by
  have h3 := (flush5_2 t).mp hf
  have hN : cfg5.N = 32 := N_5
  have ht := t.isLt
  show (cfg5.win 2).cut (grid5.coords t) ((r5_dat V c).after 2 t) = _
  rw [r5_final_pay V c t h3]
  funext j
  obtain ⟨p, q, rfl⟩ : ∃ (p : Fin 1024) (q : Fin 64), j = ix2 p q := ⟨j 0, j 1, eq_ix2 j⟩
  show k5_pay3 (F := Ideal) (r5_sums (r5_arrL V c) (r5_arrR V c) (t.val / 4) _) (ix2 p q) = G (((cfg5.win 2).blk t).view.emb (ix2 p q))
  rw [hG (t.val / 4) (by omega) p q ⟨1024 * (t.val / 4) + p.val, by omega⟩ rfl]
  congr 1
  funext a
  apply Fin.ext
  match a with
  | ⟨0, _⟩ => show 1024 * (t.val / 4) + p.val = win5_2.index t 0 * 1024 + 1 * p.val; rw [(r5_idx2 t).1]; omega
  | ⟨1, _⟩ => show q.val = win5_2.index t 1 * S1024x64.size 1 + 1 * q.val; rw [(r5_idx2 t).2]; omega

theorem r5_arr_of (c : Dev nD) (G : Vec Ideal S8192x64 .f32)
    (hG : ∀ (i : ℕ) (hi : i < 8) (p : Fin 1024) (q : Fin 64) (r : Fin 8192) (hr : r.val = 1024 * i + p.val),
      k5_pay3 (F := Ideal) (r5_sums (r5_arrL V c) (r5_arrR V c) i hi) (ix2 p q) = G (ix2 r q)) :
    (r5_dat V c).arrAt 2 cfg5.N = G :=
  (r5_dat V c).arrAt_eq_of_cover 2 G (r5_flushed_of V c G hG) r5_cover

end Sums

end Cert.KernelIdeal.Hand

end
-- ==== Proof.Hand.R5Value.lean ====
import proofs.«108687_j68341519613982_1_alg».proof.Proof.Hand.R5s

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem r5_sums_row (A : Vec Ideal S8192x8192 .f32) (T : Vec Ideal S8192x64 .f32) (i : ℕ) (hi : i < 8)
    (p : Fin 1024) (r : Fin 8192) (hr : r.val = 1024 * i + p.val) (k : Fin 64) :
    r5_sums A T i hi (ix2 p k) = Cert.Spec.mm A T (ix2 r k) := by
  have e : (⟨1024 * i + p.val, by have := p.isLt; omega⟩ : Fin 8192) = r := Fin.ext hr.symm
  show ∑ kk : Fin 8192, A (ix2 (⟨1024 * i + p.val, _⟩ : Fin 8192) kk) * T (ix2 kk k) = ∑ kk : Fin 8192, A (ix2 r kk) * T (ix2 kk k)
  rw [e]

theorem final5 (V : (c : Dev nD) → (b : Ref sig .tc) → Buf (Elt Ideal) ((c : Thread nD τ).loc b)) (c : Dev nD) :
    ((region5 (F := Ideal) V).dat c).arrAt 2 cfg5.N = Cert.Spec.logSoftmax (Cert.Spec.mm (V c main_arg1) (V c main_v6)) := by
  refine r5_arr_of V c _ fun i hi p q r hr => ?_
  refine (k5_pay3_apply _ p q).trans ?_
  refine Eq.trans ?_ (Cert.Spec.logSoftmax_apply _ r q).symm
  exact congrArg (fun g => Cert.Spec.lsmRow g q) (funext fun k => r5_sums_row _ _ i hi p r hr k)

end Cert.KernelIdeal.Hand

end
-- ==== Proof.Hand.RefValue.lean ====
import proofs.«108687_j68341519613982_1_alg».proof.Defs
import proofs.«108687_j68341519613982_1_alg».proof.Proof.Hand.RefRead
import proofs.«108687_j68341519613982_1_alg».proof.Proof.Hand.Spec

noncomputable section

open scoped BigOperators

namespace Cert.ReferenceIdeal.RefValue

open Cert.ReferenceIdeal Cert.ReferenceIdeal.Gen Cert.ReferenceIdeal.ReadP Cert.ReferenceIdeal.ValueP
open Idealize.ShloMosaic Idealize.ShloMosaic.TcCoe Idealize.ShloMosaic.ValueIdx Cert.Spec

theorem ix2_of {n0 n1 : Nat} (j : (⟨2, ![n0, n1]⟩ : Shape).Idx) (a : Fin n0) (b : Fin n1) (h0 : j 0 = a) (h1 : j 1 = b) :
    j = ix2 a b := by
  subst h0; subst h1; exact eq_ix2 j

theorem ix1_of {n : Nat} (j : (⟨1, ![n]⟩ : Shape).Idx) (a : Fin n) (h0 : j 0 = a) : j = ix1 a := by
  subst h0; exact eq_ix1 j

variable (X : Mat 8192 512) (A1 A2 : Mat 8192 8192) (W1 : Mat 512 256) (f1 : Vect 8192) (W2 : Mat 256 64) (f2 : Vect 8192)

theorem features_times_weights : val_main_v0 (F := Ideal) X W1 = mm X W1 := by
  funext i
  rw [val_main_v0_apply]
  exact Finset.sum_congr rfl fun k _ => by
    rw [ix2_of (lidx_main_v0 i k) (i 0) k rfl rfl, ix2_of (ridx_main_v0 i k) k (i 1) rfl rfl]

theorem inverse_transform₁ {T : Mat 8192 256} (h : val_main_v0 (F := Ideal) X W1 = T) :
    val_main_v1 (F := Ideal) X A2 W1 = mm A2 T := by
  funext i
  rw [val_main_v1_apply, h]
  exact Finset.sum_congr rfl fun k _ => by
    rw [ix2_of (lidx_main_v1 i k) (i 0) k rfl rfl, ix2_of (ridx_main_v1 i k) k (i 1) rfl rfl]

theorem filtered₁ {T : Mat 8192 256} (h : val_main_v1 (F := Ideal) X A2 W1 = T) :
    val_main_v4 (F := Ideal) X A2 W1 f1 = rowScale T (col f1) := by
  funext i
  rw [val_main_v4_apply, val_main_v3_apply, val_main_v2_apply, h, ix1_of (idx_main_v2 (idx_main_v3 i)) (i 0) rfl]
  show f1 (ix1 (i 0)) * T i = T i * f1 (ix1 (i 0))
  exact mul_comm _ _

theorem transform₁ {T : Mat 8192 256} (h : val_main_v4 (F := Ideal) X A2 W1 f1 = T) :
    val_main_v5 (F := Ideal) X A1 A2 W1 f1 = mm A1 T := by
  funext i
  rw [val_main_v5_apply, h]
  exact Finset.sum_congr rfl fun k _ => by
    rw [ix2_of (lidx_main_v5 i k) (i 0) k rfl rfl, ix2_of (ridx_main_v5 i k) k (i 1) rfl rfl]

theorem positive_part {T : Mat 8192 256} (h : val_main_v5 (F := Ideal) X A1 A2 W1 f1 = T) :
    val_main_v6 (F := Ideal) X A1 A2 W1 f1 = Spec.posPart T := by
  funext i
  rw [val_main_v6_apply, val_main_call0_v0_apply, val_main_call0_cst_apply, h]
  rfl

theorem hidden_times_weights {T : Mat 8192 256} (h : val_main_v6 (F := Ideal) X A1 A2 W1 f1 = T) :
    val_main_v7 (F := Ideal) X A1 A2 W1 f1 W2 = mm T W2 := by
  funext i
  rw [val_main_v7_apply, h]
  exact Finset.sum_congr rfl fun k _ => by
    rw [ix2_of (lidx_main_v7 i k) (i 0) k rfl rfl, ix2_of (ridx_main_v7 i k) k (i 1) rfl rfl]

theorem inverse_transform₂ {T : Mat 8192 64} (h : val_main_v7 (F := Ideal) X A1 A2 W1 f1 W2 = T) :
    val_main_v8 (F := Ideal) X A1 A2 W1 f1 W2 = mm A2 T := by
  funext i
  rw [val_main_v8_apply, h]
  exact Finset.sum_congr rfl fun k _ => by
    rw [ix2_of (lidx_main_v8 i k) (i 0) k rfl rfl, ix2_of (ridx_main_v8 i k) k (i 1) rfl rfl]

theorem filtered₂ {T : Mat 8192 64} (h : val_main_v8 (F := Ideal) X A1 A2 W1 f1 W2 = T) :
    val_main_v11 (F := Ideal) X A1 A2 W1 f1 W2 f2 = rowScale T (col f2) := by
  funext i
  rw [val_main_v11_apply, val_main_v10_apply, val_main_v9_apply, h, ix1_of (idx_main_v9 (idx_main_v10 i)) (i 0) rfl]
  show f2 (ix1 (i 0)) * T i = T i * f2 (ix1 (i 0))
  exact mul_comm _ _

theorem transform₂ {T : Mat 8192 64} (h : val_main_v11 (F := Ideal) X A1 A2 W1 f1 W2 f2 = T) :
    val_main_v12 (F := Ideal) X A1 A2 W1 f1 W2 f2 = mm A1 T := by
  funext i
  rw [val_main_v12_apply, h]
  exact Finset.sum_congr rfl fun k _ => by
    rw [ix2_of (lidx_main_v12 i k) (i 0) k rfl rfl, ix2_of (ridx_main_v12 i k) k (i 1) rfl rfl]

theorem row_max_at {T : Mat 8192 64} (h : val_main_v12 (F := Ideal) X A1 A2 W1 f1 W2 f2 = T) (j : S8192.Idx) :
    val_main_call1_v2 (F := Ideal) X A1 A2 W1 f1 W2 f2 j = rowMax (fun k => T (ix2 (j 0) k)) := by
  rw [val_main_call1_v2_apply, val_main_call1_v1_apply, val_main_call1_cst_0_apply]
  unfold val_main_call1_v0
  have fold := Host.reduce_eq_fold_single (FloatOps.maximumf (F := Ideal) (φ := .f32)) T (val_main_call1_cst (F := Ideal))
    reducesTo_S8192x64_S8192_d1 (by decide) h_S_ j
  rw [h, fold]
  have row : (T ∘ Shape.Reduces.lift (s := S8192x64) (a := 1) (t := S8192) (by decide) j)
      = fun k => T (ix2 (j 0) k) :=
    funext fun k => congrArg T (ix2_of _ (j 0) k rfl rfl)
  rw [row]
  rfl

theorem shifted_at {T : Mat 8192 64} (h : val_main_v12 (F := Ideal) X A1 A2 W1 f1 W2 f2 = T) (i : S8192x64.Idx) :
    val_main_call1_v5 (F := Ideal) X A1 A2 W1 f1 W2 f2 i = T i - rowMax (fun k => T (ix2 (i 0) k)) := by
  rw [val_main_call1_v5_apply, val_main_call1_v4_apply, val_main_call1_v3_apply, row_max_at X A1 A2 W1 f1 W2 f2 h, h]
  rfl

theorem exp_sum_at {T : Mat 8192 64} (h : val_main_v12 (F := Ideal) X A1 A2 W1 f1 W2 f2 = T) (j : S8192.Idx) :
    val_main_call1_v7 (F := Ideal) X A1 A2 W1 f1 W2 f2 j
      = ∑ k : Fin 64, Ideal.exp (T (ix2 (j 0) k) - rowMax (fun k' => T (ix2 (j 0) k'))) := by
  rw [val_main_call1_v7_apply, val_main_call1_cst_1_apply, Ideal.ofBits_def, Ideal.ofBits_zero_f32, zero_add]
  refine Finset.sum_congr rfl fun k _ => ?_
  rw [val_main_call1_v6_apply, shifted_at X A1 A2 W1 f1 W2 f2 h, ix2_of (idx_main_call1_v7 j k) (j 0) k rfl rfl]
  rfl

theorem log_softmax_rows {T : Mat 8192 64} (h : val_main_v12 (F := Ideal) X A1 A2 W1 f1 W2 f2 = T) :
    val_main_v13 (F := Ideal) X A1 A2 W1 f1 W2 f2 = logSoftmax T := by
  funext i
  rw [val_main_v13_apply, val_main_call1_v10_apply, val_main_call1_v9_apply, val_main_call1_v8_apply,
    exp_sum_at X A1 A2 W1 f1 W2 f2 h, shifted_at X A1 A2 W1 f1 W2 f2 h, congrArg T (eq_ix2 i)]
  rfl

theorem network :
    val_main_v13 (F := Ideal) X A1 A2 W1 f1 W2 f2
      = logSoftmax (mm A1 (rowScale (mm A2 (mm (Spec.posPart (mm A1 (rowScale (mm A2 (mm X W1)) (col f1)))) W2)) (col f2))) :=
  log_softmax_rows X A1 A2 W1 f1 W2 f2
    (transform₂ X A1 A2 W1 f1 W2 f2
      (filtered₂ X A1 A2 W1 f1 W2 f2
        (inverse_transform₂ X A1 A2 W1 f1 W2
          (hidden_times_weights X A1 A2 W1 f1 W2
            (positive_part X A1 A2 W1 f1
              (transform₁ X A1 A2 W1 f1
                (filtered₁ X A2 W1 f1
                  (inverse_transform₁ X A2 W1
                    (features_times_weights X W1)))))))))

theorem ref_eq (m : (ℓ : Loc Cert.ReferenceIdeal.nD Cert.ReferenceIdeal.τ Cert.ReferenceIdeal.sig) → Buf (Elt Ideal) ℓ)
    (c : Dev Cert.ReferenceIdeal.nD) :
    (res_main_v13 (F := Ideal) m c : Mat 8192 64)
      = logSoftmax
          (mm (m ((c.tc : Thread nD τ).loc main_arg1) : Mat 8192 8192)
            (rowScale
              (mm (m ((c.tc : Thread nD τ).loc main_arg2) : Mat 8192 8192)
                (mm
                  (Spec.posPart
                    (mm (m ((c.tc : Thread nD τ).loc main_arg1) : Mat 8192 8192)
                      (rowScale
                        (mm (m ((c.tc : Thread nD τ).loc main_arg2) : Mat 8192 8192)
                          (mm (m ((c.tc : Thread nD τ).loc main_arg0) : Mat 8192 512)
                            (m ((c.tc : Thread nD τ).loc main_arg3) : Mat 512 256)))
                        (col (m ((c.tc : Thread nD τ).loc main_arg4) : Vect 8192)))))
                  (m ((c.tc : Thread nD τ).loc main_arg5) : Mat 256 64)))
              (col (m ((c.tc : Thread nD τ).loc main_arg6) : Vect 8192)))) :=
  (val_main_v13_eq (F := Ideal) m c).trans (network _ _ _ _ _ _ _)

end Cert.ReferenceIdeal.RefValue

end
-- ==== Proof.Hand.Final.lean ====
import proofs.«108687_j68341519613982_1_alg».proof.Proof.Gen.KernelIdeal
import proofs.«108687_j68341519613982_1_alg».proof.Proof.Gen.Pre_finite_inputs
import proofs.«108687_j68341519613982_1_alg».proof.Proof.Hand.Whole
import proofs.«108687_j68341519613982_1_alg».proof.Proof.Hand.Chain
import proofs.«108687_j68341519613982_1_alg».proof.Proof.Hand.R0Value
import proofs.«108687_j68341519613982_1_alg».proof.Proof.Hand.R1Value
import proofs.«108687_j68341519613982_1_alg».proof.Proof.Hand.R2Value
import proofs.«108687_j68341519613982_1_alg».proof.Proof.Hand.R3Value
import proofs.«108687_j68341519613982_1_alg».proof.Proof.Hand.R4Value
import proofs.«108687_j68341519613982_1_alg».proof.Proof.Hand.R5Value
import proofs.«108687_j68341519613982_1_alg».proof.Proof.Hand.RefValue

noncomputable section

namespace Cert.Proof.Parts

open Idealize.ShloMosaic Idealize.ShloMosaic.TcCoe Idealize.SL.Sem
open Cert.KernelIdeal Cert.KernelIdeal.Gen Cert.KernelIdeal.Hand

theorem frame_kernelIdeal : Cert.frame_KernelIdeal := fun m ρ _ => whole_frame (F := Ideal) m ρ

theorem frame_reference : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' _ hagree
  refine ⟨fun c => W8 (F := Ideal) region0 region1 region2 region3 region4 region5 m c (Proc.devRef .tc main_v7),
    whole_value (F := Ideal) m ρ, ?_⟩
  refine (θ_run Cert.ReferenceIdeal.defs _ _).mono (fun _ h c => ⟨(h c).1.trans ?_, (h c).2⟩)
    (Cert.ReferenceIdeal.ValueP.run (F := Ideal) m' ρ')
  have hk := result_eq (fun V => region0 (F := Ideal) V) (fun V => region1 (F := Ideal) V) (fun V => region2 (F := Ideal) V)
    (fun V => region3 (F := Ideal) V) (fun V => region4 (F := Ideal) V) (fun V => region5 (F := Ideal) V) m
    final0 final1 final2 final3 final4 final5 c
  refine (Cert.ReferenceIdeal.RefValue.ref_eq m' c).trans ?_
  rw [(hagree c).1, (hagree c).2.1, (hagree c).2.2.1, (hagree c).2.2.2.1, (hagree c).2.2.2.2.1, (hagree c).2.2.2.2.2.1,
    (hagree c).2.2.2.2.2.2]
  exact hk.symm

end Cert.Proof.Parts

end
-- ==== Proof.lean ====
import proofs.«108687_j68341519613982_1_alg».proof.Proof.Gen.Kernel
import proofs.«108687_j68341519613982_1_alg».proof.Proof.HandBits.Whole
import proofs.«108687_j68341519613982_1_alg».proof.Proof.Hand.Final

noncomputable section

namespace Cert.Proof

open Idealize.ShloMosaic Idealize.SL.Sem

theorem frame_kernel : Cert.frame_Kernel := fun m ρ _ => Cert.Kernel.Hand.whole_frame (F := Bits) m ρ

theorem claim : Cert.Claim :=
  ⟨Cert.Kernel.Gen.facts, Cert.KernelIdeal.Gen.facts, Cert.ReferenceIdeal.Gen.facts, Cert.Pre_finite_inputs.Gen.facts,
    frame_kernel, Cert.Proof.Parts.frame_kernelIdeal, Cert.Proof.Parts.frame_reference, trivial, Cert.Proof.Parts.algebraic⟩

end Cert.Proof

end
